-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S5504x2048 : Shape := ⟨2, ![5504, 2048]⟩
abbrev S2048x5504 : Shape := ⟨2, ![2048, 5504]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S5504x2048 : S_.BroadcastsInDim S5504x2048 (![] : Fin 0 → Fin S5504x2048.rank)
  reducesTo_S5504x2048_S_d0_1 : S5504x2048.ReducesTo [0, 1] S_
  bcast_S_S2048x5504 : S_.BroadcastsInDim S2048x5504 (![] : Fin 0 → Fin S2048x5504.rank)
  reducesTo_S2048x5504_S_d0_1 : S2048x5504.ReducesTo [0, 1] S_

variable [Facts]

def fn_part1 {F : FTy → Type} [FloatOps F] (main_v13 : IVec S_ 1) (main_v16 : IVec S2048x5504 1) : IVec S_ 1 :=
  let main_c_5 : IVec S_ 1 := constantI S_ 1 1#1
  let main_v17 : IVec S_ 1 := (fun x v => Host.reduce IntOp.andi x v reducesTo_S2048x5504_S_d0_1 h_S_) main_v16 main_c_5
  let main_v18 : IVec S_ 1 := andi main_v13 main_v17
  main_v18

def fn {F : FTy → Type} [FloatOps F] (main_arg0 : FVec F S4x2048x2048 .f32) (main_arg1 : FVec F S5504x2048 .f32) (main_arg2 : FVec F S5504x2048 .f32) (main_arg3 : FVec F S2048x5504 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S5504x2048 .f32 := Host.absf main_arg1
  let main_cst_0 : FVec F S_ .f32 := constant S_ .f32 0x7F800000#32
  let main_v5 : FVec F S5504x2048 .f32 := broadcastInDim S5504x2048 ![] bcast_S_S5504x2048 main_cst_0
  let main_v6 : IVec S5504x2048 1 := cmpf .olt main_v4 main_v5
  let main_c_1 : IVec S_ 1 := constantI S_ 1 1#1
  let main_v7 : IVec S_ 1 := (fun x v => Host.reduce IntOp.andi x v reducesTo_S5504x2048_S_d0_1 h_S_) main_v6 main_c_1
  let main_v8 : IVec S_ 1 := andi main_v3 main_v7
  let main_v9 : FVec F S5504x2048 .f32 := Host.absf main_arg2
  let main_cst_2 : FVec F S_ .f32 := constant S_ .f32 0x7F800000#32
  let main_v10 : FVec F S5504x2048 .f32 := broadcastInDim S5504x2048 ![] bcast_S_S5504x2048 main_cst_2
  let main_v11 : IVec S5504x2048 1 := cmpf .olt main_v9 main_v10
  let main_c_3 : IVec S_ 1 := constantI S_ 1 1#1
  let main_v12 : IVec S_ 1 := (fun x v => Host.reduce IntOp.andi x v reducesTo_S5504x2048_S_d0_1 h_S_) main_v11 main_c_3
  let main_v13 : IVec S_ 1 := andi main_v8 main_v12
  let main_v14 : FVec F S2048x5504 .f32 := Host.absf main_arg3
  let main_cst_4 : FVec F S_ .f32 := constant S_ .f32 0x7F800000#32
  let main_v15 : FVec F S2048x5504 .f32 := broadcastInDim S2048x5504 ![] bcast_S_S2048x5504 main_cst_4
  let main_v16 : IVec S2048x5504 1 := cmpf .olt main_v14 main_v15
  fn_part1 (F := F) main_v13 main_v16
-- ==== Kernel.lean ====
abbrev S4x2048x2048 : Shape := ⟨3, ![4, 2048, 2048]⟩
abbrev S5504x2048 : Shape := ⟨2, ![5504, 2048]⟩
abbrev S2048x5504 : Shape := ⟨2, ![2048, 5504]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩
abbrev S8192 : Shape := ⟨1, ![8192]⟩
abbrev S8192x1 : Shape := ⟨2, ![8192, 1]⟩
abbrev S8192x5632 : Shape := ⟨2, ![8192, 5632]⟩
abbrev S1024x512 : Shape := ⟨2, ![1024, 512]⟩
abbrev S1024x1 : Shape := ⟨2, ![1024, 1]⟩
abbrev S512x512 : Shape := ⟨2, ![512, 512]⟩
abbrev S512x4x128 : Shape := ⟨3, ![512, 4, 128]⟩
abbrev S512x4 : Shape := ⟨2, ![512, 4]⟩
abbrev S512x4x1 : Shape := ⟨3, ![512, 4, 1]⟩

abbrev nBuf : Space → Nat
  | .hbm => 39
  | .vmem => 21
  | .smem => 0
  | _ => 0

abbrev bufTy : (tb : Table) → Fin (tcTables nBuf tb) → BufTy
  | .hbm, ⟨0, _⟩ => ⟨S4x2048x2048, .f32⟩
  | .hbm, ⟨1, _⟩ => ⟨S5504x2048, .f32⟩
  | .hbm, ⟨2, _⟩ => ⟨S5504x2048, .f32⟩
  | .hbm, ⟨3, _⟩ => ⟨S2048x5504, .f32⟩
  | .hbm, ⟨4, _⟩ => ⟨S8192x2048, .f32⟩
  | .hbm, ⟨5, _⟩ => ⟨S_, .i32⟩
  | .hbm, ⟨6, _⟩ => ⟨S_, .f32⟩
  | .hbm, ⟨7, _⟩ => ⟨S5632x2048, .f32⟩
  | .hbm, ⟨8, _⟩ => ⟨S_, .i32⟩
  | .hbm, ⟨9, _⟩ => ⟨S_, .f32⟩
  | .hbm, ⟨10, _⟩ => ⟨S5632x2048, .f32⟩
  | .hbm, ⟨11, _⟩ => ⟨S_, .i32⟩
  | .hbm, ⟨12, _⟩ => ⟨S_, .f32⟩
  | .hbm, ⟨13, _⟩ => ⟨S2048x5632, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S4x2048x2048, .f32⟩
  | .local _ .vmem, ⟨0, _⟩ => ⟨S1024x512, .f32⟩
  | .local _ .vmem, ⟨1, _⟩ => ⟨S1024x512, .f32⟩
  | .local _ .vmem, ⟨2, _⟩ => ⟨S1024x1, .f32⟩
  | .local _ .vmem, ⟨3, _⟩ => ⟨S1024x1, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x1, .f32⟩
  | .local _ .vmem, ⟨15, _⟩ => ⟨S1024x1, .f32⟩
  | .local _ .vmem, ⟨16, _⟩ => ⟨S512x512, .f32⟩
  | .local _ .vmem, ⟨17, _⟩ => ⟨S512x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call3_v0 : Ref sig .tc := ⟨.hbm, 19, rfl⟩
abbrev main_call3_v1 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_v12 : Ref sig .tc := ⟨.hbm, 28, rfl⟩
abbrev main_v13 : Ref sig .tc := ⟨.hbm, 29, rfl⟩
abbrev main_cst_5 : Ref sig .tc := ⟨.hbm, 30, rfl⟩
abbrev main_call4_v0 : Ref sig .tc := ⟨.hbm, 31, rfl⟩
abbrev main_call4_v1 : Ref sig .tc := ⟨.hbm, 32, rfl⟩
abbrev main_v14 : Ref sig .tc := ⟨.hbm, 33, rfl⟩
abbrev main_cst_6 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨3, ![8, 11, 4], ![false, false, false]⟩

def k0_cond2 (i : grid0.Coords) : BitVec 1 :=
  let arg2 : BitVec 32 := BitVec.ofNat 32 (i 2).val
  let c3_i32 : BitVec 32 := 3#32
  let v72 : BitVec 1 := Scalar.cmpi .eq arg2 c3_i32
  let v73 : BitVec 32 := Scalar.extui v72
  let c0_i32_29 : BitVec 32 := 0#32
  let v74 : BitVec 1 := Scalar.cmpi .ne v73 c0_i32_29
  v74

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![8, 4, 11], ![false, false, false]⟩

def k1_cond2 (i : grid1.Coords) : BitVec 1 :=
  let arg2 : BitVec 32 := BitVec.ofNat 32 (i 2).val
  let c10_i32 : BitVec 32 := 10#32
  let v44 : BitVec 1 := Scalar.cmpi .eq arg2 c10_i32
  let v45 : BitVec 32 := Scalar.extui v44
  let c0_i32_17 : BitVec 32 := 0#32
  let v46 : BitVec 1 := Scalar.cmpi .ne v45 c0_i32_17
  v46

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x2048_S8192x2048 : S4x2048x2048.ShapeCasts S8192x2048
  pads_S5504x2048_S5632x2048_01280_000 : S5504x2048.Pads (![0, 0] : Fin 2 → Nat) ![128, 0] ![0, 0] S5632x2048
  h_S_ : 0 < S_.numel
  pads_S2048x5504_S2048x5632_000_01280 : S2048x5504.Pads (![0, 0] : Fin 2 → Nat) ![0, 128] ![0, 0] S2048x5632
  reducesTo_S8192x2048_S8192_d1 : S8192x2048.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512x512_S512x4x128 : S512x512.ShapeCasts S512x4x128
  reduces_S512x4x128_S512x4 : S512x4x128.Reduces [2] S512x4
  shapeCasts_S512x4_S512x4x1 : S512x4.ShapeCasts S512x4x1
  broadcasts_S512x4x1_S512x4x128 : S512x4x1.Broadcasts S512x4x128
  shapeCasts_S512x4x128_S512x512 : S512x4x128.ShapeCasts S512x512
  bitsLt_bf16_f32 : FTy.bits .bf16 < FTy.bits .f32
  reducesTo_S8192x5632_S8192_d1 : S8192x5632.ReducesTo [1] S8192
  shapeCasts_S8192x2048_S4x2048x2048 : S8192x2048.ShapeCasts S4x2048x2048
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x2048.size a
  hwx0_0 : ∀ i : grid0.Coords, EltTy.bits .f32 = 32 ∨ (Rect.block (s := S8192x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S5632x2048.size a
  hwx0_2 : ∀ i : grid0.Coords, EltTy.bits .f32 = 32 ∨ (Rect.block (s := S5632x2048) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S5632x2048.size a
  hwx0_3 : ∀ i : grid0.Coords, EltTy.bits .f32 = 32 ∨ (Rect.block (s := S5632x2048) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x5632.size a
  hwx0_4 : ∀ i : grid0.Coords, EltTy.bits .f32 = 32 ∨ (Rect.block (s := S8192x5632) S1024x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x5632.size a
  hwx1_0 : ∀ i : grid1.Coords, EltTy.bits .f32 = 32 ∨ (Rect.block (s := S8192x5632) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S2048x5632.size a
  hwx1_2 : ∀ i : grid1.Coords, EltTy.bits .f32 = 32 ∨ (Rect.block (s := S2048x5632) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x2048.size a
  hwx1_3 : ∀ i : grid1.Coords, EltTy.bits .f32 = 32 ∨ (Rect.block (s := S8192x2048) S1024x512.size (cc1_transform_3 i) (hinb1_3 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v10) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S5504x2048 : Shape := ⟨2, ![5504, 2048]⟩
abbrev S2048x5504 : Shape := ⟨2, ![2048, 5504]⟩
abbrev S_ : Shape := ⟨0, ![]⟩
abbrev S4x2048 : Shape := ⟨2, ![4, 2048]⟩
abbrev S4x2048x1 : Shape := ⟨3, ![4, 2048, 1]⟩
abbrev S5504x16x128 : Shape := ⟨3, ![5504, 16, 128]⟩
abbrev S5504x16 : Shape := ⟨2, ![5504, 16]⟩
abbrev S5504x16x1 : Shape := ⟨3, ![5504, 16, 1]⟩
abbrev S4x2048x5504 : Shape := ⟨3, ![4, 2048, 5504]⟩
abbrev S2048x43x128 : Shape := ⟨3, ![2048, 43, 128]⟩
abbrev S2048x43 : Shape := ⟨2, ![2048, 43]⟩
abbrev S2048x43x1 : Shape := ⟨3, ![2048, 43, 1]⟩

abbrev nBuf : Space → Nat
  | .hbm => 176
  | .vmem => 0
  | .smem => 0
  | _ => 0

abbrev hbmTy0_0 (i : Nat) : BufTy := match i % 128 with
  | 0 => ⟨S4x2048x2048, .f32⟩
  | 1 => ⟨S5504x2048, .f32⟩
  | 2 => ⟨S5504x2048, .f32⟩
  | 3 => ⟨S2048x5504, .f32⟩
  | 4 => ⟨S4x2048x2048, .f32⟩
  | 5 => ⟨S_, .f32⟩
  | 6 => ⟨S4x2048, .f32⟩
  | 7 => ⟨S4x2048x1, .f32⟩
  | 8 => ⟨S_, .f32⟩
  | 9 => ⟨S_, .f32⟩
  | 10 => ⟨S4x2048x1, .f32⟩
  | 11 => ⟨S4x2048x1, .f32⟩
  | 12 => ⟨S_, .f32⟩
  | 13 => ⟨S4x2048x1, .f32⟩
  | 14 => ⟨S4x2048x1, .f32⟩
  | 15 => ⟨S4x2048x2048, .f32⟩
  | 16 => ⟨S4x2048x2048, .f32⟩
  | 17 => ⟨S4x2048x2048, .f32⟩
  | 18 => ⟨S_, .f32⟩
  | 19 => ⟨S_, .f32⟩
  | 20 => ⟨S_, .f32⟩
  | 21 => ⟨S4x2048x2048, .f32⟩
  | 22 => ⟨S4x2048x2048, .f32⟩
  | 23 => ⟨S_, .f32⟩
  | 24 => ⟨S4x2048x2048, .f32⟩
  | 25 => ⟨S4x2048x2048, .f32⟩
  | 26 => ⟨S4x2048x2048, .f32⟩
  | 27 => ⟨S4x2048x2048, .f32⟩
  | 28 => ⟨S4x2048x2048, .f32⟩
  | 29 => ⟨S4x2048x2048, .f32⟩
  | 30 => ⟨S5504x16x128, .f32⟩
  | 31 => ⟨S5504x16x128, .f32⟩
  | 32 => ⟨S_, .f32⟩
  | 33 => ⟨S5504x16, .f32⟩
  | 34 => ⟨S5504x16x1, .f32⟩
  | 35 => ⟨S_, .f32⟩
  | 36 => ⟨S5504x16x1, .f32⟩
  | 37 => ⟨S5504x16x1, .f32⟩
  | 38 => ⟨S_, .f32⟩
  | 39 => ⟨S5504x16x1, .f32⟩
  | 40 => ⟨S5504x16x1, .f32⟩
  | 41 => ⟨S5504x16x128, .f32⟩
  | 42 => ⟨S5504x16x128, .f32⟩
  | 43 => ⟨S_, .f32⟩
  | 44 => ⟨S_, .f32⟩
  | 45 => ⟨S_, .f32⟩
  | 46 => ⟨S5504x16x128, .f32⟩
  | 47 => ⟨S5504x16x128, .f32⟩
  | 48 => ⟨S_, .f32⟩
  | 49 => ⟨S5504x16x128, .f32⟩
  | 50 => ⟨S5504x16x128, .f32⟩
  | 51 => ⟨S5504x16x128, .f32⟩
  | 52 => ⟨S5504x16x128, .f32⟩
  | 53 => ⟨S5504x16x128, .f32⟩
  | 54 => ⟨S5504x2048, .f32⟩
  | 55 => ⟨S5504x2048, .f32⟩
  | 56 => ⟨S5504x2048, .f32⟩
  | 57 => ⟨S4x2048x5504, .f32⟩
  | 58 => ⟨S4x2048x2048, .f32⟩
  | 59 => ⟨S_, .f32⟩
  | 60 => ⟨S4x2048, .f32⟩
  | 61 => ⟨S4x2048x1, .f32⟩
  | 62 => ⟨S_, .f32⟩
  | 63 => ⟨S_, .f32⟩
  | 64 => ⟨S4x2048x1, .f32⟩
  | 65 => ⟨S4x2048x1, .f32⟩
  | 66 => ⟨S_, .f32⟩
  | 67 => ⟨S4x2048x1, .f32⟩
  | 68 => ⟨S4x2048x1, .f32⟩
  | 69 => ⟨S4x2048x2048, .f32⟩
  | 70 => ⟨S4x2048x2048, .f32⟩
  | 71 => ⟨S4x2048x2048, .f32⟩
  | 72 => ⟨S_, .f32⟩
  | 73 => ⟨S_, .f32⟩
  | 74 => ⟨S_, .f32⟩
  | 75 => ⟨S4x2048x2048, .f32⟩
  | 76 => ⟨S4x2048x2048, .f32⟩
  | 77 => ⟨S_, .f32⟩
  | 78 => ⟨S4x2048x2048, .f32⟩
  | 79 => ⟨S4x2048x2048, .f32⟩
  | 80 => ⟨S4x2048x2048, .f32⟩
  | 81 => ⟨S4x2048x2048, .f32⟩
  | 82 => ⟨S4x2048x2048, .f32⟩
  | 83 => ⟨S4x2048x2048, .f32⟩
  | 84 => ⟨S5504x16x128, .f32⟩
  | 85 => ⟨S5504x16x128, .f32⟩
  | 86 => ⟨S_, .f32⟩
  | 87 => ⟨S5504x16, .f32⟩
  | 88 => ⟨S5504x16x1, .f32⟩
  | 89 => ⟨S_, .f32⟩
  | 90 => ⟨S5504x16x1, .f32⟩
  | 91 => ⟨S5504x16x1, .f32⟩
  | 92 => ⟨S_, .f32⟩
  | 93 => ⟨S5504x16x1, .f32⟩
  | 94 => ⟨S5504x16x1, .f32⟩
  | 95 => ⟨S5504x16x128, .f32⟩
  | 96 => ⟨S5504x16x128, .f32⟩
  | 97 => ⟨S_, .f32⟩
  | 98 => ⟨S_, .f32⟩
  | 99 => ⟨S_, .f32⟩
  | 100 => ⟨S5504x16x128, .f32⟩
  | 101 => ⟨S5504x16x128, .f32⟩
  | 102 => ⟨S_, .f32⟩
  | 103 => ⟨S5504x16x128, .f32⟩
  | 104 => ⟨S5504x16x128, .f32⟩
  | 105 => ⟨S5504x16x128, .f32⟩
  | 106 => ⟨S5504x16x128, .f32⟩
  | 107 => ⟨S5504x16x128, .f32⟩
  | 108 => ⟨S5504x2048, .f32⟩
  | 109 => ⟨S5504x2048, .f32⟩
  | 110 => ⟨S5504x2048, .f32⟩
  | 111 => ⟨S4x2048x5504, .f32⟩
  | 112 => ⟨S4x2048x5504, .f32⟩
  | 113 => ⟨S4x2048x5504, .f32⟩
  | 114 => ⟨S_, .f32⟩
  | 115 => ⟨S4x2048x5504, .f32⟩
  | 116 => ⟨S4x2048x5504, .f32⟩
  | 117 => ⟨S_, .f32⟩
  | 118 => ⟨S4x2048x5504, .f32⟩
  | 119 => ⟨S4x2048x5504, .f32⟩
  | 120 => ⟨S4x2048x5504, .f32⟩
  | 121 => ⟨S4x2048x5504, .f32⟩
  | 122 => ⟨S4x2048x5504, .f32⟩
  | 123 => ⟨S_, .f32⟩
  | 124 => ⟨S4x2048, .f32⟩
  | 125 => ⟨S4x2048x1, .f32⟩
  | 126 => ⟨S_, .f32⟩
  | 127 => ⟨S_, .f32⟩
  | _ => ⟨S4x2048x2048, .f32⟩

abbrev hbmTy0_1 (i : Nat) : BufTy := match i % 128 with
  | 0 => ⟨S4x2048x1, .f32⟩
  | 1 => ⟨S4x2048x1, .f32⟩
  | 2 => ⟨S_, .f32⟩
  | 3 => ⟨S4x2048x1, .f32⟩
  | 4 => ⟨S4x2048x1, .f32⟩
  | 5 => ⟨S4x2048x5504, .f32⟩
  | 6 => ⟨S4x2048x5504, .f32⟩
  | 7 => ⟨S4x2048x5504, .f32⟩
  | 8 => ⟨S_, .f32⟩
  | 9 => ⟨S_, .f32⟩
  | 10 => ⟨S_, .f32⟩
  | 11 => ⟨S4x2048x5504, .f32⟩
  | 12 => ⟨S4x2048x5504, .f32⟩
  | 13 => ⟨S_, .f32⟩
  | 14 => ⟨S4x2048x5504, .f32⟩
  | 15 => ⟨S4x2048x5504, .f32⟩
  | 16 => ⟨S4x2048x5504, .f32⟩
  | 17 => ⟨S4x2048x5504, .f32⟩
  | 18 => ⟨S4x2048x5504, .f32⟩
  | 19 => ⟨S4x2048x5504, .f32⟩
  | 20 => ⟨S2048x43x128, .f32⟩
  | 21 => ⟨S2048x43x128, .f32⟩
  | 22 => ⟨S_, .f32⟩
  | 23 => ⟨S2048x43, .f32⟩
  | 24 => ⟨S2048x43x1, .f32⟩
  | 25 => ⟨S_, .f32⟩
  | 26 => ⟨S2048x43x1, .f32⟩
  | 27 => ⟨S2048x43x1, .f32⟩
  | 28 => ⟨S_, .f32⟩
  | 29 => ⟨S2048x43x1, .f32⟩
  | 30 => ⟨S2048x43x1, .f32⟩
  | 31 => ⟨S2048x43x128, .f32⟩
  | 32 => ⟨S2048x43x128, .f32⟩
  | 33 => ⟨S_, .f32⟩
  | 34 => ⟨S_, .f32⟩
  | 35 => ⟨S_, .f32⟩
  | 36 => ⟨S2048x43x128, .f32⟩
  | 37 => ⟨S2048x43x128, .f32⟩
  | 38 => ⟨S_, .f32⟩
  | 39 => ⟨S2048x43x128, .f32⟩
  | 40 => ⟨S2048x43x128, .f32⟩
  | 41 => ⟨S2048x43x128, .f32⟩
  | 42 => ⟨S2048x43x128, .f32⟩
  | 43 => ⟨S2048x43x128, .f32⟩
  | 44 => ⟨S2048x5504, .f32⟩
  | 45 => ⟨S2048x5504, .f32⟩
  | 46 => ⟨S2048x5504, .f32⟩
  | 47 => ⟨S4x2048x2048, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_cst_3 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_cst_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_cst_8 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_9 : Ref sig .tc := ⟨.hbm, 59, rfl⟩
abbrev main_v33 : Ref sig .tc := ⟨.hbm, 60, rfl⟩
abbrev main_v34 : Ref sig .tc := ⟨.hbm, 61, rfl⟩
abbrev main_cst_10 : Ref sig .tc := ⟨.hbm, 62, rfl⟩
abbrev main_call5_v0 : Ref sig .tc := ⟨.hbm, 63, rfl⟩
abbrev main_call5_v1 : Ref sig .tc := ⟨.hbm, 64, rfl⟩
abbrev main_v35 : Ref sig .tc := ⟨.hbm, 65, rfl⟩
abbrev main_cst_11 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_12 : Ref sig .tc := ⟨.hbm, 72, rfl⟩
abbrev main_cst_13 : Ref sig .tc := ⟨.hbm, 73, rfl⟩
abbrev main_call7_v0 : Ref sig .tc := ⟨.hbm, 74, rfl⟩
abbrev main_call7_v1 : Ref sig .tc := ⟨.hbm, 75, rfl⟩
abbrev main_call7_v2 : Ref sig .tc := ⟨.hbm, 76, rfl⟩
abbrev main_call7_v3 : Ref sig .tc := ⟨.hbm, 77, rfl⟩
abbrev main_call7_v4 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_14 : Ref sig .tc := ⟨.hbm, 86, rfl⟩
abbrev main_v48 : Ref sig .tc := ⟨.hbm, 87, rfl⟩
abbrev main_v49 : Ref sig .tc := ⟨.hbm, 88, rfl⟩
abbrev main_cst_15 : Ref sig .tc := ⟨.hbm, 89, rfl⟩
abbrev main_v50 : Ref sig .tc := ⟨.hbm, 90, rfl⟩
abbrev main_v51 : Ref sig .tc := ⟨.hbm, 91, rfl⟩
abbrev main_cst_16 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_17 : Ref sig .tc := ⟨.hbm, 97, rfl⟩
abbrev main_cst_18 : Ref sig .tc := ⟨.hbm, 98, rfl⟩
abbrev main_call8_v0 : Ref sig .tc := ⟨.hbm, 99, rfl⟩
abbrev main_call8_v1 : Ref sig .tc := ⟨.hbm, 100, rfl⟩
abbrev main_call8_v2 : Ref sig .tc := ⟨.hbm, 101, rfl⟩
abbrev main_call8_v3 : Ref sig .tc := ⟨.hbm, 102, rfl⟩
abbrev main_call8_v4 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_call10_v0 : Ref sig .tc := ⟨.hbm, 112, rfl⟩
abbrev main_call10_v1 : Ref sig .tc := ⟨.hbm, 113, rfl⟩
abbrev main_call10_cst : Ref sig .tc := ⟨.hbm, 114, rfl⟩
abbrev main_call10_v2 : Ref sig .tc := ⟨.hbm, 115, rfl⟩
abbrev main_call10_v3 : Ref sig .tc := ⟨.hbm, 116, rfl⟩
abbrev main_call10_cst_0 : Ref sig .tc := ⟨.hbm, 117, rfl⟩
abbrev main_call10_v4 : Ref sig .tc := ⟨.hbm, 118, rfl⟩
abbrev main_call10_v5 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_cst_19 : Ref sig .tc := ⟨.hbm, 123, rfl⟩
abbrev main_v67 : Ref sig .tc := ⟨.hbm, 124, rfl⟩
abbrev main_v68 : Ref sig .tc := ⟨.hbm, 125, rfl⟩
abbrev main_cst_20 : Ref sig .tc := ⟨.hbm, 126, rfl⟩
abbrev main_call11_v0 : Ref sig .tc := ⟨.hbm, 127, rfl⟩
abbrev main_call11_v1 : Ref sig .tc := ⟨.hbm, 128, rfl⟩
abbrev main_v69 : Ref sig .tc := ⟨.hbm, 129, rfl⟩
abbrev main_cst_21 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_cst_22 : Ref sig .tc := ⟨.hbm, 136, rfl⟩
abbrev main_cst_23 : Ref sig .tc := ⟨.hbm, 137, rfl⟩
abbrev main_call13_v0 : Ref sig .tc := ⟨.hbm, 138, rfl⟩
abbrev main_call13_v1 : Ref sig .tc := ⟨.hbm, 139, rfl⟩
abbrev main_call13_v2 : Ref sig .tc := ⟨.hbm, 140, rfl⟩
abbrev main_call13_v3 : Ref sig .tc := ⟨.hbm, 141, rfl⟩
abbrev main_call13_v4 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_cst_24 : Ref sig .tc := ⟨.hbm, 150, rfl⟩
abbrev main_v82 : Ref sig .tc := ⟨.hbm, 151, rfl⟩
abbrev main_v83 : Ref sig .tc := ⟨.hbm, 152, rfl⟩
abbrev main_cst_25 : Ref sig .tc := ⟨.hbm, 153, rfl⟩
abbrev main_v84 : Ref sig .tc := ⟨.hbm, 154, rfl⟩
abbrev main_v85 : Ref sig .tc := ⟨.hbm, 155, rfl⟩
abbrev main_cst_26 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_cst_27 : Ref sig .tc := ⟨.hbm, 161, rfl⟩
abbrev main_cst_28 : Ref sig .tc := ⟨.hbm, 162, rfl⟩
abbrev main_call14_v0 : Ref sig .tc := ⟨.hbm, 163, rfl⟩
abbrev main_call14_v1 : Ref sig .tc := ⟨.hbm, 164, rfl⟩
abbrev main_call14_v2 : Ref sig .tc := ⟨.hbm, 165, rfl⟩
abbrev main_call14_v3 : Ref sig .tc := ⟨.hbm, 166, rfl⟩
abbrev main_call14_v4 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  shapeCasts_S5504x2048_S5504x16x128 : S5504x2048.ShapeCasts S5504x16x128
  reducesTo_S5504x16x128_S5504x16_d2 : S5504x16x128.ReducesTo [2] S5504x16
  bcast_S5504x16_S5504x16x1_0_1 : S5504x16.BroadcastsInDim S5504x16x1 (![0, 1] : Fin 2 → Fin S5504x16x1.rank)
  bcast_S_S5504x16x1 : S_.BroadcastsInDim S5504x16x1 (![] : Fin 0 → Fin S5504x16x1.rank)
  bcast_S5504x16x1_S5504x16x128_0_1_2 : S5504x16x1.BroadcastsInDim S5504x16x128 (![0, 1, 2] : Fin 3 → Fin S5504x16x128.rank)
  bcast_S_S5504x16x128 : S_.BroadcastsInDim S5504x16x128 (![] : Fin 0 → Fin S5504x16x128.rank)
  shapeCasts_S5504x16x128_S5504x2048 : S5504x16x128.ShapeCasts S5504x2048
  bcast_S_S4x2048x5504 : S_.BroadcastsInDim S4x2048x5504 (![] : Fin 0 → Fin S4x2048x5504.rank)
  reducesTo_S4x2048x5504_S4x2048_d2 : S4x2048x5504.ReducesTo [2] S4x2048
  bcast_S4x2048x1_S4x2048x5504_0_1_2 : S4x2048x1.BroadcastsInDim S4x2048x5504 (![0, 1, 2] : Fin 3 → Fin S4x2048x5504.rank)
  shapeCasts_S2048x5504_S2048x43x128 : S2048x5504.ShapeCasts S2048x43x128
  reducesTo_S2048x43x128_S2048x43_d2 : S2048x43x128.ReducesTo [2] S2048x43
  bcast_S2048x43_S2048x43x1_0_1 : S2048x43.BroadcastsInDim S2048x43x1 (![0, 1] : Fin 2 → Fin S2048x43x1.rank)
  bcast_S_S2048x43x1 : S_.BroadcastsInDim S2048x43x1 (![] : Fin 0 → Fin S2048x43x1.rank)
  bcast_S2048x43x1_S2048x43x128_0_1_2 : S2048x43x1.BroadcastsInDim S2048x43x128 (![0, 1, 2] : Fin 3 → Fin S2048x43x128.rank)
  bcast_S_S2048x43x128 : S_.BroadcastsInDim S2048x43x128 (![] : Fin 0 → Fin S2048x43x128.rank)
  shapeCasts_S2048x43x128_S2048x5504 : S2048x43x128.ShapeCasts S2048x5504
  dot_S4x2048x2048_S5504x2048_S4x2048x5504_2_1_01_0_n_n_wf : DotDims.WF S4x2048x2048 S5504x2048 S4x2048x5504 [2] [1] [0, 1] [0] [] []
  dot_S4x2048x5504_S2048x5504_S4x2048x2048_2_1_01_0_n_n_wf : DotDims.WF S4x2048x5504 S2048x5504 S4x2048x2048 [2] [1] [0, 1] [0] [] []

variable [Facts₀]

def dot_S4x2048x2048_S5504x2048_S4x2048x5504_2_1_01_0_n_n : DotDims S4x2048x2048 S5504x2048 S4x2048x5504 where
  lhsContracting := [2]
  rhsContracting := [1]
  lhsNonContracting := [0, 1]
  rhsNonContracting := [0]
  lhsBatch := []
  rhsBatch := []
  wf := dot_S4x2048x2048_S5504x2048_S4x2048x5504_2_1_01_0_n_n_wf
def dot_S4x2048x5504_S2048x5504_S4x2048x2048_2_1_01_0_n_n : DotDims S4x2048x5504 S2048x5504 S4x2048x2048 where
  lhsContracting := [2]
  rhsContracting := [1]
  lhsNonContracting := [0, 1]
  rhsNonContracting := [0]
  lhsBatch := []
  rhsBatch := []
  wf := dot_S4x2048x5504_S2048x5504_S4x2048x2048_2_1_01_0_n_n_wf

class Facts : Prop extends Facts₀ where

variable [Facts]
-- ==== Proof.K.Shared.lean ====
import proofs.«102340_j15058155339839_1_alg».proof.Proof.Gen.Kernel.Launch
import proofs.«102340_j15058155339839_1_alg».proof.Proof.Gen.Kernel.Skeleton
import proofs.«102340_j15058155339839_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .f32 := win0_4.stage (cfg0.slots t 4)
abbrev hs0_4 (t : Fin cfg0.N) : (ms0_4 t).IsWhole := hstage0_4 ((cfg0.slots t 4).cast nbuf0_4)

abbrev scM0_0 : Memref sig .tc .vmem S1024x512 .f32 := Memref.whole cc0_scratch0
abbrev scM0_1 : Memref sig .tc .vmem S1024x512 .f32 := Memref.whole cc0_scratch1

def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 11 = 0 :=
  (by decide +kernel : ∀ t : Fin grid1.N, cond1_0 (grid1.coords t) ↔ t.val % 11 = 0)
abbrev cond1_1 (i : grid1.Coords) : Prop := k1_cond2 i = 1#1
theorem hcond1_1 : ∀ t : Fin cfg1.N, cond1_1 (grid1.coords t) ↔ t.val % 11 = 10 :=
  (by decide +kernel : ∀ t : Fin grid1.N, cond1_1 (grid1.coords t) ↔ t.val % 11 = 10)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)

abbrev scM1_0 : Memref sig .tc .vmem S1024x512 .f32 := Memref.whole cc1_scratch0
abbrev VS1_0 : View sig .tc .vmem S1024x512 .f32 := scM1_0.view

def rest1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)

theorem PhiA1_eq (c : Dev nD) :
    (Pipeline.ΦA spec1 c : sProp 𝕄)
      = iprop(rest1 c iprop(∃ d, owns (c : Thread nD τ) scM1_0 fullShare d) ∗ (∃ r, prngReg c r)) := by
  unfold Pipeline.ΦA rest1; rw [scopedRest1_eq]; simp only [scM1_0, owns_whole]; try rfl

/-- Written pieces that tile a buffer leave it owned at the pieces read back in order. -/
theorem owns_canon_of_writes {c : Thread nD τ} {sp} {s} {e} {M : Memref sig c.2.kind sp s e} {q} {g : Buf (Elt F) (M.view.loc c)}
    {L : List (View.Piece (Elt F) s e)} (size : Fin s.rank → ℕ) (hL : View.Piece.tiledL L size = true) :
    (M.view.loc c ↦[M.view.set]{q} M.view.writes (Elt F) g L : sProp 𝕄) ⊢ owns c M q (View.canon L) := by
  unfold owns; iintro H; iexists _; isplitr
  swap; · iexact H
  ipureintro; exact View.read_writes_eq_canon _ _ _ (View.cover_of_tiledL L size hL)

end Cert.Kernel.Hand

end
-- ==== Proof.K.Run0A.lean ====
import proofs.«102340_j15058155339839_1_alg».proof.Proof.K.Shared

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (t : Fin cfg0.N) (hc0 : cond0_0 (grid0.coords t)) (hc1 : ¬cond0_1 (grid0.coords t))
    (x0 : Vec F S1024x512 .f32) (x1 : Vec F S1024x1 .f32) (x2 : Vec F S512x512 .f32) (x3 : Vec F S512x512 .f32) :
    Σ' (L4 : List (View.Piece (Elt F) S1024x512 .f32)) (LS0 : List (View.Piece (Elt F) S1024x512 .f32)), { LS1 : List (View.Piece (Elt F) S1024x512 .f32) //
      ∀ (xi4 : Vec F S1024x512 .f32) (E : Set ℕ) (K : PUnit → sProp 𝕄),
        iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare xi4 ∗ (∃ d, owns (c : Thread nD τ) scM0_0 fullShare d) ∗ (∃ d, owns (c : Thread nD τ) scM0_1 fullShare d)
            ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare xi4 ∗ (∃ f, scM0_0.view.loc (c : Thread nD τ) ↦[scM0_0.view.set]{fullShare} scM0_0.view.writes (Elt F) f LS0) ∗ (∃ f, scM0_1.view.loc (c : Thread nD τ) ↦[scM0_1.view.set]{fullShare} scM0_1.view.writes (Elt F) f LS1)) -∗ K ⟨⟩))
          ⊢ wp frame (wpE (defs₀ (F := F)) Variants.none c none) E (bodyAt0 t) K } := by
  refine ⟨[], ?_, ?_, fun xi4 E K => ?run⟩
  case run =>
    unfold bodyAt0; simp only [cc0__gateup_kernel_eq_skeleton]; unfold cc0__gateup_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := (hs0_0 t).eq_unread hf0; obtain rfl := (hs0_1 t).eq_unread hf1; obtain rfl := (hs0_2 t).eq_unread hf2; obtain rfl := (hs0_3 t).eq_unread hf3; obtain rfl := (hs0_4 t).eq_unread hf4
    sl_exec (disch := first | exact hc0 | exact hc1)
    sl_step
    iapply Hk
    isplitl [H0]
    · iexists _; isplitr; · ipureintro; exact (hs0_0 t).read_unread _
      iexact H0
    isplitl [H1]
    · iexists _; isplitr; · ipureintro; exact (hs0_1 t).read_unread _
      iexact H1
    isplitl [H2]
    · iexists _; isplitr; · ipureintro; exact (hs0_2 t).read_unread _
      iexact H2
    isplitl [H3]
    · iexists _; isplitr; · ipureintro; exact (hs0_3 t).read_unread _
      iexact H3
    isplitl [H4]
    · iexists _; isplitr; · ipureintro; exact (hs0_4 t).read_unread _
      iexact H4
    isplitl [HS0]; · iexists _; iexact HS0
    iexists _; iexact HS1

end Cert.Kernel.Hand

end
-- ==== Proof.K.Run0B.lean ====
import proofs.«102340_j15058155339839_1_alg».proof.Proof.K.Shared

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (t : Fin cfg0.N) (hc0 : ¬cond0_0 (grid0.coords t)) (hc1 : ¬cond0_1 (grid0.coords t))
    (x0 : Vec F S1024x512 .f32) (x1 : Vec F S1024x1 .f32) (x2 : Vec F S512x512 .f32) (x3 : Vec F S512x512 .f32) (xs0 : Vec F S1024x512 .f32) (xs1 : Vec F S1024x512 .f32) :
    Σ' (L4 : List (View.Piece (Elt F) S1024x512 .f32)) (LS0 : List (View.Piece (Elt F) S1024x512 .f32)), { LS1 : List (View.Piece (Elt F) S1024x512 .f32) //
      ∀ (xi4 : Vec F S1024x512 .f32) (E : Set ℕ) (K : PUnit → sProp 𝕄),
        iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare xi4 ∗ owns (c : Thread nD τ) scM0_0 fullShare xs0 ∗ owns (c : Thread nD τ) scM0_1 fullShare xs1
            ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare xi4 ∗ (∃ f, scM0_0.view.loc (c : Thread nD τ) ↦[scM0_0.view.set]{fullShare} scM0_0.view.writes (Elt F) f LS0) ∗ (∃ f, scM0_1.view.loc (c : Thread nD τ) ↦[scM0_1.view.set]{fullShare} scM0_1.view.writes (Elt F) f LS1)) -∗ K ⟨⟩))
          ⊢ wp frame (wpE (defs₀ (F := F)) Variants.none c none) E (bodyAt0 t) K } := by
  refine ⟨[], ?_, ?_, fun xi4 E K => ?run⟩
  case run =>
    unfold bodyAt0; simp only [cc0__gateup_kernel_eq_skeleton]; unfold cc0__gateup_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := (hs0_0 t).eq_unread hf0; obtain rfl := (hs0_1 t).eq_unread hf1; obtain rfl := (hs0_2 t).eq_unread hf2; obtain rfl := (hs0_3 t).eq_unread hf3; obtain rfl := (hs0_4 t).eq_unread hf4
    obtain rfl := (Memref.isWhole_whole cc0_scratch0).eq_unread hfs0; obtain rfl := (Memref.isWhole_whole cc0_scratch1).eq_unread hfs1
    sl_exec (disch := first | exact hc0 | exact hc1)
    sl_step
    iapply Hk
    isplitl [H0]
    · iexists _; isplitr; · ipureintro; exact (hs0_0 t).read_unread _
      iexact H0
    isplitl [H1]
    · iexists _; isplitr; · ipureintro; exact (hs0_1 t).read_unread _
      iexact H1
    isplitl [H2]
    · iexists _; isplitr; · ipureintro; exact (hs0_2 t).read_unread _
      iexact H2
    isplitl [H3]
    · iexists _; isplitr; · ipureintro; exact (hs0_3 t).read_unread _
      iexact H3
    isplitl [H4]
    · iexists _; isplitr; · ipureintro; exact (hs0_4 t).read_unread _
      iexact H4
    isplitl [HS0]; · iexists _; iexact HS0
    iexists _; iexact HS1

end Cert.Kernel.Hand

end
-- ==== Proof.K.Run0C.lean ====
import proofs.«102340_j15058155339839_1_alg».proof.Proof.K.Shared

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (t : Fin cfg0.N) (hc0 : ¬cond0_0 (grid0.coords t)) (hc1 : cond0_1 (grid0.coords t))
    (x0 : Vec F S1024x512 .f32) (x1 : Vec F S1024x1 .f32) (x2 : Vec F S512x512 .f32) (x3 : Vec F S512x512 .f32) (xs0 : Vec F S1024x512 .f32) (xs1 : Vec F S1024x512 .f32) :
    Σ' (L4 : List (View.Piece (Elt F) S1024x512 .f32)) (LS0 : List (View.Piece (Elt F) S1024x512 .f32)), { LS1 : List (View.Piece (Elt F) S1024x512 .f32) //
      ∀ (E : Set ℕ) (K : PUnit → sProp 𝕄),
        iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ (∃ d, owns (c : Thread nD τ) (ms0_4 t) fullShare d) ∗ owns (c : Thread nD τ) scM0_0 fullShare xs0 ∗ owns (c : Thread nD τ) scM0_1 fullShare xs1
            ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ (∃ f, (ms0_4 t).view.loc (c : Thread nD τ) ↦[(ms0_4 t).view.set]{fullShare} (ms0_4 t).view.writes (Elt F) f L4) ∗ (∃ f, scM0_0.view.loc (c : Thread nD τ) ↦[scM0_0.view.set]{fullShare} scM0_0.view.writes (Elt F) f LS0) ∗ (∃ f, scM0_1.view.loc (c : Thread nD τ) ↦[scM0_1.view.set]{fullShare} scM0_1.view.writes (Elt F) f LS1)) -∗ K ⟨⟩))
          ⊢ wp frame (wpE (defs₀ (F := F)) Variants.none c none) E (bodyAt0 t) K } := by
  refine ⟨?_, ?_, ?_, fun E K => ?run⟩
  case run =>
    unfold bodyAt0; simp only [cc0__gateup_kernel_eq_skeleton]; unfold cc0__gateup_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := (hs0_0 t).eq_unread hf0; obtain rfl := (hs0_1 t).eq_unread hf1; obtain rfl := (hs0_2 t).eq_unread hf2; obtain rfl := (hs0_3 t).eq_unread hf3
    obtain rfl := (Memref.isWhole_whole cc0_scratch0).eq_unread hfs0; obtain rfl := (Memref.isWhole_whole cc0_scratch1).eq_unread hfs1
    sl_exec (disch := first | exact hc0 | exact hc1)
    sl_step
    iapply Hk
    isplitl [H0]
    · iexists _; isplitr; · ipureintro; exact (hs0_0 t).read_unread _
      iexact H0
    isplitl [H1]
    · iexists _; isplitr; · ipureintro; exact (hs0_1 t).read_unread _
      iexact H1
    isplitl [H2]
    · iexists _; isplitr; · ipureintro; exact (hs0_2 t).read_unread _
      iexact H2
    isplitl [H3]
    · iexists _; isplitr; · ipureintro; exact (hs0_3 t).read_unread _
      iexact H3
    isplitl [H4]; · iexists _; iexact H4
    isplitl [HS0]; · iexists _; iexact HS0
    iexists _; iexact HS1

end Cert.Kernel.Hand

end
-- ==== Proof.K.Region0.lean ====
import proofs.«102340_j15058155339839_1_alg».proof.Proof.K.Run0A
import proofs.«102340_j15058155339839_1_alg».proof.Proof.K.Run0B
import proofs.«102340_j15058155339839_1_alg».proof.Proof.K.Run0C

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev Outs0 (F : FTy → Type) := Vec F S1024x512 .f32 × Vec F S1024x512 .f32 × Vec F S1024x512 .f32

variable (c : Dev nD) (t : Fin cfg0.N)

-- The three control cases of the body at grid point `t`, on that point's blocks of the four input arrays.
def run0A (h0 : t.val % 4 = 0) :=
  kernelRun0_A (F := F) c t ((hcond0_0 t).mpr h0) (fun h => absurd ((hcond0_1 t).mp h) (by omega)) (iblk0 V c 0 t) (iblk0 V c 1 t) (iblk0 V c 2 t) (iblk0 V c 3 t)

def run0B (h0 : ¬t.val % 4 = 0) (h1 : ¬t.val % 4 = 3) (a : Outs0 F) :=
  kernelRun0_B c t (fun h => h0 ((hcond0_0 t).mp h)) (fun h => h1 ((hcond0_1 t).mp h)) (iblk0 V c 0 t) (iblk0 V c 1 t) (iblk0 V c 2 t) (iblk0 V c 3 t) a.2.1 a.2.2

def run0C (h1 : t.val % 4 = 3) (a : Outs0 F) :=
  kernelRun0_C c t (fun h => absurd ((hcond0_0 t).mp h) (by omega)) ((hcond0_1 t).mpr h1) (iblk0 V c 0 t) (iblk0 V c 1 t) (iblk0 V c 2 t) (iblk0 V c 3 t) a.2.1 a.2.2

theorem tiled0A (h0 : t.val % 4 = 0) : View.Piece.tiledL (run0A V c t h0).2.1 S1024x512.size = true ∧ View.Piece.tiledL (run0A V c t h0).2.2.1 S1024x512.size = true :=
  ⟨by sl_kernel_rfl, by sl_kernel_rfl⟩

theorem tiled0B (h0 : ¬t.val % 4 = 0) (h1 : ¬t.val % 4 = 3) (a : Outs0 F) :
    View.Piece.tiledL (run0B V c t h0 h1 a).2.1 S1024x512.size = true ∧ View.Piece.tiledL (run0B V c t h0 h1 a).2.2.1 S1024x512.size = true :=
  ⟨by sl_kernel_rfl, by sl_kernel_rfl⟩

theorem tiled0C (h1 : t.val % 4 = 3) (a : Outs0 F) : View.Piece.tiledL (run0C V c t h1 a).1 S1024x512.size = true
    ∧ View.Piece.tiledL (run0C V c t h1 a).2.1 S1024x512.size = true ∧ View.Piece.tiledL (run0C V c t h1 a).2.2.1 S1024x512.size = true :=
  ⟨by sl_kernel_rfl, by sl_kernel_rfl, by sl_kernel_rfl⟩

-- What point `t` leaves (result block, the two accumulators), given what the point before left.
def stepAt0 (a : Outs0 F) : Outs0 F :=
  if h0 : t.val % 4 = 0 then (View.canon (run0A V c t h0).1, View.canon (run0A V c t h0).2.1, View.canon (run0A V c t h0).2.2.1)
  else if h1 : t.val % 4 = 3 then (View.canon (run0C V c t h1 a).1, View.canon (run0C V c t h1 a).2.1, View.canon (run0C V c t h1 a).2.2.1)
  else (View.canon (run0B V c t h0 h1 a).1, View.canon (run0B V c t h0 h1 a).2.1, View.canon (run0B V c t h0 h1 a).2.2.1)

theorem stepAt0_first (h0 : t.val % 4 = 0) (a b : Outs0 F) : stepAt0 V c t a = stepAt0 V c t b := by
  unfold stepAt0; rw [dif_pos h0, dif_pos h0]

def outsAt0 (c : Dev nD) : (n : ℕ) → n < cfg0.N → Outs0 F
  | 0, hn => stepAt0 V c ⟨0, hn⟩ (View.canon [], View.canon [], View.canon [])
  | n + 1, hn => stepAt0 V c ⟨n + 1, hn⟩ (outsAt0 c n (Nat.lt_of_succ_lt hn))

theorem outsAt0_eq : outsAt0 V c t.val t.isLt = stepAt0 V c t (outsAt0 V c (t.val - 1) (Nat.lt_of_le_of_lt (Nat.sub_le _ _) t.isLt)) := by
  obtain ⟨n, hn⟩ := t
  cases n with
  | zero => exact stepAt0_first V c _ rfl _ _
  | succ n => rfl

-- The region's invariant after a point: the two accumulators at what the point left.
def Acc0 (o : Outs0 F) : sProp 𝕄 :=
  iprop(iprop(owns (c : Thread nD τ) scM0_0 fullShare o.2.1 ∗ owns (c : Thread nD τ) scM0_1 fullShare o.2.2 ∗ rest0 c) ∗ (∃ r, prngReg c r))

def PhiS0 (c : Dev nD) : (n : ℕ) → n ≤ cfg0.N → sProp 𝕄
  | 0, _ => Pipeline.ΦA spec0 c
  | n + 1, hn => Acc0 c (outsAt0 V c n hn)

theorem PhiS0_pos (n : ℕ) (h : n ≤ cfg0.N) (hz : n ≠ 0) : PhiS0 V c n h = Acc0 c (outsAt0 V c (n - 1) (by omega)) := by
  cases n with
  | zero => exact absurd rfl hz
  | succ n => rfl

-- Before any point the invariant holds the two accumulators at SOME contents.
theorem PhiS0_some (n : ℕ) (h : n ≤ cfg0.N) : PhiS0 V c n h
    ⊢ iprop(iprop((∃ d, owns (c : Thread nD τ) scM0_0 fullShare d) ∗ (∃ d, owns (c : Thread nD τ) scM0_1 fullShare d) ∗ rest0 c) ∗ (∃ r, prngReg c r)) := by
  cases n with
  | zero => show Pipeline.ΦA spec0 c ⊢ _; rw [PhiA0_eq]
  | succ n =>
    show Acc0 c _ ⊢ _; unfold Acc0
    iintro ⟨⟨HS0, HS1, Hr⟩, Hg⟩
    iframe Hr Hg
    isplitl [HS0]; · iexists _; iexact HS0
    iexists _; iexact HS1

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc : (dat0 V c).Φ t.castSucc = PhiS0 V c t.val (Nat.le_of_lt t.isLt) := by
  dsimp only [dat0]; simp only [Fin.coe_castSucc]

theorem after0_0 : (dat0 V c).after 0 t = iblk0 V c 0 t := rfl
theorem after0_1 : (dat0 V c).after 1 t = iblk0 V c 1 t := rfl
theorem after0_2 : (dat0 V c).after 2 t = iblk0 V c 2 t := rfl
theorem after0_3 : (dat0 V c).after 3 t = iblk0 V c 3 t := rfl
theorem after0_4 : (dat0 V c).after 4 t = (outsAt0 V c t.val t.isLt).1 := rfl

theorem before0 : ∀ w : Fin cfg0.W, w ≠ 4 → ∀ d, (dat0 V c).before w t d = (dat0 V c).after w t
  | ⟨0, _⟩, _, d | ⟨1, _⟩, _, d | ⟨2, _⟩, _, d | ⟨3, _⟩, _, d =>
    ((dat0 V c).before_in_eq_fetched _ rfl (fun _ => rfl) (fun _ _ _ => rfl) (fun _ => rfl) t d).trans rfl
  | ⟨4, _⟩, h, _ => absurd rfl h

theorem leaves0 (w : Fin cfg0.W) (h : cfg0.idle w (cfg0.grid.coords t) = false) :
    (dat0 V c).leavesExact w t = owns (c : Thread nD τ) ((cfg0.win w).stage (cfg0.slots t w)) fullShare ((dat0 V c).after w t) := by
  unfold Dat.leavesExact; rw [h]

def bodyPre0 : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t ∗ (dat0 V c).leavesExact 4 t)

set_option maxHeartbeats 8000000 in
theorem sound_body0 :
    bodyPre0 V c t ⊢ wp frame (wpE (defs₀ (F := F)) Variants.none c none) Set.univ (bodyAt0 t) (fun _ => bodyPost0 V c t) := by
  unfold bodyPre0 bodyPost0
  simp only [before0 V c t 0 (by decide), before0 V c t 1 (by decide), before0 V c t 2 (by decide), before0 V c t 3 (by decide)]
  rw [show (dat0 V c).owesAt () t.succ = (dat0 V c).owesAt () t.castSucc from rfl,
    show (dat0 V c).Φ t.succ = Acc0 c (outsAt0 V c t.val t.isLt) from rfl, PhiS0_castSucc V c t,
    leaves0 V c t 0 (liveAt0_0 t), leaves0 V c t 1 (liveAt0_1 t), leaves0 V c t 2 (liveAt0_2 t), leaves0 V c t 3 (liveAt0_3 t),
    after0_0, after0_1, after0_2, after0_3]
  rw [outsAt0_eq V c t]; unfold stepAt0
  by_cases h0 : t.val % 4 = 0
  · have hc1 : ¬cond0_1 (grid0.coords t) := fun h => absurd ((hcond0_1 t).mp h) (by omega)
    rw [Dat.leavesExact_idle (dat0 V c) 4 t (idleAt0_4 t hc1) (noFlush0_4 t hc1), dif_pos h0]; unfold Acc0
    iintro ⟨HΦ, Ho, ⟨%d0, H0⟩, ⟨%d1, H1⟩, ⟨%d2, H2⟩, ⟨%d3, H3⟩, ⟨%d4, H4⟩⟩
    icases (PhiS0_some V c _ _) $$ HΦ with ⟨⟨HS0, HS1, Hr⟩, Hg⟩
    iapply ((run0A V c t h0).2.2.2 _ Set.univ _)
    iframe H0 H1 H2 H3 H4 HS0 HS1
    iintro ⟨H0, H1, H2, H3, H4, ⟨%es0, HS0⟩, ⟨%es1, HS1⟩⟩
    iframe Hr Hg Ho H0 H1 H2 H3
    isplitr [H4]; swap; · iexists _; iexact H4
    isplitl [HS0]; · iapply (owns_canon_of_writes _ (tiled0A V c t h0).1); iexact HS0
    iapply (owns_canon_of_writes _ (tiled0A V c t h0).2); iexact HS1
  · rw [dif_neg h0, PhiS0_pos V c _ _ (fun hz => h0 (by rw [hz]))]
    by_cases h1 : t.val % 4 = 3
    · rw [leaves0 V c t 4 (liveAt0_4 t ((hcond0_1 t).mpr h1)), after0_4, outsAt0_eq V c t]
      unfold stepAt0 Acc0; rw [dif_neg h0, dif_pos h1]
      iintro ⟨⟨⟨HS0, HS1, Hr⟩, Hg⟩, Ho, ⟨%d0, H0⟩, ⟨%d1, H1⟩, ⟨%d2, H2⟩, ⟨%d3, H3⟩, ⟨%d4, H4⟩⟩
      iapply ((run0C V c t h1 _).2.2.2 Set.univ _)
      iframe H0 H1 H2 H3 HS0 HS1
      isplitl [H4]; · iexists _; iexact H4
      iintro ⟨H0, H1, H2, H3, ⟨%e4, H4⟩, ⟨%es0, HS0⟩, ⟨%es1, HS1⟩⟩
      iframe Hr Hg Ho H0 H1 H2 H3
      isplitr [H4]; swap; · iapply (owns_canon_of_writes _ (tiled0C V c t h1 _).1); iexact H4
      isplitl [HS0]; · iapply (owns_canon_of_writes _ (tiled0C V c t h1 _).2.1); iexact HS0
      iapply (owns_canon_of_writes _ (tiled0C V c t h1 _).2.2); iexact HS1
    · have hc1 : ¬cond0_1 (grid0.coords t) := fun h => h1 ((hcond0_1 t).mp h)
      rw [Dat.leavesExact_idle (dat0 V c) 4 t (idleAt0_4 t hc1) (noFlush0_4 t hc1), dif_neg h1]; unfold Acc0
      iintro ⟨⟨⟨HS0, HS1, Hr⟩, Hg⟩, Ho, ⟨%d0, H0⟩, ⟨%d1, H1⟩, ⟨%d2, H2⟩, ⟨%d3, H3⟩, ⟨%d4, H4⟩⟩
      iapply ((run0B V c t h0 h1 _).2.2.2 _ Set.univ _)
      iframe H0 H1 H2 H3 H4 HS0 HS1
      iintro ⟨H0, H1, H2, H3, H4, ⟨%es0, HS0⟩, ⟨%es1, HS1⟩⟩
      iframe Hr Hg Ho H0 H1 H2 H3
      isplitr [H4]; swap; · iexists _; iexact H4
      isplitl [HS0]; · iapply (owns_canon_of_writes _ (tiled0B V c t h0 h1 _).1); iexact HS0
      iapply (owns_canon_of_writes _ (tiled0B V c t h0 h1 _).2); iexact HS1

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := Idealize.SL.BI.Entails.refl _

theorem hout0 (c : Dev nD) : (dat0 V c).Φ (Fin.last cfg0.N) ⊢ Pipeline.ΦA spec0 c := by
  rw [PhiA0_eq]; exact PhiS0_some V c (Fin.last cfg0.N).val _

end Region0

end Cert.Kernel.Hand

end
-- ==== Proof.K.Run1A.lean ====
import proofs.«102340_j15058155339839_1_alg».proof.Proof.K.Shared

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun1_A (c : Dev nD) (t : Fin cfg1.N) (hc0 : cond1_0 (grid1.coords t)) (hc1 : ¬cond1_1 (grid1.coords t))
    (x0 : Vec F S1024x512 .f32) (x1 : Vec F S1024x1 .f32) (x2 : Vec F S512x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) (ms1_0 t) fullShare x0 ∗ owns (c : Thread nD τ) (ms1_1 t) fullShare x1 ∗ owns (c : Thread nD τ) (ms1_2 t) fullShare x2 ∗ owns (c : Thread nD τ) (ms1_3 t) fullShare xi3 ∗ (∃ d, owns (c : Thread nD τ) scM1_0 fullShare d)
            ∗ (iprop(owns (c : Thread nD τ) (ms1_0 t) fullShare x0 ∗ owns (c : Thread nD τ) (ms1_1 t) fullShare x1 ∗ owns (c : Thread nD τ) (ms1_2 t) fullShare x2 ∗ owns (c : Thread nD τ) (ms1_3 t) fullShare xi3 ∗ (∃ f, VS1_0.loc (c : Thread nD τ) ↦[VS1_0.set]{fullShare} VS1_0.writes (Elt F) f LS0)) -∗ K ⟨⟩))
          ⊢ wp frame (wpE (defs₀ (F := F)) Variants.none c none) E (bodyAt1 t) K } := by
  refine ⟨[], ?_, fun xi3 E K => ?run⟩
  case run =>
    unfold bodyAt1
    simp only [cc1__down_kernel_eq_skeleton]; unfold cc1__down_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := (hs1_0 t).eq_unread hf0; obtain rfl := (hs1_1 t).eq_unread hf1; obtain rfl := (hs1_2 t).eq_unread hf2; obtain rfl := (hs1_3 t).eq_unread hf3
    sl_exec (disch := first | exact hc0 | exact hc1)
    sl_step
    iapply Hk
    isplitl [H0]
    · iexists _; isplitr; · ipureintro; exact (hs1_0 t).read_unread _
      iexact H0
    isplitl [H1]
    · iexists _; isplitr; · ipureintro; exact (hs1_1 t).read_unread _
      iexact H1
    isplitl [H2]
    · iexists _; isplitr; · ipureintro; exact (hs1_2 t).read_unread _
      iexact H2
    isplitl [H3]
    · iexists _; isplitr; · ipureintro; exact (hs1_3 t).read_unread _
      iexact H3
    iexists _; iexact HS0

end Cert.Kernel.Hand

end
-- ==== Proof.K.Run1B.lean ====
import proofs.«102340_j15058155339839_1_alg».proof.Proof.K.Shared

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun1_B (c : Dev nD) (t : Fin cfg1.N) (hc0 : ¬cond1_0 (grid1.coords t)) (hc1 : ¬cond1_1 (grid1.coords t))
    (x0 : Vec F S1024x512 .f32) (x1 : Vec F S1024x1 .f32) (x2 : Vec F S512x512 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) (ms1_0 t) fullShare x0 ∗ owns (c : Thread nD τ) (ms1_1 t) fullShare x1 ∗ owns (c : Thread nD τ) (ms1_2 t) fullShare x2 ∗ owns (c : Thread nD τ) (ms1_3 t) fullShare xi3 ∗ owns (c : Thread nD τ) scM1_0 fullShare xs0
            ∗ (iprop(owns (c : Thread nD τ) (ms1_0 t) fullShare x0 ∗ owns (c : Thread nD τ) (ms1_1 t) fullShare x1 ∗ owns (c : Thread nD τ) (ms1_2 t) fullShare x2 ∗ owns (c : Thread nD τ) (ms1_3 t) fullShare xi3 ∗ (∃ f, VS1_0.loc (c : Thread nD τ) ↦[VS1_0.set]{fullShare} VS1_0.writes (Elt F) f LS0)) -∗ K ⟨⟩))
          ⊢ wp frame (wpE (defs₀ (F := F)) Variants.none c none) E (bodyAt1 t) K } := by
  refine ⟨[], ?_, fun xi3 E K => ?run⟩
  case run =>
    unfold bodyAt1
    simp only [cc1__down_kernel_eq_skeleton]; unfold cc1__down_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := (hs1_0 t).eq_unread hf0; obtain rfl := (hs1_1 t).eq_unread hf1; obtain rfl := (hs1_2 t).eq_unread hf2; obtain rfl := (hs1_3 t).eq_unread hf3
    obtain rfl := (Memref.isWhole_whole cc1_scratch0).eq_unread hfs0
    sl_exec (disch := first | exact hc0 | exact hc1)
    sl_step
    iapply Hk
    isplitl [H0]
    · iexists _; isplitr; · ipureintro; exact (hs1_0 t).read_unread _
      iexact H0
    isplitl [H1]
    · iexists _; isplitr; · ipureintro; exact (hs1_1 t).read_unread _
      iexact H1
    isplitl [H2]
    · iexists _; isplitr; · ipureintro; exact (hs1_2 t).read_unread _
      iexact H2
    isplitl [H3]
    · iexists _; isplitr; · ipureintro; exact (hs1_3 t).read_unread _
      iexact H3
    iexists _; iexact HS0

end Cert.Kernel.Hand

end
-- ==== Proof.K.Run1C.lean ====
import proofs.«102340_j15058155339839_1_alg».proof.Proof.K.Shared

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun1_C (c : Dev nD) (t : Fin cfg1.N) (hc0 : ¬cond1_0 (grid1.coords t)) (hc1 : cond1_1 (grid1.coords t))
    (x0 : Vec F S1024x512 .f32) (x1 : Vec F S1024x1 .f32) (x2 : Vec F S512x512 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) (ms1_0 t) fullShare x0 ∗ owns (c : Thread nD τ) (ms1_1 t) fullShare x1 ∗ owns (c : Thread nD τ) (ms1_2 t) fullShare x2 ∗ (∃ d, owns (c : Thread nD τ) (ms1_3 t) fullShare d) ∗ owns (c : Thread nD τ) scM1_0 fullShare xs0
            ∗ (iprop(owns (c : Thread nD τ) (ms1_0 t) fullShare x0 ∗ owns (c : Thread nD τ) (ms1_1 t) fullShare x1 ∗ owns (c : Thread nD τ) (ms1_2 t) fullShare x2 ∗ (∃ f, (ms1_3 t).view.loc (c : Thread nD τ) ↦[(ms1_3 t).view.set]{fullShare} (ms1_3 t).view.writes (Elt F) f L3) ∗ (∃ f, VS1_0.loc (c : Thread nD τ) ↦[VS1_0.set]{fullShare} VS1_0.writes (Elt F) f LS0)) -∗ K ⟨⟩))
          ⊢ wp frame (wpE (defs₀ (F := F)) Variants.none c none) E (bodyAt1 t) K } := by
  refine ⟨?_, ?_, fun E K => ?run⟩
  case run =>
    unfold bodyAt1
    simp only [cc1__down_kernel_eq_skeleton]; unfold cc1__down_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := (hs1_0 t).eq_unread hf0; obtain rfl := (hs1_1 t).eq_unread hf1; obtain rfl := (hs1_2 t).eq_unread hf2
    obtain rfl := (Memref.isWhole_whole cc1_scratch0).eq_unread hfs0
    sl_exec (disch := first | exact hc0 | exact hc1)
    sl_step
    iapply Hk
    isplitl [H0]
    · iexists _; isplitr; · ipureintro; exact (hs1_0 t).read_unread _
      iexact H0
    isplitl [H1]
    · iexists _; isplitr; · ipureintro; exact (hs1_1 t).read_unread _
      iexact H1
    isplitl [H2]
    · iexists _; isplitr; · ipureintro; exact (hs1_2 t).read_unread _
      iexact H2
    isplitl [H3]; · iexists _; iexact H3
    iexists _; iexact HS0

end Cert.Kernel.Hand

end
-- ==== Proof.K.Val1Aux1.lean ====
import proofs.«102340_j15058155339839_1_alg».proof.Proof.K.Run1A
import proofs.«102340_j15058155339839_1_alg».proof.Proof.K.Run1B
import proofs.«102340_j15058155339839_1_alg».proof.Proof.K.Run1C
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {t : Fin cfg1.N} {x0 : Vec F S1024x512 .f32} {x1 : Vec F S1024x1 .f32} {x2 : Vec F S512x512 .f32} {xs0 : Vec F S1024x512 .f32}

theorem hz1024x512 : (![0, 0] : Fin 2 → Nat) = fun _ => 0 := funext fun a => by fin_cases a <;> rfl

-- At the first column block the accumulator restarts from k1_pay2 and takes the block's product.
theorem left1_A (hc0 : cond1_0 (grid1.coords t)) (hc1 : ¬cond1_1 (grid1.coords t)) (f) :
    VS1_0.read (Elt F) (VS1_0.writes (Elt F) f (kernelRun1_A c t hc0 hc1 x0 x1 x2).2.1)
      = k1_pay1 (k1_pay2 (F := F)) (k1_pay3 x0 x1) (k1_pay4 x2) := by
  refine (View.read_writes_eq_canon _ _ _ (View.cover_of_tiledL _ S1024x512.size ?_)).trans ?_
  · sl_kernel_rfl
  unfold kernelRun1_A
  dsimp only
  sl_unfold_words
  rw [View.canon_cons_unit_zero (S := S1024x512) hz1024x512, View.readCov_unit_zero (S := S1024x512) _ hz1024x512]
  simp only [View.readAt_eq_ld, (hs1_0 t).read_unread, (hs1_1 t).read_unread, (hs1_2 t).read_unread, (Memref.isWhole_whole cc1_scratch0).read_unread, View.readCov_unit_zero (S := S1024x512) _ hz1024x512, View.ld_unit_zero (S := S1024x512) hz1024x512, View.ld_unit_zero (S := S1024x1) hz1024x512, View.ld_unit_zero (S := S512x512) hz1024x512]

-- At every later column block the accumulator xs0 takes the block's product; at the last one the output block receives the same sum.
theorem left1_BC (hc0 : ¬cond1_0 (grid1.coords t)) :
    (∀ (hc1 : ¬cond1_1 (grid1.coords t)) (f), VS1_0.read (Elt F) (VS1_0.writes (Elt F) f (kernelRun1_B c t hc0 hc1 x0 x1 x2 xs0).2.1) = k1_pay1 xs0 (k1_pay3 x0 x1) (k1_pay4 x2))
      ∧ ∀ hc1 : cond1_1 (grid1.coords t), (∀ f, VS1_0.read (Elt F) (VS1_0.writes (Elt F) f (kernelRun1_C c t hc0 hc1 x0 x1 x2 xs0).2.1) = k1_pay1 xs0 (k1_pay3 x0 x1) (k1_pay4 x2))
        ∧ ∀ f, (ms1_3 t).view.read (Elt F) ((ms1_3 t).view.writes (Elt F) f (kernelRun1_C c t hc0 hc1 x0 x1 x2 xs0).1) = k1_pay1 xs0 (k1_pay3 x0 x1) (k1_pay4 x2) := by
  refine ⟨fun hc1 f => ?_, fun hc1 => ⟨fun f => ?_, fun f => ?_⟩⟩ <;> (
    refine (View.read_writes_eq_canon _ _ _ (View.cover_of_tiledL _ S1024x512.size ?_)).trans ?_
    · sl_kernel_rfl
    first | unfold kernelRun1_B | unfold kernelRun1_C
    dsimp only
    sl_unfold_words
    (try dsimp only)
    rw [View.canon_unit_zero hz1024x512]
    simp only [View.readAt_eq_ld, (hs1_0 t).read_unread, (hs1_1 t).read_unread, (hs1_2 t).read_unread, (Memref.isWhole_whole cc1_scratch0).read_unread, View.readCov_unit_zero (S := S1024x512) _ hz1024x512, View.ld_unit_zero (S := S1024x512) hz1024x512, View.ld_unit_zero (S := S1024x1) hz1024x512, View.ld_unit_zero (S := S512x512) hz1024x512])

end Cert.Kernel.Hand

end
-- ==== Proof.K.Region1.lean ====
import proofs.«102340_j15058155339839_1_alg».proof.Proof.K.Val1Aux1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- Whatever X stands in the frame can be taken out and any Y put back in its place.
theorem rest1_swap (c : Dev nD) (X Y : sProp 𝕄) : rest1 c X ⊢ iprop(X ∗ (Y -∗ rest1 c Y)) := by
  unfold rest1
  iintro ⟨Hq0, Hq1, Hq2, Hq3, Hq4, Hq5, Hq6, Hq7, Hq8, Hq9, Hq10, Hq11, HX⟩
  iframe HX
  iintro HY
  iframe

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- What grid point t makes of the accumulator a.
def step1 (c : Dev nD) (t : Fin cfg1.N) (a : Vec F S1024x512 .f32) : Vec F S1024x512 .f32 :=
  k1_pay1 a (k1_pay3 (iblk1 V c 0 t) (iblk1 V c 1 t)) (k1_pay4 (iblk1 V c 2 t))

-- The accumulator after point n; it restarts at every eleventh point.
def acc1 (c : Dev nD) : (n : ℕ) → n < cfg1.N → Vec F S1024x512 .f32
  | 0, hn => step1 V c ⟨0, hn⟩ k1_pay2
  | n + 1, hn => step1 V c ⟨n + 1, hn⟩ (if (n + 1) % 11 = 0 then k1_pay2 else acc1 c n (Nat.lt_of_succ_lt hn))

def prev1 (c : Dev nD) (t : Fin cfg1.N) : Vec F S1024x512 .f32 :=
  acc1 V c (t.val - 1) (Nat.lt_of_le_of_lt (Nat.sub_le _ _) t.isLt)

theorem acc1_eq (c : Dev nD) (t : Fin cfg1.N) :
    acc1 V c t.val t.isLt = step1 V c t (if t.val % 11 = 0 then k1_pay2 else prev1 V c t) := by
  obtain ⟨n, hn⟩ := t
  cases n with
  | zero => rfl
  | succ n => rfl

-- What the accumulator holds before point t: anything at the first point, the previous sum later.
def pre1 (c : Dev nD) (t : Fin cfg1.N) : sProp 𝕄 :=
  if t.val = 0 then iprop(∃ d, owns (c : Thread nD τ) scM1_0 fullShare d) else owns (c : Thread nD τ) scM1_0 fullShare (prev1 V c t)

theorem pre1_some (c : Dev nD) (t : Fin cfg1.N) : pre1 V c t ⊢ iprop(∃ d, owns (c : Thread nD τ) scM1_0 fullShare d) := by
  unfold pre1; split
  · exact Entails.refl _
  · iintro H; iexists _; iexact H

def PhiS1 (c : Dev nD) : (n : ℕ) → n ≤ cfg1.N → sProp 𝕄
  | 0, _ => Pipeline.ΦA spec1 c
  | n + 1, hn => iprop(rest1 c (owns (c : Thread nD τ) scM1_0 fullShare (acc1 V c n hn)) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_before (c : Dev nD) (t : Fin cfg1.N) :
    (dat1 V c).Φ t.castSucc = iprop(rest1 c (pre1 V c t) ∗ (∃ r, prngReg c r)) := by
  obtain ⟨n, hn⟩ := t
  cases n with
  | zero => exact PhiA1_eq c
  | succ n => rfl

theorem before1 (c : Dev nD) (t : Fin cfg1.N) :
    (∀ d, (dat1 V c).before 0 t d = iblk1 V c 0 t) ∧ (∀ d, (dat1 V c).before 1 t d = iblk1 V c 1 t)
      ∧ ∀ d, (dat1 V c).before 2 t d = iblk1 V c 2 t := by
  refine ⟨fun d => ?_, fun d => ?_, fun d => ?_⟩ <;>
  exact (Dat.before_in_eq_fetched (dat1 V c) _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [(before1 V c t).1, (before1 V c t).2.1, (before1 V c t).2.2]
  rw [show (dat1 V c).owesAt () t.succ = (dat1 V c).owesAt () t.castSucc from rfl,
    show (dat1 V c).Φ t.succ = iprop(rest1 c (owns (c : Thread nD τ) scM1_0 fullShare (acc1 V c t.val t.isLt)) ∗ (∃ r, prngReg c r)) from rfl,
    Phi1_before, acc1_eq,
    show (dat1 V c).leavesExact 0 t = owns (c : Thread nD τ) (ms1_0 t) fullShare (iblk1 V c 0 t) from by
      unfold Dat.leavesExact; rw [liveAt1_0 t]; rfl,
    show (dat1 V c).leavesExact 1 t = owns (c : Thread nD τ) (ms1_1 t) fullShare (iblk1 V c 1 t) from by
      unfold Dat.leavesExact; rw [liveAt1_1 t]; rfl,
    show (dat1 V c).leavesExact 2 t = owns (c : Thread nD τ) (ms1_2 t) fullShare (iblk1 V c 2 t) from by
      unfold Dat.leavesExact; rw [liveAt1_2 t]; rfl]
  by_cases h0 : t.val % 11 = 0
  · have hc1 : ¬cond1_1 (grid1.coords t) := fun h => by have := (hcond1_1 t).mp h; omega
    rw [Dat.leavesExact_idle (dat1 V c) 3 t (idleAt1_3 t hc1) (noFlush1_3 t hc1), if_pos h0]
    iintro ⟨⟨Hr, Hg⟩, Ho, ⟨%d0, H0⟩, ⟨%d1, H1⟩, ⟨%d2, H2⟩, ⟨%d3, H3⟩⟩
    ihave Hr := rest1_swap c _ (owns (c : Thread nD τ) scM1_0 fullShare (step1 V c t k1_pay2)) $$ Hr
    icases Hr with ⟨HS, Hb⟩
    ihave HS := pre1_some V c t $$ HS
    iapply ((kernelRun1_A c t ((hcond1_0 t).mpr h0) hc1 (iblk1 V c 0 t) (iblk1 V c 1 t) (iblk1 V c 2 t)).2.2 _ Set.univ _)
    iframe H0 H1 H2 H3 HS
    iintro ⟨H0, H1, H2, H3, ⟨%es0, HS⟩⟩
    iframe Hg Ho H0 H1 H2
    isplitl [HS Hb]
    · iapply Hb; unfold owns; iexists _; isplitr
      swap; · iexact HS
      ipureintro; exact left1_A _ _ _
    iexists _; iexact H3
  · have hc0 : ¬cond1_0 (grid1.coords t) := fun h => h0 ((hcond1_0 t).mp h)
    have hz : ¬t.val = 0 := fun hz => h0 (by rw [hz])
    rw [if_neg h0]; unfold pre1; rw [if_neg hz]
    by_cases h1 : t.val % 11 = 10
    · have hc1 : cond1_1 (grid1.coords t) := (hcond1_1 t).mpr h1
      rw [show (dat1 V c).leavesExact 3 t = owns (c : Thread nD τ) (ms1_3 t) fullShare (acc1 V c t.val t.isLt) from by
        unfold Dat.leavesExact; rw [liveAt1_3 t hc1]; rfl, acc1_eq, if_neg h0]
      iintro ⟨⟨Hr, Hg⟩, Ho, ⟨%d0, H0⟩, ⟨%d1, H1⟩, ⟨%d2, H2⟩, ⟨%d3, H3⟩⟩
      ihave Hr := rest1_swap c _ (owns (c : Thread nD τ) scM1_0 fullShare (step1 V c t (prev1 V c t))) $$ Hr
      icases Hr with ⟨HS, Hb⟩
      iapply ((kernelRun1_C c t hc0 hc1 (iblk1 V c 0 t) (iblk1 V c 1 t) (iblk1 V c 2 t) _).2.2 Set.univ _)
      iframe H0 H1 H2 HS
      isplitl [H3]; · iexists _; iexact H3
      iintro ⟨H0, H1, H2, ⟨%e3, H3⟩, ⟨%es0, HS⟩⟩
      iframe Hg Ho H0 H1 H2
      isplitl [HS Hb]
      · iapply Hb; unfold owns; iexists _; isplitr
        swap; · iexact HS
        ipureintro; exact ((left1_BC hc0).2 hc1).1 _
      unfold owns; iexists _; isplitr
      swap; · iexact H3
      ipureintro; exact ((left1_BC hc0).2 hc1).2 _
    · have hc1 : ¬cond1_1 (grid1.coords t) := fun h => h1 ((hcond1_1 t).mp h)
      rw [Dat.leavesExact_idle (dat1 V c) 3 t (idleAt1_3 t hc1) (noFlush1_3 t hc1)]
      iintro ⟨⟨Hr, Hg⟩, Ho, ⟨%d0, H0⟩, ⟨%d1, H1⟩, ⟨%d2, H2⟩, ⟨%d3, H3⟩⟩
      ihave Hr := rest1_swap c _ (owns (c : Thread nD τ) scM1_0 fullShare (step1 V c t (prev1 V c t))) $$ Hr
      icases Hr with ⟨HS, Hb⟩
      iapply ((kernelRun1_B c t hc0 hc1 (iblk1 V c 0 t) (iblk1 V c 1 t) (iblk1 V c 2 t) _).2.2 _ Set.univ _)
      iframe H0 H1 H2 H3 HS
      iintro ⟨H0, H1, H2, H3, ⟨%es0, HS⟩⟩
      iframe Hg Ho H0 H1 H2
      isplitl [HS Hb]
      · iapply Hb; unfold owns; iexists _; isplitr
        swap; · iexact HS
        ipureintro; exact (left1_BC hc0).1 hc1 _
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Pipeline.ΦA spec1 c from rfl]
  try exact Entails.refl _

theorem hout1 (c : Dev nD) : (dat1 V c).Φ (Fin.last cfg1.N) ⊢ Pipeline.ΦA spec1 c := by
  rw [show (dat1 V c).Φ (Fin.last cfg1.N) = PhiS1 V c (351 + 1) (le_of_eq N_1.symm) from rfl, PhiA1_eq]
  show iprop(rest1 c _ ∗ _) ⊢ _
  iintro ⟨Hr, Hg⟩
  ihave Hr := rest1_swap c _ iprop(∃ d, owns (c : Thread nD τ) scM1_0 fullShare d) $$ Hr
  icases Hr with ⟨HS, Hb⟩
  isplitl [HS Hb]
  · iapply Hb; iexists _; iexact HS
  iexact Hg

end Region1

end Cert.Kernel.Hand

end
-- ==== Proof.K.Run.lean ====
import proofs.«102340_j15058155339839_1_alg».proof.Proof.Gen.Kernel.Regions
import proofs.«102340_j15058155339839_1_alg».proof.Proof.K.Region0
import proofs.«102340_j15058155339839_1_alg».proof.Proof.K.Region1

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Ein0 : (c : Dev nD) → (b : Ref sig .tc) → Buf (Elt F) ((c : Thread nD τ).loc b) := fun c b => V9 m c b

def W10 (c : Dev nD) : Valuation τ sig (Elt F) :=
  Pipeline.withArrays spec0 c (V9 m c) fun w => (dat0 (Ein0 m) c).arrAt w cfg0.N

def outsA : Outs (F := F) := fun _ r c => W10 m c r

abbrev Ein1 : (c : Dev nD) → (b : Ref sig .tc) → Buf (Elt F) ((c : Thread nD τ).loc b) := fun c b => V13 m (outsA m) c b

def W14 (c : Dev nD) : Valuation τ sig (Elt F) :=
  Pipeline.withArrays spec1 c (V13 m (outsA m) c) fun w => (dat1 (Ein1 m) c).arrAt w cfg1.N

def outs : Outs (F := F) := fun J r c => if J = 14 then W14 m c r else W10 m c r

theorem W10_arr (c : Dev nD) (w : Fin cfg0.W) :
    W10 m c (Proc.devRef .tc (Pipeline.arrRef spec0 w)) = (dat0 (Ein0 m) c).arrAt w cfg0.N :=
  Pipeline.withArrays_arr spec0 launch0.win.arr_inj c _ _ w
theorem W14_arr (c : Dev nD) (w : Fin cfg1.W) :
    W14 m c (Proc.devRef .tc (Pipeline.arrRef spec1 w)) = (dat1 (Ein1 m) c).arrAt w cfg1.N :=
  Pipeline.withArrays_arr spec1 launch1.win.arr_inj c _ _ w

theorem V10_main_v10 (c : Dev nD) : V10 m (outs m) c main_v10 = (dat0 (Ein0 m) c).arrAt 4 cfg0.N :=
  (Function.update_self _ _ _).trans (W10_arr m c 4)

theorem V14_main_v17 (c : Dev nD) : V14 m (outs m) c main_v17 = (dat1 (Ein1 m) c).arrAt 3 cfg1.N :=
  (Function.update_self _ _ _).trans (W14_arr m c 3)

def pdats : (p : Fin 2) → (c : Dev nD) → Dat τ (Elt F) Unit ℕ (UR sig nD τ) ℕ (Pipeline.pin (pcfgs (F := F)) adm p) c
  | ⟨0, _⟩ => fun c => dat0 (Ein0 m) c
  | ⟨1, _⟩ => fun c => dat1 (Ein1 m) c

abbrev Lz : GSem nD τ sig → Finset Unit := fun _ => ∅
abbrev lvz : GSem nD τ sig → Unit → ℕ := fun _ _ => 0

abbrev Rr (c : Dev nD) : sProp 𝕄 := iprop((∃ r, prngReg c r) ∗ ∃ W, owes (c : Thread nD τ) (0 : CellTallies nD τ sig Unit) W)

set_option backward.isDefEq.respectTransparency.types false in
-- One record for both regions: every window but `o` is read only, so the contents `Vi` at entry leave as `Vo`, which differs from `Vi` at `o`'s array alone.
def reg (p : Fin 2) (kit : Pipeline.LaunchFacts (nD := nD) (τ := τ) cfgs p)
    (hb : ∀ c, BodyObligation (pdats m p c) defs₀ Variants.none () Set.univ)
    (hq : ∀ c w, (pdats m p c).q w = fullShare) (h0 : ∀ c t, (pdats m p c).owed t = 0)
    (hbd : ∀ c x, x ∈ (pdats m p c).bound () 0)
    (hi : ∀ c, Pipeline.ΦA (cfgs p).spec c ⊢ (pdats m p c).Φ 0)
    (ho : ∀ c, (pdats m p c).Φ (Fin.last _) ⊢ Pipeline.ΦA (cfgs p).spec c)
    (Vi Vo : Dev nD → Valuation τ sig (Elt F))
    (hA : ∀ c w, (pdats m p c).A w = Vi c (Pipeline.arrRef (cfgs p).spec w))
    (o : Fin (cfgs p).W) (hio : ∀ w, w ≠ o → ((cfgs p).win w).isOut = false)
    (hVo : ∀ c, Vo c (Pipeline.arrRef (cfgs p).spec o) = (pdats m p c).arrAt o (cfgs p).N)
    (hVr : ∀ c (b : Ref sig .tc), b ∉ [Pipeline.arrRef (cfgs p).spec o] → Vo c b = Vi c b) :
    Pipeline.RegionSeg (pcfgs (F := F)) adm (pdats m) () defs₀ Variants.none Lz lvz p where
  win := kit.win.to₀
  block_pos := kit.block_pos
  stage_whole := kit.stage_whole
  K := PEmpty
  osem k := k.elim
  ho := Pipeline.OwnSemFacts.none _
  hbody c := (hb c).loose
  hwaits := Pipeline.hwaits_of_owed_zero _ _ _ _ Lz lvz p h0
  pre c := iprop(StableHlo.held (c : Thread nD τ) (Pipeline.ucRefs τ sig) (Vi c) ∗ Rr c)
  post c := iprop(StableHlo.held (c : Thread nD τ) (Pipeline.ucRefs τ sig) (Vo c) ∗ Rr c)
  X c := iprop(∃ r, prngReg c r)
  Y c := iprop(∃ r, prngReg c r)
  Z c := Pipeline.unscopedRest (cfgs p).spec c fun b => Vi c b
  hentry c := by
    unfold Pipeline.Dat.owesAt Pipeline.owesWithin Pipeline.prefHeld
    rw [Pipeline.ownSems0_none, ← Pipeline.unscopedBufs_held, h0 c, show (Finset.univ : Finset (Fin 0)) = ∅ from rfl, BI.bigSep_empty]
    iintro ⟨⟨Hub, Hp, ⟨%W, HO⟩⟩, -, -⟩
    ihave H := (Pipeline.arrays_of_unscopedBufs (p := p) (pcfgs (F := F)) adm (pdats m) kit.win kit.arr_whole c
      ((pdats m p c).share_full (hq c)) (fun b => Vi c b) (hA c)) $$ Hub
    icases H with ⟨Ha, Hrest⟩
    imodintro
    iframe Ha Hp Hrest
    isplitr; · iempintro
    iexists W; iframe HO; ipureintro; exact fun x _ => hbd c x
  hin c := by
    iintro ⟨Hp, -, Hr⟩
    iapply hi c
    unfold Pipeline.ΦA
    iframe
  hout c := by
    rw [Pipeline.ownSems0_none]
    refine (ho c).trans ?_
    unfold Pipeline.ΦA
    iintro ⟨Hr, Hp⟩
    iframe
    iempintro
  hexit c := by
    unfold Pipeline.Dat.owesAt Pipeline.owesWithin
    rw [← Pipeline.unscopedBufs_held, h0 c]
    iintro ⟨Ha, ⟨%W, -, HO⟩, HY, Hrest⟩
    imodintro
    isplitl [Ha Hrest]
    · iapply Pipeline.unscopedBufs_of_arrays (p := p) (pcfgs (F := F)) adm kit.win kit.arr_whole c (pdats m)
        ((pdats m p c).share_full (hq c)) (fun b => Vi c b) (fun b => Vo c b) ((pdats m p c).arrAt · (cfgs p).N)
        (fun w => if e : w = o then by rw [e]; exact (hVo c).symm else
          (((pdats m p c).arrAt_in w (hio w e) _).trans (hA c w)).trans
            (hVr c _ fun h => e (kit.win.arr_inj (List.mem_singleton.mp h))).symm)
        (fun b hb => hVr c b fun h => hb (Finset.mem_image.mpr ⟨o, Finset.mem_univ _, (List.mem_singleton.mp h).symm⟩))
      iframe
    isplitl [HY]; · iexact HY
    iexists W; iexact HO

def reg0 := reg m 0 launch0 (body_obligation0 (Ein0 m)) (fun _ _ => rfl) (fun _ _ => rfl) (fun _ _ => Or.inl trivial)
  (hin0 (Ein0 m)) (hout0 (Ein0 m)) (V9 m) (V10 m (outs m)) (A_eq0 (Ein0 m)) 4 (by decide) (V10_main_v10 m) (V10_of m (outs m))

def reg1 := reg m 1 launch1 (body_obligation1 (Ein1 m)) (fun _ _ => rfl) (fun _ _ => rfl) (fun _ _ => Or.inl trivial)
  (hin1 (Ein1 m)) (hout1 (Ein1 m)) (V13 m (outs m)) (V14 m (outs m)) (A_eq1 (Ein1 m)) 3 (by decide) (V14_main_v17 m) (V14_of m (outs m))

set_option backward.isDefEq.respectTransparency.types false in
set_option maxHeartbeats 4000000 in
theorem run_main : θ_run defs (onTc (τ := τ) (main (F := F))) ⟨m, fun _ => 0, ρ⟩ (fun r => ∀ c : Dev nD,
      ∀ b ∈ Pipeline.ucRefs τ sig, r.2.mem ((c : Thread nD τ).1, b) = V15 m (outs m) c b) :=
  Pipeline.θ_run_regions_kit_dev (pcfgs (F := F)) adm (pdats m) () cellOf_inj emb₁ defs₀ Variants.none Lz lvz m ρ main
    (segs m (outs m) Variants.none Lz lvz (fun _ => Rr) () (pdats m) (reg0 m) (reg1 m))
    (fun c Q => by rewrite [main_chain c, Seg.run_eq_chain]; exact .rfl)
    (fun c => by simp only [segs, Seg.pipes_host, Seg.pipes_region, Seg.pipes_nil]; decide) (O₀ := 0) (fun _ _ => rfl) (fun _ => BI.emp)
    _
    (by rw [BI.bigSep_emp_const]; exact (show (ownU _ : sProp 𝕄) ⊢ iprop(BI.own (emb₁ _) ∗ BI.emp) from sep_emp_intro).trans fupd_intro)
    (T₀ := fun c => iprop(StableHlo.held (c : Thread nD τ) (Pipeline.ucRefs τ sig) (V0 m c) ∗ Rr c))
    (hch := fun c => ⟨.rfl, .rfl, .rfl, .rfl, .rfl, .rfl, .rfl, .rfl, .rfl, .rfl, .rfl, .rfl, .rfl,
      .rfl, .rfl, sep_mono .rfl (by iintro ⟨-, H⟩; iexact H)⟩)
    (hinit := Pipeline.initEach Lz lvz fun c => by
      erw [Pipeline.unscopedBufs_held c (V0 m c)]
      iintro ⟨⟨Hh, -, HO, -, Hp, -⟩, -⟩
      imodintro
      iframe Hh
      isplitl [Hp]; · iexists _; iexact Hp
      iexists ∅; iexact HO)
    (hfin := fun c s' => (pointsTo_read_all (Pipeline.ucRefs τ sig) (fun b => ((c : Thread nD τ).1, b)) (V15 m (outs m) c) s').trans fupd_intro)
    (hQ := fun _ h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (V15_main_arg0 m (outs m) c),
     (h c _ (mem_uc main_arg1 (by decide))).trans (V15_main_arg1 m (outs m) c),
     (h c _ (mem_uc main_arg2 (by decide))).trans (V15_main_arg2 m (outs m) c),
     (h c _ (mem_uc main_arg3 (by decide))).trans (V15_main_arg3 m (outs m) c)⟩) (run_main m ρ)

end Cert.Kernel.Hand

end
-- ==== Proof.KI.Shared.lean ====
import proofs.«102340_j15058155339839_1_alg».proof.Proof.Gen.KernelIdeal.Launch
import proofs.«102340_j15058155339839_1_alg».proof.Proof.Gen.KernelIdeal.Skeleton
import proofs.«102340_j15058155339839_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .f32 := win0_4.stage (cfg0.slots t 4)
abbrev hs0_4 (t : Fin cfg0.N) : (ms0_4 t).IsWhole := hstage0_4 ((cfg0.slots t 4).cast nbuf0_4)

abbrev scM0_0 : Memref sig .tc .vmem S1024x512 .f32 := Memref.whole cc0_scratch0
abbrev scM0_1 : Memref sig .tc .vmem S1024x512 .f32 := Memref.whole cc0_scratch1

def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 11 = 0 :=
  (by decide +kernel : ∀ t : Fin grid1.N, cond1_0 (grid1.coords t) ↔ t.val % 11 = 0)
abbrev cond1_1 (i : grid1.Coords) : Prop := k1_cond2 i = 1#1
theorem hcond1_1 : ∀ t : Fin cfg1.N, cond1_1 (grid1.coords t) ↔ t.val % 11 = 10 :=
  (by decide +kernel : ∀ t : Fin grid1.N, cond1_1 (grid1.coords t) ↔ t.val % 11 = 10)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)

abbrev scM1_0 : Memref sig .tc .vmem S1024x512 .f32 := Memref.whole cc1_scratch0
abbrev VS1_0 : View sig .tc .vmem S1024x512 .f32 := scM1_0.view

def rest1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)

theorem PhiA1_eq (c : Dev nD) :
    (Pipeline.ΦA spec1 c : sProp 𝕄)
      = iprop(rest1 c iprop(∃ d, owns (c : Thread nD τ) scM1_0 fullShare d) ∗ (∃ r, prngReg c r)) := by
  unfold Pipeline.ΦA rest1; rw [scopedRest1_eq]; simp only [scM1_0, owns_whole]; try rfl

/-- Written pieces that tile a buffer leave it owned at the pieces read back in order. -/
theorem owns_canon_of_writes {c : Thread nD τ} {sp} {s} {e} {M : Memref sig c.2.kind sp s e} {q} {g : Buf (Elt F) (M.view.loc c)}
    {L : List (View.Piece (Elt F) s e)} (size : Fin s.rank → ℕ) (hL : View.Piece.tiledL L size = true) :
    (M.view.loc c ↦[M.view.set]{q} M.view.writes (Elt F) g L : sProp 𝕄) ⊢ owns c M q (View.canon L) := by
  unfold owns; iintro H; iexists _; isplitr
  swap; · iexact H
  ipureintro; exact View.read_writes_eq_canon _ _ _ (View.cover_of_tiledL L size hL)

end Cert.KernelIdeal.Hand

end
-- ==== Proof.KI.Run0A.lean ====
import proofs.«102340_j15058155339839_1_alg».proof.Proof.KI.Shared

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (t : Fin cfg0.N) (hc0 : cond0_0 (grid0.coords t)) (hc1 : ¬cond0_1 (grid0.coords t))
    (x0 : Vec F S1024x512 .f32) (x1 : Vec F S1024x1 .f32) (x2 : Vec F S512x512 .f32) (x3 : Vec F S512x512 .f32) :
    Σ' (L4 : List (View.Piece (Elt F) S1024x512 .f32)) (LS0 : List (View.Piece (Elt F) S1024x512 .f32)), { LS1 : List (View.Piece (Elt F) S1024x512 .f32) //
      ∀ (xi4 : Vec F S1024x512 .f32) (E : Set ℕ) (K : PUnit → sProp 𝕄),
        iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare xi4 ∗ (∃ d, owns (c : Thread nD τ) scM0_0 fullShare d) ∗ (∃ d, owns (c : Thread nD τ) scM0_1 fullShare d)
            ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare xi4 ∗ (∃ f, scM0_0.view.loc (c : Thread nD τ) ↦[scM0_0.view.set]{fullShare} scM0_0.view.writes (Elt F) f LS0) ∗ (∃ f, scM0_1.view.loc (c : Thread nD τ) ↦[scM0_1.view.set]{fullShare} scM0_1.view.writes (Elt F) f LS1)) -∗ K ⟨⟩))
          ⊢ wp frame (wpE (defs₀ (F := F)) Variants.none c none) E (bodyAt0 t) K } := by
  refine ⟨[], ?_, ?_, fun xi4 E K => ?run⟩
  case run =>
    unfold bodyAt0; simp only [cc0__gateup_kernel_eq_skeleton]; unfold cc0__gateup_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := (hs0_0 t).eq_unread hf0; obtain rfl := (hs0_1 t).eq_unread hf1; obtain rfl := (hs0_2 t).eq_unread hf2; obtain rfl := (hs0_3 t).eq_unread hf3; obtain rfl := (hs0_4 t).eq_unread hf4
    sl_exec (disch := first | exact hc0 | exact hc1)
    sl_step
    iapply Hk
    isplitl [H0]
    · iexists _; isplitr; · ipureintro; exact (hs0_0 t).read_unread _
      iexact H0
    isplitl [H1]
    · iexists _; isplitr; · ipureintro; exact (hs0_1 t).read_unread _
      iexact H1
    isplitl [H2]
    · iexists _; isplitr; · ipureintro; exact (hs0_2 t).read_unread _
      iexact H2
    isplitl [H3]
    · iexists _; isplitr; · ipureintro; exact (hs0_3 t).read_unread _
      iexact H3
    isplitl [H4]
    · iexists _; isplitr; · ipureintro; exact (hs0_4 t).read_unread _
      iexact H4
    isplitl [HS0]; · iexists _; iexact HS0
    iexists _; iexact HS1

end Cert.KernelIdeal.Hand

end
-- ==== Proof.KI.Run0B.lean ====
import proofs.«102340_j15058155339839_1_alg».proof.Proof.KI.Shared

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (t : Fin cfg0.N) (hc0 : ¬cond0_0 (grid0.coords t)) (hc1 : ¬cond0_1 (grid0.coords t))
    (x0 : Vec F S1024x512 .f32) (x1 : Vec F S1024x1 .f32) (x2 : Vec F S512x512 .f32) (x3 : Vec F S512x512 .f32) (xs0 : Vec F S1024x512 .f32) (xs1 : Vec F S1024x512 .f32) :
    Σ' (L4 : List (View.Piece (Elt F) S1024x512 .f32)) (LS0 : List (View.Piece (Elt F) S1024x512 .f32)), { LS1 : List (View.Piece (Elt F) S1024x512 .f32) //
      ∀ (xi4 : Vec F S1024x512 .f32) (E : Set ℕ) (K : PUnit → sProp 𝕄),
        iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare xi4 ∗ owns (c : Thread nD τ) scM0_0 fullShare xs0 ∗ owns (c : Thread nD τ) scM0_1 fullShare xs1
            ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare xi4 ∗ (∃ f, scM0_0.view.loc (c : Thread nD τ) ↦[scM0_0.view.set]{fullShare} scM0_0.view.writes (Elt F) f LS0) ∗ (∃ f, scM0_1.view.loc (c : Thread nD τ) ↦[scM0_1.view.set]{fullShare} scM0_1.view.writes (Elt F) f LS1)) -∗ K ⟨⟩))
          ⊢ wp frame (wpE (defs₀ (F := F)) Variants.none c none) E (bodyAt0 t) K } := by
  refine ⟨[], ?_, ?_, fun xi4 E K => ?run⟩
  case run =>
    unfold bodyAt0; simp only [cc0__gateup_kernel_eq_skeleton]; unfold cc0__gateup_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := (hs0_0 t).eq_unread hf0; obtain rfl := (hs0_1 t).eq_unread hf1; obtain rfl := (hs0_2 t).eq_unread hf2; obtain rfl := (hs0_3 t).eq_unread hf3; obtain rfl := (hs0_4 t).eq_unread hf4
    obtain rfl := (Memref.isWhole_whole cc0_scratch0).eq_unread hfs0; obtain rfl := (Memref.isWhole_whole cc0_scratch1).eq_unread hfs1
    sl_exec (disch := first | exact hc0 | exact hc1)
    sl_step
    iapply Hk
    isplitl [H0]
    · iexists _; isplitr; · ipureintro; exact (hs0_0 t).read_unread _
      iexact H0
    isplitl [H1]
    · iexists _; isplitr; · ipureintro; exact (hs0_1 t).read_unread _
      iexact H1
    isplitl [H2]
    · iexists _; isplitr; · ipureintro; exact (hs0_2 t).read_unread _
      iexact H2
    isplitl [H3]
    · iexists _; isplitr; · ipureintro; exact (hs0_3 t).read_unread _
      iexact H3
    isplitl [H4]
    · iexists _; isplitr; · ipureintro; exact (hs0_4 t).read_unread _
      iexact H4
    isplitl [HS0]; · iexists _; iexact HS0
    iexists _; iexact HS1

end Cert.KernelIdeal.Hand

end
-- ==== Proof.KI.Run0C.lean ====
import proofs.«102340_j15058155339839_1_alg».proof.Proof.KI.Shared

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (t : Fin cfg0.N) (hc0 : ¬cond0_0 (grid0.coords t)) (hc1 : cond0_1 (grid0.coords t))
    (x0 : Vec F S1024x512 .f32) (x1 : Vec F S1024x1 .f32) (x2 : Vec F S512x512 .f32) (x3 : Vec F S512x512 .f32) (xs0 : Vec F S1024x512 .f32) (xs1 : Vec F S1024x512 .f32) :
    Σ' (L4 : List (View.Piece (Elt F) S1024x512 .f32)) (LS0 : List (View.Piece (Elt F) S1024x512 .f32)), { LS1 : List (View.Piece (Elt F) S1024x512 .f32) //
      ∀ (E : Set ℕ) (K : PUnit → sProp 𝕄),
        iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ (∃ d, owns (c : Thread nD τ) (ms0_4 t) fullShare d) ∗ owns (c : Thread nD τ) scM0_0 fullShare xs0 ∗ owns (c : Thread nD τ) scM0_1 fullShare xs1
            ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ (∃ f, (ms0_4 t).view.loc (c : Thread nD τ) ↦[(ms0_4 t).view.set]{fullShare} (ms0_4 t).view.writes (Elt F) f L4) ∗ (∃ f, scM0_0.view.loc (c : Thread nD τ) ↦[scM0_0.view.set]{fullShare} scM0_0.view.writes (Elt F) f LS0) ∗ (∃ f, scM0_1.view.loc (c : Thread nD τ) ↦[scM0_1.view.set]{fullShare} scM0_1.view.writes (Elt F) f LS1)) -∗ K ⟨⟩))
          ⊢ wp frame (wpE (defs₀ (F := F)) Variants.none c none) E (bodyAt0 t) K } := by
  refine ⟨?_, ?_, ?_, fun E K => ?run⟩
  case run =>
    unfold bodyAt0; simp only [cc0__gateup_kernel_eq_skeleton]; unfold cc0__gateup_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := (hs0_0 t).eq_unread hf0; obtain rfl := (hs0_1 t).eq_unread hf1; obtain rfl := (hs0_2 t).eq_unread hf2; obtain rfl := (hs0_3 t).eq_unread hf3
    obtain rfl := (Memref.isWhole_whole cc0_scratch0).eq_unread hfs0; obtain rfl := (Memref.isWhole_whole cc0_scratch1).eq_unread hfs1
    sl_exec (disch := first | exact hc0 | exact hc1)
    sl_step
    iapply Hk
    isplitl [H0]
    · iexists _; isplitr; · ipureintro; exact (hs0_0 t).read_unread _
      iexact H0
    isplitl [H1]
    · iexists _; isplitr; · ipureintro; exact (hs0_1 t).read_unread _
      iexact H1
    isplitl [H2]
    · iexists _; isplitr; · ipureintro; exact (hs0_2 t).read_unread _
      iexact H2
    isplitl [H3]
    · iexists _; isplitr; · ipureintro; exact (hs0_3 t).read_unread _
      iexact H3
    isplitl [H4]; · iexists _; iexact H4
    isplitl [HS0]; · iexists _; iexact HS0
    iexists _; iexact HS1

end Cert.KernelIdeal.Hand

end
-- ==== Proof.KI.Region0.lean ====
import proofs.«102340_j15058155339839_1_alg».proof.Proof.KI.Run0A
import proofs.«102340_j15058155339839_1_alg».proof.Proof.KI.Run0B
import proofs.«102340_j15058155339839_1_alg».proof.Proof.KI.Run0C

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev Outs0 (F : FTy → Type) := Vec F S1024x512 .f32 × Vec F S1024x512 .f32 × Vec F S1024x512 .f32

variable (c : Dev nD) (t : Fin cfg0.N)

-- The three control cases of the body at grid point `t`, on that point's blocks of the four input arrays.
def run0A (h0 : t.val % 4 = 0) :=
  kernelRun0_A (F := F) c t ((hcond0_0 t).mpr h0) (fun h => absurd ((hcond0_1 t).mp h) (by omega)) (iblk0 V c 0 t) (iblk0 V c 1 t) (iblk0 V c 2 t) (iblk0 V c 3 t)

def run0B (h0 : ¬t.val % 4 = 0) (h1 : ¬t.val % 4 = 3) (a : Outs0 F) :=
  kernelRun0_B c t (fun h => h0 ((hcond0_0 t).mp h)) (fun h => h1 ((hcond0_1 t).mp h)) (iblk0 V c 0 t) (iblk0 V c 1 t) (iblk0 V c 2 t) (iblk0 V c 3 t) a.2.1 a.2.2

def run0C (h1 : t.val % 4 = 3) (a : Outs0 F) :=
  kernelRun0_C c t (fun h => absurd ((hcond0_0 t).mp h) (by omega)) ((hcond0_1 t).mpr h1) (iblk0 V c 0 t) (iblk0 V c 1 t) (iblk0 V c 2 t) (iblk0 V c 3 t) a.2.1 a.2.2

theorem tiled0A (h0 : t.val % 4 = 0) : View.Piece.tiledL (run0A V c t h0).2.1 S1024x512.size = true ∧ View.Piece.tiledL (run0A V c t h0).2.2.1 S1024x512.size = true :=
  ⟨by sl_kernel_rfl, by sl_kernel_rfl⟩

theorem tiled0B (h0 : ¬t.val % 4 = 0) (h1 : ¬t.val % 4 = 3) (a : Outs0 F) :
    View.Piece.tiledL (run0B V c t h0 h1 a).2.1 S1024x512.size = true ∧ View.Piece.tiledL (run0B V c t h0 h1 a).2.2.1 S1024x512.size = true :=
  ⟨by sl_kernel_rfl, by sl_kernel_rfl⟩

theorem tiled0C (h1 : t.val % 4 = 3) (a : Outs0 F) : View.Piece.tiledL (run0C V c t h1 a).1 S1024x512.size = true
    ∧ View.Piece.tiledL (run0C V c t h1 a).2.1 S1024x512.size = true ∧ View.Piece.tiledL (run0C V c t h1 a).2.2.1 S1024x512.size = true :=
  ⟨by sl_kernel_rfl, by sl_kernel_rfl, by sl_kernel_rfl⟩

-- What point `t` leaves (result block, the two accumulators), given what the point before left.
def stepAt0 (a : Outs0 F) : Outs0 F :=
  if h0 : t.val % 4 = 0 then (View.canon (run0A V c t h0).1, View.canon (run0A V c t h0).2.1, View.canon (run0A V c t h0).2.2.1)
  else if h1 : t.val % 4 = 3 then (View.canon (run0C V c t h1 a).1, View.canon (run0C V c t h1 a).2.1, View.canon (run0C V c t h1 a).2.2.1)
  else (View.canon (run0B V c t h0 h1 a).1, View.canon (run0B V c t h0 h1 a).2.1, View.canon (run0B V c t h0 h1 a).2.2.1)

theorem stepAt0_first (h0 : t.val % 4 = 0) (a b : Outs0 F) : stepAt0 V c t a = stepAt0 V c t b := by
  unfold stepAt0; rw [dif_pos h0, dif_pos h0]

def outsAt0 (c : Dev nD) : (n : ℕ) → n < cfg0.N → Outs0 F
  | 0, hn => stepAt0 V c ⟨0, hn⟩ (View.canon [], View.canon [], View.canon [])
  | n + 1, hn => stepAt0 V c ⟨n + 1, hn⟩ (outsAt0 c n (Nat.lt_of_succ_lt hn))

theorem outsAt0_eq : outsAt0 V c t.val t.isLt = stepAt0 V c t (outsAt0 V c (t.val - 1) (Nat.lt_of_le_of_lt (Nat.sub_le _ _) t.isLt)) := by
  obtain ⟨n, hn⟩ := t
  cases n with
  | zero => exact stepAt0_first V c _ rfl _ _
  | succ n => rfl

-- The region's invariant after a point: the two accumulators at what the point left.
def Acc0 (o : Outs0 F) : sProp 𝕄 :=
  iprop(iprop(owns (c : Thread nD τ) scM0_0 fullShare o.2.1 ∗ owns (c : Thread nD τ) scM0_1 fullShare o.2.2 ∗ rest0 c) ∗ (∃ r, prngReg c r))

def PhiS0 (c : Dev nD) : (n : ℕ) → n ≤ cfg0.N → sProp 𝕄
  | 0, _ => Pipeline.ΦA spec0 c
  | n + 1, hn => Acc0 c (outsAt0 V c n hn)

theorem PhiS0_pos (n : ℕ) (h : n ≤ cfg0.N) (hz : n ≠ 0) : PhiS0 V c n h = Acc0 c (outsAt0 V c (n - 1) (by omega)) := by
  cases n with
  | zero => exact absurd rfl hz
  | succ n => rfl

-- Before any point the invariant holds the two accumulators at SOME contents.
theorem PhiS0_some (n : ℕ) (h : n ≤ cfg0.N) : PhiS0 V c n h
    ⊢ iprop(iprop((∃ d, owns (c : Thread nD τ) scM0_0 fullShare d) ∗ (∃ d, owns (c : Thread nD τ) scM0_1 fullShare d) ∗ rest0 c) ∗ (∃ r, prngReg c r)) := by
  cases n with
  | zero => show Pipeline.ΦA spec0 c ⊢ _; rw [PhiA0_eq]
  | succ n =>
    show Acc0 c _ ⊢ _; unfold Acc0
    iintro ⟨⟨HS0, HS1, Hr⟩, Hg⟩
    iframe Hr Hg
    isplitl [HS0]; · iexists _; iexact HS0
    iexists _; iexact HS1

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc : (dat0 V c).Φ t.castSucc = PhiS0 V c t.val (Nat.le_of_lt t.isLt) := by
  dsimp only [dat0]; simp only [Fin.coe_castSucc]

theorem after0_0 : (dat0 V c).after 0 t = iblk0 V c 0 t := rfl
theorem after0_1 : (dat0 V c).after 1 t = iblk0 V c 1 t := rfl
theorem after0_2 : (dat0 V c).after 2 t = iblk0 V c 2 t := rfl
theorem after0_3 : (dat0 V c).after 3 t = iblk0 V c 3 t := rfl
theorem after0_4 : (dat0 V c).after 4 t = (outsAt0 V c t.val t.isLt).1 := rfl

theorem before0 : ∀ w : Fin cfg0.W, w ≠ 4 → ∀ d, (dat0 V c).before w t d = (dat0 V c).after w t
  | ⟨0, _⟩, _, d | ⟨1, _⟩, _, d | ⟨2, _⟩, _, d | ⟨3, _⟩, _, d =>
    ((dat0 V c).before_in_eq_fetched _ rfl (fun _ => rfl) (fun _ _ _ => rfl) (fun _ => rfl) t d).trans rfl
  | ⟨4, _⟩, h, _ => absurd rfl h

theorem leaves0 (w : Fin cfg0.W) (h : cfg0.idle w (cfg0.grid.coords t) = false) :
    (dat0 V c).leavesExact w t = owns (c : Thread nD τ) ((cfg0.win w).stage (cfg0.slots t w)) fullShare ((dat0 V c).after w t) := by
  unfold Dat.leavesExact; rw [h]

def bodyPre0 : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t ∗ (dat0 V c).leavesExact 4 t)

set_option maxHeartbeats 8000000 in
theorem sound_body0 :
    bodyPre0 V c t ⊢ wp frame (wpE (defs₀ (F := F)) Variants.none c none) Set.univ (bodyAt0 t) (fun _ => bodyPost0 V c t) := by
  unfold bodyPre0 bodyPost0
  simp only [before0 V c t 0 (by decide), before0 V c t 1 (by decide), before0 V c t 2 (by decide), before0 V c t 3 (by decide)]
  rw [show (dat0 V c).owesAt () t.succ = (dat0 V c).owesAt () t.castSucc from rfl,
    show (dat0 V c).Φ t.succ = Acc0 c (outsAt0 V c t.val t.isLt) from rfl, PhiS0_castSucc V c t,
    leaves0 V c t 0 (liveAt0_0 t), leaves0 V c t 1 (liveAt0_1 t), leaves0 V c t 2 (liveAt0_2 t), leaves0 V c t 3 (liveAt0_3 t),
    after0_0, after0_1, after0_2, after0_3]
  rw [outsAt0_eq V c t]; unfold stepAt0
  by_cases h0 : t.val % 4 = 0
  · have hc1 : ¬cond0_1 (grid0.coords t) := fun h => absurd ((hcond0_1 t).mp h) (by omega)
    rw [Dat.leavesExact_idle (dat0 V c) 4 t (idleAt0_4 t hc1) (noFlush0_4 t hc1), dif_pos h0]; unfold Acc0
    iintro ⟨HΦ, Ho, ⟨%d0, H0⟩, ⟨%d1, H1⟩, ⟨%d2, H2⟩, ⟨%d3, H3⟩, ⟨%d4, H4⟩⟩
    icases (PhiS0_some V c _ _) $$ HΦ with ⟨⟨HS0, HS1, Hr⟩, Hg⟩
    iapply ((run0A V c t h0).2.2.2 _ Set.univ _)
    iframe H0 H1 H2 H3 H4 HS0 HS1
    iintro ⟨H0, H1, H2, H3, H4, ⟨%es0, HS0⟩, ⟨%es1, HS1⟩⟩
    iframe Hr Hg Ho H0 H1 H2 H3
    isplitr [H4]; swap; · iexists _; iexact H4
    isplitl [HS0]; · iapply (owns_canon_of_writes _ (tiled0A V c t h0).1); iexact HS0
    iapply (owns_canon_of_writes _ (tiled0A V c t h0).2); iexact HS1
  · rw [dif_neg h0, PhiS0_pos V c _ _ (fun hz => h0 (by rw [hz]))]
    by_cases h1 : t.val % 4 = 3
    · rw [leaves0 V c t 4 (liveAt0_4 t ((hcond0_1 t).mpr h1)), after0_4, outsAt0_eq V c t]
      unfold stepAt0 Acc0; rw [dif_neg h0, dif_pos h1]
      iintro ⟨⟨⟨HS0, HS1, Hr⟩, Hg⟩, Ho, ⟨%d0, H0⟩, ⟨%d1, H1⟩, ⟨%d2, H2⟩, ⟨%d3, H3⟩, ⟨%d4, H4⟩⟩
      iapply ((run0C V c t h1 _).2.2.2 Set.univ _)
      iframe H0 H1 H2 H3 HS0 HS1
      isplitl [H4]; · iexists _; iexact H4
      iintro ⟨H0, H1, H2, H3, ⟨%e4, H4⟩, ⟨%es0, HS0⟩, ⟨%es1, HS1⟩⟩
      iframe Hr Hg Ho H0 H1 H2 H3
      isplitr [H4]; swap; · iapply (owns_canon_of_writes _ (tiled0C V c t h1 _).1); iexact H4
      isplitl [HS0]; · iapply (owns_canon_of_writes _ (tiled0C V c t h1 _).2.1); iexact HS0
      iapply (owns_canon_of_writes _ (tiled0C V c t h1 _).2.2); iexact HS1
    · have hc1 : ¬cond0_1 (grid0.coords t) := fun h => h1 ((hcond0_1 t).mp h)
      rw [Dat.leavesExact_idle (dat0 V c) 4 t (idleAt0_4 t hc1) (noFlush0_4 t hc1), dif_neg h1]; unfold Acc0
      iintro ⟨⟨⟨HS0, HS1, Hr⟩, Hg⟩, Ho, ⟨%d0, H0⟩, ⟨%d1, H1⟩, ⟨%d2, H2⟩, ⟨%d3, H3⟩, ⟨%d4, H4⟩⟩
      iapply ((run0B V c t h0 h1 _).2.2.2 _ Set.univ _)
      iframe H0 H1 H2 H3 H4 HS0 HS1
      iintro ⟨H0, H1, H2, H3, H4, ⟨%es0, HS0⟩, ⟨%es1, HS1⟩⟩
      iframe Hr Hg Ho H0 H1 H2 H3
      isplitr [H4]; swap; · iexists _; iexact H4
      isplitl [HS0]; · iapply (owns_canon_of_writes _ (tiled0B V c t h0 h1 _).1); iexact HS0
      iapply (owns_canon_of_writes _ (tiled0B V c t h0 h1 _).2); iexact HS1

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := Idealize.SL.BI.Entails.refl _

theorem hout0 (c : Dev nD) : (dat0 V c).Φ (Fin.last cfg0.N) ⊢ Pipeline.ΦA spec0 c := by
  rw [PhiA0_eq]; exact PhiS0_some V c (Fin.last cfg0.N).val _

end Region0

end Cert.KernelIdeal.Hand

end
-- ==== Proof.KI.Run1A.lean ====
import proofs.«102340_j15058155339839_1_alg».proof.Proof.KI.Shared

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun1_A (c : Dev nD) (t : Fin cfg1.N) (hc0 : cond1_0 (grid1.coords t)) (hc1 : ¬cond1_1 (grid1.coords t))
    (x0 : Vec F S1024x512 .f32) (x1 : Vec F S1024x1 .f32) (x2 : Vec F S512x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) (ms1_0 t) fullShare x0 ∗ owns (c : Thread nD τ) (ms1_1 t) fullShare x1 ∗ owns (c : Thread nD τ) (ms1_2 t) fullShare x2 ∗ owns (c : Thread nD τ) (ms1_3 t) fullShare xi3 ∗ (∃ d, owns (c : Thread nD τ) scM1_0 fullShare d)
            ∗ (iprop(owns (c : Thread nD τ) (ms1_0 t) fullShare x0 ∗ owns (c : Thread nD τ) (ms1_1 t) fullShare x1 ∗ owns (c : Thread nD τ) (ms1_2 t) fullShare x2 ∗ owns (c : Thread nD τ) (ms1_3 t) fullShare xi3 ∗ (∃ f, VS1_0.loc (c : Thread nD τ) ↦[VS1_0.set]{fullShare} VS1_0.writes (Elt F) f LS0)) -∗ K ⟨⟩))
          ⊢ wp frame (wpE (defs₀ (F := F)) Variants.none c none) E (bodyAt1 t) K } := by
  refine ⟨[], ?_, fun xi3 E K => ?run⟩
  case run =>
    unfold bodyAt1
    simp only [cc1__down_kernel_eq_skeleton]; unfold cc1__down_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := (hs1_0 t).eq_unread hf0; obtain rfl := (hs1_1 t).eq_unread hf1; obtain rfl := (hs1_2 t).eq_unread hf2; obtain rfl := (hs1_3 t).eq_unread hf3
    sl_exec (disch := first | exact hc0 | exact hc1)
    sl_step
    iapply Hk
    isplitl [H0]
    · iexists _; isplitr; · ipureintro; exact (hs1_0 t).read_unread _
      iexact H0
    isplitl [H1]
    · iexists _; isplitr; · ipureintro; exact (hs1_1 t).read_unread _
      iexact H1
    isplitl [H2]
    · iexists _; isplitr; · ipureintro; exact (hs1_2 t).read_unread _
      iexact H2
    isplitl [H3]
    · iexists _; isplitr; · ipureintro; exact (hs1_3 t).read_unread _
      iexact H3
    iexists _; iexact HS0

end Cert.KernelIdeal.Hand

end
-- ==== Proof.KI.Run1B.lean ====
import proofs.«102340_j15058155339839_1_alg».proof.Proof.KI.Shared

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun1_B (c : Dev nD) (t : Fin cfg1.N) (hc0 : ¬cond1_0 (grid1.coords t)) (hc1 : ¬cond1_1 (grid1.coords t))
    (x0 : Vec F S1024x512 .f32) (x1 : Vec F S1024x1 .f32) (x2 : Vec F S512x512 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) (ms1_0 t) fullShare x0 ∗ owns (c : Thread nD τ) (ms1_1 t) fullShare x1 ∗ owns (c : Thread nD τ) (ms1_2 t) fullShare x2 ∗ owns (c : Thread nD τ) (ms1_3 t) fullShare xi3 ∗ owns (c : Thread nD τ) scM1_0 fullShare xs0
            ∗ (iprop(owns (c : Thread nD τ) (ms1_0 t) fullShare x0 ∗ owns (c : Thread nD τ) (ms1_1 t) fullShare x1 ∗ owns (c : Thread nD τ) (ms1_2 t) fullShare x2 ∗ owns (c : Thread nD τ) (ms1_3 t) fullShare xi3 ∗ (∃ f, VS1_0.loc (c : Thread nD τ) ↦[VS1_0.set]{fullShare} VS1_0.writes (Elt F) f LS0)) -∗ K ⟨⟩))
          ⊢ wp frame (wpE (defs₀ (F := F)) Variants.none c none) E (bodyAt1 t) K } := by
  refine ⟨[], ?_, fun xi3 E K => ?run⟩
  case run =>
    unfold bodyAt1
    simp only [cc1__down_kernel_eq_skeleton]; unfold cc1__down_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := (hs1_0 t).eq_unread hf0; obtain rfl := (hs1_1 t).eq_unread hf1; obtain rfl := (hs1_2 t).eq_unread hf2; obtain rfl := (hs1_3 t).eq_unread hf3
    obtain rfl := (Memref.isWhole_whole cc1_scratch0).eq_unread hfs0
    sl_exec (disch := first | exact hc0 | exact hc1)
    sl_step
    iapply Hk
    isplitl [H0]
    · iexists _; isplitr; · ipureintro; exact (hs1_0 t).read_unread _
      iexact H0
    isplitl [H1]
    · iexists _; isplitr; · ipureintro; exact (hs1_1 t).read_unread _
      iexact H1
    isplitl [H2]
    · iexists _; isplitr; · ipureintro; exact (hs1_2 t).read_unread _
      iexact H2
    isplitl [H3]
    · iexists _; isplitr; · ipureintro; exact (hs1_3 t).read_unread _
      iexact H3
    iexists _; iexact HS0

end Cert.KernelIdeal.Hand

end
-- ==== Proof.KI.Run1C.lean ====
import proofs.«102340_j15058155339839_1_alg».proof.Proof.KI.Shared

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun1_C (c : Dev nD) (t : Fin cfg1.N) (hc0 : ¬cond1_0 (grid1.coords t)) (hc1 : cond1_1 (grid1.coords t))
    (x0 : Vec F S1024x512 .f32) (x1 : Vec F S1024x1 .f32) (x2 : Vec F S512x512 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) (ms1_0 t) fullShare x0 ∗ owns (c : Thread nD τ) (ms1_1 t) fullShare x1 ∗ owns (c : Thread nD τ) (ms1_2 t) fullShare x2 ∗ (∃ d, owns (c : Thread nD τ) (ms1_3 t) fullShare d) ∗ owns (c : Thread nD τ) scM1_0 fullShare xs0
            ∗ (iprop(owns (c : Thread nD τ) (ms1_0 t) fullShare x0 ∗ owns (c : Thread nD τ) (ms1_1 t) fullShare x1 ∗ owns (c : Thread nD τ) (ms1_2 t) fullShare x2 ∗ (∃ f, (ms1_3 t).view.loc (c : Thread nD τ) ↦[(ms1_3 t).view.set]{fullShare} (ms1_3 t).view.writes (Elt F) f L3) ∗ (∃ f, VS1_0.loc (c : Thread nD τ) ↦[VS1_0.set]{fullShare} VS1_0.writes (Elt F) f LS0)) -∗ K ⟨⟩))
          ⊢ wp frame (wpE (defs₀ (F := F)) Variants.none c none) E (bodyAt1 t) K } := by
  refine ⟨?_, ?_, fun E K => ?run⟩
  case run =>
    unfold bodyAt1
    simp only [cc1__down_kernel_eq_skeleton]; unfold cc1__down_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := (hs1_0 t).eq_unread hf0; obtain rfl := (hs1_1 t).eq_unread hf1; obtain rfl := (hs1_2 t).eq_unread hf2
    obtain rfl := (Memref.isWhole_whole cc1_scratch0).eq_unread hfs0
    sl_exec (disch := first | exact hc0 | exact hc1)
    sl_step
    iapply Hk
    isplitl [H0]
    · iexists _; isplitr; · ipureintro; exact (hs1_0 t).read_unread _
      iexact H0
    isplitl [H1]
    · iexists _; isplitr; · ipureintro; exact (hs1_1 t).read_unread _
      iexact H1
    isplitl [H2]
    · iexists _; isplitr; · ipureintro; exact (hs1_2 t).read_unread _
      iexact H2
    isplitl [H3]; · iexists _; iexact H3
    iexists _; iexact HS0

end Cert.KernelIdeal.Hand

end
-- ==== Proof.KI.Val1Aux1.lean ====
import proofs.«102340_j15058155339839_1_alg».proof.Proof.KI.Run1A
import proofs.«102340_j15058155339839_1_alg».proof.Proof.KI.Run1B
import proofs.«102340_j15058155339839_1_alg».proof.Proof.KI.Run1C
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {c : Dev nD} {t : Fin cfg1.N} {x0 : Vec F S1024x512 .f32} {x1 : Vec F S1024x1 .f32} {x2 : Vec F S512x512 .f32} {xs0 : Vec F S1024x512 .f32}

theorem hz1024x512 : (![0, 0] : Fin 2 → Nat) = fun _ => 0 := funext fun a => by fin_cases a <;> rfl

-- At the first column block the accumulator restarts from k1_pay2 and takes the block's product.
theorem left1_A (hc0 : cond1_0 (grid1.coords t)) (hc1 : ¬cond1_1 (grid1.coords t)) (f) :
    VS1_0.read (Elt F) (VS1_0.writes (Elt F) f (kernelRun1_A c t hc0 hc1 x0 x1 x2).2.1)
      = k1_pay1 (k1_pay2 (F := F)) (k1_pay3 x0 x1) (k1_pay4 x2) := by
  refine (View.read_writes_eq_canon _ _ _ (View.cover_of_tiledL _ S1024x512.size ?_)).trans ?_
  · sl_kernel_rfl
  unfold kernelRun1_A
  dsimp only
  sl_unfold_words
  rw [View.canon_cons_unit_zero (S := S1024x512) hz1024x512, View.readCov_unit_zero (S := S1024x512) _ hz1024x512]
  simp only [View.readAt_eq_ld, (hs1_0 t).read_unread, (hs1_1 t).read_unread, (hs1_2 t).read_unread, (Memref.isWhole_whole cc1_scratch0).read_unread, View.readCov_unit_zero (S := S1024x512) _ hz1024x512, View.ld_unit_zero (S := S1024x512) hz1024x512, View.ld_unit_zero (S := S1024x1) hz1024x512, View.ld_unit_zero (S := S512x512) hz1024x512]

-- At every later column block the accumulator xs0 takes the block's product; at the last one the output block receives the same sum.
theorem left1_BC (hc0 : ¬cond1_0 (grid1.coords t)) :
    (∀ (hc1 : ¬cond1_1 (grid1.coords t)) (f), VS1_0.read (Elt F) (VS1_0.writes (Elt F) f (kernelRun1_B c t hc0 hc1 x0 x1 x2 xs0).2.1) = k1_pay1 xs0 (k1_pay3 x0 x1) (k1_pay4 x2))
      ∧ ∀ hc1 : cond1_1 (grid1.coords t), (∀ f, VS1_0.read (Elt F) (VS1_0.writes (Elt F) f (kernelRun1_C c t hc0 hc1 x0 x1 x2 xs0).2.1) = k1_pay1 xs0 (k1_pay3 x0 x1) (k1_pay4 x2))
        ∧ ∀ f, (ms1_3 t).view.read (Elt F) ((ms1_3 t).view.writes (Elt F) f (kernelRun1_C c t hc0 hc1 x0 x1 x2 xs0).1) = k1_pay1 xs0 (k1_pay3 x0 x1) (k1_pay4 x2) := by
  refine ⟨fun hc1 f => ?_, fun hc1 => ⟨fun f => ?_, fun f => ?_⟩⟩ <;> (
    refine (View.read_writes_eq_canon _ _ _ (View.cover_of_tiledL _ S1024x512.size ?_)).trans ?_
    · sl_kernel_rfl
    first | unfold kernelRun1_B | unfold kernelRun1_C
    dsimp only
    sl_unfold_words
    (try dsimp only)
    rw [View.canon_unit_zero hz1024x512]
    simp only [View.readAt_eq_ld, (hs1_0 t).read_unread, (hs1_1 t).read_unread, (hs1_2 t).read_unread, (Memref.isWhole_whole cc1_scratch0).read_unread, View.readCov_unit_zero (S := S1024x512) _ hz1024x512, View.ld_unit_zero (S := S1024x512) hz1024x512, View.ld_unit_zero (S := S1024x1) hz1024x512, View.ld_unit_zero (S := S512x512) hz1024x512])

end Cert.KernelIdeal.Hand

end
-- ==== Proof.KI.Region1.lean ====
import proofs.«102340_j15058155339839_1_alg».proof.Proof.KI.Val1Aux1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- Whatever X stands in the frame can be taken out and any Y put back in its place.
theorem rest1_swap (c : Dev nD) (X Y : sProp 𝕄) : rest1 c X ⊢ iprop(X ∗ (Y -∗ rest1 c Y)) := by
  unfold rest1
  iintro ⟨Hq0, Hq1, Hq2, Hq3, Hq4, Hq5, Hq6, Hq7, Hq8, Hq9, Hq10, Hq11, HX⟩
  iframe HX
  iintro HY
  iframe

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- What grid point t makes of the accumulator a.
def step1 (c : Dev nD) (t : Fin cfg1.N) (a : Vec F S1024x512 .f32) : Vec F S1024x512 .f32 :=
  k1_pay1 a (k1_pay3 (iblk1 V c 0 t) (iblk1 V c 1 t)) (k1_pay4 (iblk1 V c 2 t))

-- The accumulator after point n; it restarts at every eleventh point.
def acc1 (c : Dev nD) : (n : ℕ) → n < cfg1.N → Vec F S1024x512 .f32
  | 0, hn => step1 V c ⟨0, hn⟩ k1_pay2
  | n + 1, hn => step1 V c ⟨n + 1, hn⟩ (if (n + 1) % 11 = 0 then k1_pay2 else acc1 c n (Nat.lt_of_succ_lt hn))

def prev1 (c : Dev nD) (t : Fin cfg1.N) : Vec F S1024x512 .f32 :=
  acc1 V c (t.val - 1) (Nat.lt_of_le_of_lt (Nat.sub_le _ _) t.isLt)

theorem acc1_eq (c : Dev nD) (t : Fin cfg1.N) :
    acc1 V c t.val t.isLt = step1 V c t (if t.val % 11 = 0 then k1_pay2 else prev1 V c t) := by
  obtain ⟨n, hn⟩ := t
  cases n with
  | zero => rfl
  | succ n => rfl

-- What the accumulator holds before point t: anything at the first point, the previous sum later.
def pre1 (c : Dev nD) (t : Fin cfg1.N) : sProp 𝕄 :=
  if t.val = 0 then iprop(∃ d, owns (c : Thread nD τ) scM1_0 fullShare d) else owns (c : Thread nD τ) scM1_0 fullShare (prev1 V c t)

theorem pre1_some (c : Dev nD) (t : Fin cfg1.N) : pre1 V c t ⊢ iprop(∃ d, owns (c : Thread nD τ) scM1_0 fullShare d) := by
  unfold pre1; split
  · exact Entails.refl _
  · iintro H; iexists _; iexact H

def PhiS1 (c : Dev nD) : (n : ℕ) → n ≤ cfg1.N → sProp 𝕄
  | 0, _ => Pipeline.ΦA spec1 c
  | n + 1, hn => iprop(rest1 c (owns (c : Thread nD τ) scM1_0 fullShare (acc1 V c n hn)) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_before (c : Dev nD) (t : Fin cfg1.N) :
    (dat1 V c).Φ t.castSucc = iprop(rest1 c (pre1 V c t) ∗ (∃ r, prngReg c r)) := by
  obtain ⟨n, hn⟩ := t
  cases n with
  | zero => exact PhiA1_eq c
  | succ n => rfl

theorem before1 (c : Dev nD) (t : Fin cfg1.N) :
    (∀ d, (dat1 V c).before 0 t d = iblk1 V c 0 t) ∧ (∀ d, (dat1 V c).before 1 t d = iblk1 V c 1 t)
      ∧ ∀ d, (dat1 V c).before 2 t d = iblk1 V c 2 t := by
  refine ⟨fun d => ?_, fun d => ?_, fun d => ?_⟩ <;>
  exact (Dat.before_in_eq_fetched (dat1 V c) _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [(before1 V c t).1, (before1 V c t).2.1, (before1 V c t).2.2]
  rw [show (dat1 V c).owesAt () t.succ = (dat1 V c).owesAt () t.castSucc from rfl,
    show (dat1 V c).Φ t.succ = iprop(rest1 c (owns (c : Thread nD τ) scM1_0 fullShare (acc1 V c t.val t.isLt)) ∗ (∃ r, prngReg c r)) from rfl,
    Phi1_before, acc1_eq,
    show (dat1 V c).leavesExact 0 t = owns (c : Thread nD τ) (ms1_0 t) fullShare (iblk1 V c 0 t) from by
      unfold Dat.leavesExact; rw [liveAt1_0 t]; rfl,
    show (dat1 V c).leavesExact 1 t = owns (c : Thread nD τ) (ms1_1 t) fullShare (iblk1 V c 1 t) from by
      unfold Dat.leavesExact; rw [liveAt1_1 t]; rfl,
    show (dat1 V c).leavesExact 2 t = owns (c : Thread nD τ) (ms1_2 t) fullShare (iblk1 V c 2 t) from by
      unfold Dat.leavesExact; rw [liveAt1_2 t]; rfl]
  by_cases h0 : t.val % 11 = 0
  · have hc1 : ¬cond1_1 (grid1.coords t) := fun h => by have := (hcond1_1 t).mp h; omega
    rw [Dat.leavesExact_idle (dat1 V c) 3 t (idleAt1_3 t hc1) (noFlush1_3 t hc1), if_pos h0]
    iintro ⟨⟨Hr, Hg⟩, Ho, ⟨%d0, H0⟩, ⟨%d1, H1⟩, ⟨%d2, H2⟩, ⟨%d3, H3⟩⟩
    ihave Hr := rest1_swap c _ (owns (c : Thread nD τ) scM1_0 fullShare (step1 V c t k1_pay2)) $$ Hr
    icases Hr with ⟨HS, Hb⟩
    ihave HS := pre1_some V c t $$ HS
    iapply ((kernelRun1_A c t ((hcond1_0 t).mpr h0) hc1 (iblk1 V c 0 t) (iblk1 V c 1 t) (iblk1 V c 2 t)).2.2 _ Set.univ _)
    iframe H0 H1 H2 H3 HS
    iintro ⟨H0, H1, H2, H3, ⟨%es0, HS⟩⟩
    iframe Hg Ho H0 H1 H2
    isplitl [HS Hb]
    · iapply Hb; unfold owns; iexists _; isplitr
      swap; · iexact HS
      ipureintro; exact left1_A _ _ _
    iexists _; iexact H3
  · have hc0 : ¬cond1_0 (grid1.coords t) := fun h => h0 ((hcond1_0 t).mp h)
    have hz : ¬t.val = 0 := fun hz => h0 (by rw [hz])
    rw [if_neg h0]; unfold pre1; rw [if_neg hz]
    by_cases h1 : t.val % 11 = 10
    · have hc1 : cond1_1 (grid1.coords t) := (hcond1_1 t).mpr h1
      rw [show (dat1 V c).leavesExact 3 t = owns (c : Thread nD τ) (ms1_3 t) fullShare (acc1 V c t.val t.isLt) from by
        unfold Dat.leavesExact; rw [liveAt1_3 t hc1]; rfl, acc1_eq, if_neg h0]
      iintro ⟨⟨Hr, Hg⟩, Ho, ⟨%d0, H0⟩, ⟨%d1, H1⟩, ⟨%d2, H2⟩, ⟨%d3, H3⟩⟩
      ihave Hr := rest1_swap c _ (owns (c : Thread nD τ) scM1_0 fullShare (step1 V c t (prev1 V c t))) $$ Hr
      icases Hr with ⟨HS, Hb⟩
      iapply ((kernelRun1_C c t hc0 hc1 (iblk1 V c 0 t) (iblk1 V c 1 t) (iblk1 V c 2 t) _).2.2 Set.univ _)
      iframe H0 H1 H2 HS
      isplitl [H3]; · iexists _; iexact H3
      iintro ⟨H0, H1, H2, ⟨%e3, H3⟩, ⟨%es0, HS⟩⟩
      iframe Hg Ho H0 H1 H2
      isplitl [HS Hb]
      · iapply Hb; unfold owns; iexists _; isplitr
        swap; · iexact HS
        ipureintro; exact ((left1_BC hc0).2 hc1).1 _
      unfold owns; iexists _; isplitr
      swap; · iexact H3
      ipureintro; exact ((left1_BC hc0).2 hc1).2 _
    · have hc1 : ¬cond1_1 (grid1.coords t) := fun h => h1 ((hcond1_1 t).mp h)
      rw [Dat.leavesExact_idle (dat1 V c) 3 t (idleAt1_3 t hc1) (noFlush1_3 t hc1)]
      iintro ⟨⟨Hr, Hg⟩, Ho, ⟨%d0, H0⟩, ⟨%d1, H1⟩, ⟨%d2, H2⟩, ⟨%d3, H3⟩⟩
      ihave Hr := rest1_swap c _ (owns (c : Thread nD τ) scM1_0 fullShare (step1 V c t (prev1 V c t))) $$ Hr
      icases Hr with ⟨HS, Hb⟩
      iapply ((kernelRun1_B c t hc0 hc1 (iblk1 V c 0 t) (iblk1 V c 1 t) (iblk1 V c 2 t) _).2.2 _ Set.univ _)
      iframe H0 H1 H2 H3 HS
      iintro ⟨H0, H1, H2, H3, ⟨%es0, HS⟩⟩
      iframe Hg Ho H0 H1 H2
      isplitl [HS Hb]
      · iapply Hb; unfold owns; iexists _; isplitr
        swap; · iexact HS
        ipureintro; exact (left1_BC hc0).1 hc1 _
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Pipeline.ΦA spec1 c from rfl]
  try exact Entails.refl _

theorem hout1 (c : Dev nD) : (dat1 V c).Φ (Fin.last cfg1.N) ⊢ Pipeline.ΦA spec1 c := by
  rw [show (dat1 V c).Φ (Fin.last cfg1.N) = PhiS1 V c (351 + 1) (le_of_eq N_1.symm) from rfl, PhiA1_eq]
  show iprop(rest1 c _ ∗ _) ⊢ _
  iintro ⟨Hr, Hg⟩
  ihave Hr := rest1_swap c _ iprop(∃ d, owns (c : Thread nD τ) scM1_0 fullShare d) $$ Hr
  icases Hr with ⟨HS, Hb⟩
  isplitl [HS Hb]
  · iapply Hb; iexists _; iexact HS
  iexact Hg

end Region1

end Cert.KernelIdeal.Hand

end
-- ==== Proof.KI.Run.lean ====
import proofs.«102340_j15058155339839_1_alg».proof.Proof.Gen.KernelIdeal.Regions
import proofs.«102340_j15058155339839_1_alg».proof.Proof.KI.Region0
import proofs.«102340_j15058155339839_1_alg».proof.Proof.KI.Region1

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Ein0 : (c : Dev nD) → (b : Ref sig .tc) → Buf (Elt F) ((c : Thread nD τ).loc b) := fun c b => V9 m c b

def W10 (c : Dev nD) : Valuation τ sig (Elt F) :=
  Pipeline.withArrays spec0 c (V9 m c) fun w => (dat0 (Ein0 m) c).arrAt w cfg0.N

def outsA : Outs (F := F) := fun _ r c => W10 m c r

abbrev Ein1 : (c : Dev nD) → (b : Ref sig .tc) → Buf (Elt F) ((c : Thread nD τ).loc b) := fun c b => V13 m (outsA m) c b

def W14 (c : Dev nD) : Valuation τ sig (Elt F) :=
  Pipeline.withArrays spec1 c (V13 m (outsA m) c) fun w => (dat1 (Ein1 m) c).arrAt w cfg1.N

def outs : Outs (F := F) := fun J r c => if J = 14 then W14 m c r else W10 m c r

theorem W10_arr (c : Dev nD) (w : Fin cfg0.W) :
    W10 m c (Proc.devRef .tc (Pipeline.arrRef spec0 w)) = (dat0 (Ein0 m) c).arrAt w cfg0.N :=
  Pipeline.withArrays_arr spec0 launch0.win.arr_inj c _ _ w
theorem W14_arr (c : Dev nD) (w : Fin cfg1.W) :
    W14 m c (Proc.devRef .tc (Pipeline.arrRef spec1 w)) = (dat1 (Ein1 m) c).arrAt w cfg1.N :=
  Pipeline.withArrays_arr spec1 launch1.win.arr_inj c _ _ w

theorem V10_main_v10 (c : Dev nD) : V10 m (outs m) c main_v10 = (dat0 (Ein0 m) c).arrAt 4 cfg0.N :=
  (Function.update_self _ _ _).trans (W10_arr m c 4)

theorem V14_main_v17 (c : Dev nD) : V14 m (outs m) c main_v17 = (dat1 (Ein1 m) c).arrAt 3 cfg1.N :=
  (Function.update_self _ _ _).trans (W14_arr m c 3)

def pdats : (p : Fin 2) → (c : Dev nD) → Dat τ (Elt F) Unit ℕ (UR sig nD τ) ℕ (Pipeline.pin (pcfgs (F := F)) adm p) c
  | ⟨0, _⟩ => fun c => dat0 (Ein0 m) c
  | ⟨1, _⟩ => fun c => dat1 (Ein1 m) c

abbrev Lz : GSem nD τ sig → Finset Unit := fun _ => ∅
abbrev lvz : GSem nD τ sig → Unit → ℕ := fun _ _ => 0

abbrev Rr (c : Dev nD) : sProp 𝕄 := iprop((∃ r, prngReg c r) ∗ ∃ W, owes (c : Thread nD τ) (0 : CellTallies nD τ sig Unit) W)

set_option backward.isDefEq.respectTransparency.types false in
-- One record for both regions: every window but `o` is read only, so the contents `Vi` at entry leave as `Vo`, which differs from `Vi` at `o`'s array alone.
def reg (p : Fin 2) (kit : Pipeline.LaunchFacts (nD := nD) (τ := τ) cfgs p)
    (hb : ∀ c, BodyObligation (pdats m p c) defs₀ Variants.none () Set.univ)
    (hq : ∀ c w, (pdats m p c).q w = fullShare) (h0 : ∀ c t, (pdats m p c).owed t = 0)
    (hbd : ∀ c x, x ∈ (pdats m p c).bound () 0)
    (hi : ∀ c, Pipeline.ΦA (cfgs p).spec c ⊢ (pdats m p c).Φ 0)
    (ho : ∀ c, (pdats m p c).Φ (Fin.last _) ⊢ Pipeline.ΦA (cfgs p).spec c)
    (Vi Vo : Dev nD → Valuation τ sig (Elt F))
    (hA : ∀ c w, (pdats m p c).A w = Vi c (Pipeline.arrRef (cfgs p).spec w))
    (o : Fin (cfgs p).W) (hio : ∀ w, w ≠ o → ((cfgs p).win w).isOut = false)
    (hVo : ∀ c, Vo c (Pipeline.arrRef (cfgs p).spec o) = (pdats m p c).arrAt o (cfgs p).N)
    (hVr : ∀ c (b : Ref sig .tc), b ∉ [Pipeline.arrRef (cfgs p).spec o] → Vo c b = Vi c b) :
    Pipeline.RegionSeg (pcfgs (F := F)) adm (pdats m) () defs₀ Variants.none Lz lvz p where
  win := kit.win.to₀
  block_pos := kit.block_pos
  stage_whole := kit.stage_whole
  K := PEmpty
  osem k := k.elim
  ho := Pipeline.OwnSemFacts.none _
  hbody c := (hb c).loose
  hwaits := Pipeline.hwaits_of_owed_zero _ _ _ _ Lz lvz p h0
  pre c := iprop(StableHlo.held (c : Thread nD τ) (Pipeline.ucRefs τ sig) (Vi c) ∗ Rr c)
  post c := iprop(StableHlo.held (c : Thread nD τ) (Pipeline.ucRefs τ sig) (Vo c) ∗ Rr c)
  X c := iprop(∃ r, prngReg c r)
  Y c := iprop(∃ r, prngReg c r)
  Z c := Pipeline.unscopedRest (cfgs p).spec c fun b => Vi c b
  hentry c := by
    unfold Pipeline.Dat.owesAt Pipeline.owesWithin Pipeline.prefHeld
    rw [Pipeline.ownSems0_none, ← Pipeline.unscopedBufs_held, h0 c, show (Finset.univ : Finset (Fin 0)) = ∅ from rfl, BI.bigSep_empty]
    iintro ⟨⟨Hub, Hp, ⟨%W, HO⟩⟩, -, -⟩
    ihave H := (Pipeline.arrays_of_unscopedBufs (p := p) (pcfgs (F := F)) adm (pdats m) kit.win kit.arr_whole c
      ((pdats m p c).share_full (hq c)) (fun b => Vi c b) (hA c)) $$ Hub
    icases H with ⟨Ha, Hrest⟩
    imodintro
    iframe Ha Hp Hrest
    isplitr; · iempintro
    iexists W; iframe HO; ipureintro; exact fun x _ => hbd c x
  hin c := by
    iintro ⟨Hp, -, Hr⟩
    iapply hi c
    unfold Pipeline.ΦA
    iframe
  hout c := by
    rw [Pipeline.ownSems0_none]
    refine (ho c).trans ?_
    unfold Pipeline.ΦA
    iintro ⟨Hr, Hp⟩
    iframe
    iempintro
  hexit c := by
    unfold Pipeline.Dat.owesAt Pipeline.owesWithin
    rw [← Pipeline.unscopedBufs_held, h0 c]
    iintro ⟨Ha, ⟨%W, -, HO⟩, HY, Hrest⟩
    imodintro
    isplitl [Ha Hrest]
    · iapply Pipeline.unscopedBufs_of_arrays (p := p) (pcfgs (F := F)) adm kit.win kit.arr_whole c (pdats m)
        ((pdats m p c).share_full (hq c)) (fun b => Vi c b) (fun b => Vo c b) ((pdats m p c).arrAt · (cfgs p).N)
        (fun w => if e : w = o then by rw [e]; exact (hVo c).symm else
          (((pdats m p c).arrAt_in w (hio w e) _).trans (hA c w)).trans
            (hVr c _ fun h => e (kit.win.arr_inj (List.mem_singleton.mp h))).symm)
        (fun b hb => hVr c b fun h => hb (Finset.mem_image.mpr ⟨o, Finset.mem_univ _, (List.mem_singleton.mp h).symm⟩))
      iframe
    isplitl [HY]; · iexact HY
    iexists W; iexact HO

def reg0 := reg m 0 launch0 (body_obligation0 (Ein0 m)) (fun _ _ => rfl) (fun _ _ => rfl) (fun _ _ => Or.inl trivial)
  (hin0 (Ein0 m)) (hout0 (Ein0 m)) (V9 m) (V10 m (outs m)) (A_eq0 (Ein0 m)) 4 (by decide) (V10_main_v10 m) (V10_of m (outs m))

def reg1 := reg m 1 launch1 (body_obligation1 (Ein1 m)) (fun _ _ => rfl) (fun _ _ => rfl) (fun _ _ => Or.inl trivial)
  (hin1 (Ein1 m)) (hout1 (Ein1 m)) (V13 m (outs m)) (V14 m (outs m)) (A_eq1 (Ein1 m)) 3 (by decide) (V14_main_v17 m) (V14_of m (outs m))

set_option backward.isDefEq.respectTransparency.types false in
set_option maxHeartbeats 4000000 in
theorem run_main : θ_run defs (onTc (τ := τ) (main (F := F))) ⟨m, fun _ => 0, ρ⟩ (fun r => ∀ c : Dev nD,
      ∀ b ∈ Pipeline.ucRefs τ sig, r.2.mem ((c : Thread nD τ).1, b) = V15 m (outs m) c b) :=
  Pipeline.θ_run_regions_kit_dev (pcfgs (F := F)) adm (pdats m) () cellOf_inj emb₁ defs₀ Variants.none Lz lvz m ρ main
    (segs m (outs m) Variants.none Lz lvz (fun _ => Rr) () (pdats m) (reg0 m) (reg1 m))
    (fun c Q => by rewrite [main_chain c, Seg.run_eq_chain]; exact .rfl)
    (fun c => by simp only [segs, Seg.pipes_host, Seg.pipes_region, Seg.pipes_nil]; decide) (O₀ := 0) (fun _ _ => rfl) (fun _ => BI.emp)
    _
    (by rw [BI.bigSep_emp_const]; exact (show (ownU _ : sProp 𝕄) ⊢ iprop(BI.own (emb₁ _) ∗ BI.emp) from sep_emp_intro).trans fupd_intro)
    (T₀ := fun c => iprop(StableHlo.held (c : Thread nD τ) (Pipeline.ucRefs τ sig) (V0 m c) ∗ Rr c))
    (hch := fun c => ⟨.rfl, .rfl, .rfl, .rfl, .rfl, .rfl, .rfl, .rfl, .rfl, .rfl, .rfl, .rfl, .rfl,
      .rfl, .rfl, sep_mono .rfl (by iintro ⟨-, H⟩; iexact H)⟩)
    (hinit := Pipeline.initEach Lz lvz fun c => by
      erw [Pipeline.unscopedBufs_held c (V0 m c)]
      iintro ⟨⟨Hh, -, HO, -, Hp, -⟩, -⟩
      imodintro
      iframe Hh
      isplitl [Hp]; · iexists _; iexact Hp
      iexists ∅; iexact HO)
    (hfin := fun c s' => (pointsTo_read_all (Pipeline.ucRefs τ sig) (fun b => ((c : Thread nD τ).1, b)) (V15 m (outs m) c) s').trans fupd_intro)
    (hQ := fun _ h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (V15_main_arg0 m (outs m) c),
     (h c _ (mem_uc main_arg1 (by decide))).trans (V15_main_arg1 m (outs m) c),
     (h c _ (mem_uc main_arg2 (by decide))).trans (V15_main_arg2 m (outs m) c),
     (h c _ (mem_uc main_arg3 (by decide))).trans (V15_main_arg3 m (outs m) c)⟩) (run_main m ρ)

end Cert.KernelIdeal.Hand

end
-- ==== Proof.Spec.lean ====
import Idealize.ShloMosaic.PureOps.Ideal
import Idealize.ShloMosaic.PureOps.Ideal.Laws
import Idealize.ShloMosaic.Lib.ValueIdx
import Mathlib.Algebra.BigOperators.Fin

noncomputable section

namespace Cert.Spec

open Idealize.ShloMosaic Idealize.ShloMosaic.ValueIdx

abbrev cLo : EReal := Ideal.ofBits .f32 0xC3000000#32
abbrev cHi : EReal := Ideal.ofBits .f32 0x42FE0000#32
abbrev c128 : EReal := Ideal.ofBits .f32 0x43000000#32
abbrev cEps : EReal := Ideal.ofBits .f32 0x3727C5AC#32
abbrev cM1 : EReal := Ideal.ofBits .f32 0xBF800000#32
abbrev cP1 : EReal := Ideal.ofBits .f32 0x3F800000#32
abbrev cNegInf : EReal := Ideal.ofBits .f32 0xFF800000#32

def at2 {a b : ℕ} (A : (⟨2, ![a, b]⟩ : Shape).Idx → EReal) (i j : ℕ) : EReal :=
  if h : i < a ∧ j < b then A (ix2 ⟨i, h.1⟩ ⟨j, h.2⟩) else 0

theorem at2_of_lt {a b : ℕ} (A : (⟨2, ![a, b]⟩ : Shape).Idx → EReal) {i j : ℕ} (hi : i < a) (hj : j < b) :
    at2 A i j = A (ix2 ⟨i, hi⟩ ⟨j, hj⟩) := dif_pos ⟨hi, hj⟩

theorem at2_of_ge_left {a b : ℕ} (A : (⟨2, ![a, b]⟩ : Shape).Idx → EReal) {i : ℕ} (j : ℕ) (hi : a ≤ i) : at2 A i j = 0 :=
  dif_neg (fun h => absurd h.1 (Nat.not_lt.mpr hi))

theorem at2_of_ge_right {a b : ℕ} (A : (⟨2, ![a, b]⟩ : Shape).Idx → EReal) (i : ℕ) {j : ℕ} (hj : b ≤ j) : at2 A i j = 0 :=
  dif_neg (fun h => absurd h.2 (Nat.not_lt.mpr hj))

def rows3 (x : (⟨3, ![4, 2048, 2048]⟩ : Shape).Idx → EReal) (r j : ℕ) : EReal :=
  if h : r < 8192 ∧ j < 2048 then
    x (ix3 ⟨r / 2048, Nat.div_lt_of_lt_mul (by omega)⟩ ⟨r % 2048, Nat.mod_lt _ (by decide)⟩ ⟨j, h.2⟩) else 0

theorem rows3_of_lt (x : (⟨3, ![4, 2048, 2048]⟩ : Shape).Idx → EReal) (b : Fin 4) (s j : Fin 2048) :
    rows3 x (b.val * 2048 + s.val) j.val = x (ix3 b s j) := by
  have hr : b.val * 2048 + s.val < 8192 := by have := b.isLt; have := s.isLt; omega
  unfold rows3; rw [dif_pos ⟨hr, j.isLt⟩]
  congr 1
  have h1 : (b.val * 2048 + s.val) / 2048 = b.val := by have := s.isLt; omega
  have h2 : (b.val * 2048 + s.val) % 2048 = s.val := by have := s.isLt; omega
  funext d
  match d with
  | ⟨0, _⟩ => exact Fin.ext h1
  | ⟨1, _⟩ => exact Fin.ext h2
  | ⟨2, _⟩ => rfl

def eabs (x : EReal) : EReal := max x (-x)
def rne (x : EReal) : EReal := Ideal.liftRound Ideal.roundHalfEven x

def rowMax (n : ℕ) (row : ℕ → EReal) : EReal :=
  (Finset.univ : Finset (Fin n)).fold max cNegInf (fun k => eabs (row k.val))

def rscale (M : EReal) : EReal := Ideal.div cHi (max cEps M)

def qa (s x : EReal) : EReal := Ideal.div (min cHi (max cLo (rne (x * s)))) s

def aq (n : ℕ) (row : ℕ → EReal) (col : ℕ) : EReal := qa (rscale (rowMax n row)) (row col)

def gsum (row : ℕ → EReal) (col : ℕ) : EReal := ∑ l : Fin 128, eabs (row (128 * (col / 128) + l.val))

def wsc (row : ℕ → EReal) (col : ℕ) : EReal := Ideal.div (gsum row col) c128 + cEps

def qw (sc w : EReal) : EReal := rne (min cP1 (max cM1 (Ideal.div w sc))) * sc

def wq (row : ℕ → EReal) (col : ℕ) : EReal := qw (wsc row col) (row col)

def silu (g : EReal) : EReal := g * Ideal.logistic g
def hid (g u : EReal) : EReal := silu g * u
def dot (n : ℕ) (a b : ℕ → EReal) : EReal := ∑ j : Fin n, a j.val * b j.val

def gate (X W : ℕ → ℕ → EReal) (r o : ℕ) : EReal := dot 2048 (aq 2048 (X r)) (wq (W o))
def hidden (X Wg Wu : ℕ → ℕ → EReal) (r o : ℕ) : EReal := hid (gate X Wg r o) (gate X Wu r o)

def out (n : ℕ) (X Wg Wu Wd : ℕ → ℕ → EReal) (r d : ℕ) : EReal :=
  dot n (aq n (hidden X Wg Wu r)) (wq (Wd d))

def ste (x q : EReal) : EReal := x + (q - x)
def aqR (n : ℕ) (row : ℕ → EReal) (col : ℕ) : EReal := ste (row col) (aq n row col)
def wqR (row : ℕ → EReal) (col : ℕ) : EReal := ste (row col) (wq row col)
def gateR (X W : ℕ → ℕ → EReal) (r o : ℕ) : EReal := dot 2048 (aqR 2048 (X r)) (wqR (W o))
def hiddenR (X Wg Wu : ℕ → ℕ → EReal) (r o : ℕ) : EReal := hid (gateR X Wg r o) (gateR X Wu r o)
def outR (X Wg Wu Wd : ℕ → ℕ → EReal) (r d : ℕ) : EReal :=
  dot 5504 (aqR 5504 (hiddenR X Wg Wu r)) (wqR (Wd d))

end Cert.Spec

end
-- ==== Proof.KI.Val0Aux1.lean ====
import proofs.«102340_j15058155339839_1_alg».proof.Proof.KI.Region0
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem zero_offsets : (![0, 0] : Fin 2 → Nat) = fun _ => 0 := funext fun a => by fin_cases a <;> rfl

section Pay

variable {c : Dev nD} {t : Fin cfg0.N} {x0 : Vec F S1024x512 .f32} {x1 : Vec F S1024x1 .f32} {x2 : Vec F S512x512 .f32} {x3 : Vec F S512x512 .f32} {xs0 xs1 : Vec F S1024x512 .f32}

-- What each case leaves in the two accumulators (and, in the last case, the result block) is the body's arithmetic of its blocks.
theorem pay0A {hc0 : cond0_0 (grid0.coords t)} {hc1 : ¬cond0_1 (grid0.coords t)} :
    View.canon (kernelRun0_A c t hc0 hc1 x0 x1 x2 x3).2.1 = k0_pay1 (k0_pay6 x0 x1) (k0_pay7 x2) (k0_pay4 (F := F))
    ∧ View.canon (kernelRun0_A c t hc0 hc1 x0 x1 x2 x3).2.2.1 = k0_pay2 (k0_pay6 x0 x1) (k0_pay8 x3) (k0_pay5 (F := F)) := by
  unfold kernelRun0_A
  dsimp only
  sl_unfold_words
  try dsimp only
  constructor <;>
  · rw [View.canon_cons_unit_zero (S := S1024x512) zero_offsets]
    simp only [View.readAt_eq_ld, (hs0_0 t).read_unread, (hs0_1 t).read_unread, (hs0_2 t).read_unread, (hs0_3 t).read_unread,
      (Memref.isWhole_whole cc0_scratch0).read_unread, (Memref.isWhole_whole cc0_scratch1).read_unread,
      View.ld_unit_zero (S := S1024x512) zero_offsets, View.ld_unit_zero (S := S1024x1) zero_offsets, View.ld_unit_zero (S := S512x512) zero_offsets,
      View.readCov_unit_zero (S := S1024x512) _ zero_offsets]

theorem pay0B {hc0 : ¬cond0_0 (grid0.coords t)} {hc1 : ¬cond0_1 (grid0.coords t)} :
    View.canon (kernelRun0_B c t hc0 hc1 x0 x1 x2 x3 xs0 xs1).2.1 = k0_pay1 (k0_pay6 x0 x1) (k0_pay7 x2) xs0
    ∧ View.canon (kernelRun0_B c t hc0 hc1 x0 x1 x2 x3 xs0 xs1).2.2.1 = k0_pay2 (k0_pay6 x0 x1) (k0_pay8 x3) xs1 := by
  unfold kernelRun0_B
  dsimp only
  sl_unfold_words
  try dsimp only
  constructor <;>
  · rw [View.canon_cons_unit_zero (S := S1024x512) zero_offsets]
    simp only [View.readAt_eq_ld, (hs0_0 t).read_unread, (hs0_1 t).read_unread, (hs0_2 t).read_unread, (hs0_3 t).read_unread,
      (Memref.isWhole_whole cc0_scratch0).read_unread, (Memref.isWhole_whole cc0_scratch1).read_unread,
      View.ld_unit_zero (S := S1024x512) zero_offsets, View.ld_unit_zero (S := S1024x1) zero_offsets, View.ld_unit_zero (S := S512x512) zero_offsets,
      View.readCov_unit_zero (S := S1024x512) _ zero_offsets]

theorem pay0C {hc0 : ¬cond0_0 (grid0.coords t)} {hc1 : cond0_1 (grid0.coords t)} :
    View.canon (kernelRun0_C c t hc0 hc1 x0 x1 x2 x3 xs0 xs1).1 = k0_pay3 (k0_pay1 (k0_pay6 x0 x1) (k0_pay7 x2) xs0) (k0_pay2 (k0_pay6 x0 x1) (k0_pay8 x3) xs1)
    ∧ View.canon (kernelRun0_C c t hc0 hc1 x0 x1 x2 x3 xs0 xs1).2.1 = k0_pay1 (k0_pay6 x0 x1) (k0_pay7 x2) xs0
    ∧ View.canon (kernelRun0_C c t hc0 hc1 x0 x1 x2 x3 xs0 xs1).2.2.1 = k0_pay2 (k0_pay6 x0 x1) (k0_pay8 x3) xs1 := by
  unfold kernelRun0_C
  dsimp only
  sl_unfold_words
  try dsimp only
  refine ⟨?_, ?_, ?_⟩ <;>
  · rw [View.canon_cons_unit_zero (S := S1024x512) zero_offsets]
    simp only [View.readAt_eq_ld, (hs0_0 t).read_unread, (hs0_1 t).read_unread, (hs0_2 t).read_unread, (hs0_3 t).read_unread,
      (Memref.isWhole_whole cc0_scratch0).read_unread, (Memref.isWhole_whole cc0_scratch1).read_unread,
      View.ld_unit_zero (S := S1024x512) zero_offsets, View.ld_unit_zero (S := S1024x1) zero_offsets, View.ld_unit_zero (S := S512x512) zero_offsets,
      View.readCov_unit_zero (S := S1024x512) _ zero_offsets]

end Pay

section AtPoint

variable (V : (c : Dev nD) → (b : Ref sig .tc) → Buf (Elt F) ((c : Thread nD τ).loc b)) (c : Dev nD) (t : Fin cfg0.N)

-- The accumulators after a point: its block terms added to zero at the first block of a row of four, else to what the point before left.
theorem accs0 : (outsAt0 V c t.val t.isLt).2.1 = k0_pay1 (k0_pay6 (iblk0 V c 0 t) (iblk0 V c 1 t)) (k0_pay7 (iblk0 V c 2 t)) (if t.val % 4 = 0 then k0_pay4 else (outsAt0 V c (t.val - 1) (Nat.lt_of_le_of_lt (Nat.sub_le _ _) t.isLt)).2.1)
    ∧ (outsAt0 V c t.val t.isLt).2.2 = k0_pay2 (k0_pay6 (iblk0 V c 0 t) (iblk0 V c 1 t)) (k0_pay8 (iblk0 V c 3 t)) (if t.val % 4 = 0 then k0_pay5 else (outsAt0 V c (t.val - 1) (Nat.lt_of_le_of_lt (Nat.sub_le _ _) t.isLt)).2.2) := by
  rw [outsAt0_eq V c t]; unfold stepAt0 run0A run0B run0C
  by_cases h0 : t.val % 4 = 0
  · rw [dif_pos h0, if_pos h0, if_pos h0]; dsimp only; exact pay0A
  · rw [dif_neg h0, if_neg h0, if_neg h0]
    by_cases h1 : t.val % 4 = 3
    · rw [dif_pos h1]; dsimp only; exact pay0C.2
    · rw [dif_neg h1]; dsimp only; exact pay0B

theorem res0 (h1 : t.val % 4 = 3) : (outsAt0 V c t.val t.isLt).1 = k0_pay3 (outsAt0 V c t.val t.isLt).2.1 (outsAt0 V c t.val t.isLt).2.2 := by
  have h0 : ¬t.val % 4 = 0 := by omega
  rw [outsAt0_eq V c t]; unfold stepAt0 run0C; rw [dif_neg h0, dif_pos h1]; dsimp only
  rw [pay0C.1, pay0C.2.1, pay0C.2.2]

end AtPoint

end Cert.KernelIdeal.Hand

end
-- ==== Proof.LibKeepdimsColumn.lean ====
import Idealize.ShloMosaic.Lib.Pipeline.Value
import Idealize.ShloMosaic.Lib.ValueIdx

namespace Cert.KeepdimsColumn

open Idealize.ShloMosaic Idealize.ShloMosaic.ValueIdx

variable {α : Type}

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn
-- ==== Proof.KI.Val1Aux2.lean ====
import proofs.«102340_j15058155339839_1_alg».proof.Proof.Gen.KernelIdeal.Skeleton
import proofs.«102340_j15058155339839_1_alg».proof.Proof.Spec
import proofs.«102340_j15058155339839_1_alg».proof.Proof.LibKeepdimsColumn

noncomputable section

namespace Cert.KernelIdeal.Hand

open Cert.KernelIdeal Cert.KernelIdeal.Gen
open Idealize.ShloMosaic Idealize.ShloMosaic.ValueIdx
open Cert.Spec

theorem pay2_apply (j : S1024x512.Idx) : (k1_pay2 (F := Ideal)) j = 0 := by
  unfold k1_pay2
  exact (congrFun (shapeCast_self _ _) j).trans Ideal.ofBits_zero_f32

theorem pay3_apply (x0 : Vec Ideal S1024x512 .f32) (x1 : Vec Ideal S1024x1 .f32) (p : Fin 1024) (q : Fin 512) :
    k1_pay3 x0 x1 (ix2 p q) = qa (x1 (ix2 p (0 : Fin 1))) (x0 (ix2 p q)) := by
  show qa (broadcastTo S1024x512 (shapeCast S1024x1 x1 _) _ (ix2 p q)) (shapeCast S1024x512 x0 _ (ix2 p q)) = _
  rw [shapeCast_self, shapeCast_self, Cert.KeepdimsColumn.broadcastTo_a1_ab_apply]

theorem grp_lt (q : Fin 512) (l : Fin 128) : 128 * (q.val / 128) + l.val < 512 := by
  have := q.isLt; have := l.isLt; omega

theorem grouped_apply {α : Type} (x : S512x512.Idx → α) (h : S512x512.ShapeCasts S512x4x128) (n : Fin 512) (g : Fin 4) (l : Fin 128) :
    shapeCast S512x4x128 x h (ix3 n g l) = x (ix2 n ⟨128 * g.val + l.val, by have := g.isLt; have := l.isLt; omega⟩) := by
  refine shapeCast_apply x h _ _ ?_
  rw [Shape.rowMajor_val_two, Shape.rowMajor_val_three]
  show n.val * 512 + (128 * g.val + l.val) = (n.val * 4 + g.val) * 128 + l.val
  omega

theorem flat_apply {α : Type} (x : S512x4x128.Idx → α) (h : S512x4x128.ShapeCasts S512x512) (n q : Fin 512)
    (g : Fin 4) (l : Fin 128) (hq : q.val = 128 * g.val + l.val) :
    shapeCast S512x512 x h (ix2 n q) = x (ix3 n g l) := by
  refine shapeCast_apply x h _ _ ?_
  rw [Shape.rowMajor_val_two, Shape.rowMajor_val_three]
  show (n.val * 4 + g.val) * 128 + l.val = n.val * 512 + q.val
  omega

theorem bcast_col3_apply {α : Type} (v : S512x4x1.Idx → α) (h : S512x4x1.Broadcasts S512x4x128) (n : Fin 512) (g : Fin 4) (l : Fin 128) :
    broadcastTo S512x4x128 v h (ix3 n g l) = v (ix3 n g (0 : Fin 1)) := by
  refine broadcastTo_apply v h (ix3 n g l) (ix3 n g (0 : Fin 1)) fun ax => ?_
  match ax with
  | ⟨0, _⟩ => rfl
  | ⟨1, _⟩ => rfl
  | ⟨2, _⟩ => rfl

theorem col3_apply {α : Type} (v : S512x4.Idx → α) (h : S512x4.ShapeCasts S512x4x1) (n : Fin 512) (g : Fin 4) :
    shapeCast S512x4x1 v h (ix3 n g (0 : Fin 1)) = v (ix2 n g) := by
  refine shapeCast_apply v h _ _ ?_
  rw [Shape.rowMajor_val_two, Shape.rowMajor_val_three]
  show n.val * 4 + g.val = (n.val * 4 + g.val) * 1 + 0
  omega

theorem groupSum_apply (Y : FVec Ideal S512x4x128 .f32) (h : S512x4x128.Reduces [2] S512x4) (hφ : FKind.Formats .f32)
    (hacc : (0x00000000#32 : BitVec 32) = 0x00000000#32) (n : Fin 512) (g : Fin 4) :
    multiReduction .add [2] S512x4 Y 0x00000000#32 h hφ hacc (ix2 n g) = ∑ l : Fin 128, Y (ix3 n g l) := by
  refine (Ideal.multiReduction_add_single Y 0x00000000#32 h hφ hacc (ix2 n g)).trans ?_
  exact Finset.sum_congr rfl fun l _ => congrArg Y (funext fun a => Fin.ext (by
    match a with
    | ⟨0, _⟩ => rfl
    | ⟨1, _⟩ => rfl
    | ⟨2, _⟩ => rfl))

theorem pay4_apply (x2 : Vec Ideal S512x512 .f32) (n q : Fin 512) :
    k1_pay4 x2 (ix2 n q)
      = qw (Ideal.div (∑ l : Fin 128, eabs (x2 (ix2 n ⟨128 * (q.val / 128) + l.val, grp_lt q l⟩))) c128 + cEps) (x2 (ix2 n q)) := by
  have hg : q.val / 128 < 4 := by have := q.isLt; omega
  have hX : ∀ l : Fin 128, shapeCast S512x4x128 (shapeCast S512x512 x2 shapeCasts_S512x512_S512x512) shapeCasts_S512x512_S512x4x128
      (ix3 n ⟨q.val / 128, hg⟩ l) = x2 (ix2 n ⟨128 * (q.val / 128) + l.val, grp_lt q l⟩) := fun l => by
    rw [shapeCast_self]; exact grouped_apply x2 _ n ⟨_, hg⟩ l
  unfold k1_pay4
  rw [truncf_apply]
  refine (flat_apply _ _ n q ⟨_, hg⟩ ⟨q.val % 128, Nat.mod_lt _ (by decide)⟩ (Nat.div_add_mod _ _).symm).trans ?_
  show qw (broadcastTo S512x4x128 _ _ _) (shapeCast S512x4x128 _ _ _) = _
  rw [bcast_col3_apply, hX]
  show qw (Ideal.div (shapeCast S512x4x1 _ _ _) c128 + cEps) _ = _
  rw [col3_apply, groupSum_apply]
  exact congrArg₂ (fun S w => qw (Ideal.div S c128 + cEps) w) (Finset.sum_congr rfl fun l _ => congrArg eabs (hX l))
    (congrArg x2 (congrArg (ix2 n) (Fin.ext (Nat.div_add_mod _ _))))

theorem pay1_apply (acc : Vec Ideal S1024x512 .f32) (A : FVec Ideal S1024x512 .bf16) (B : FVec Ideal S512x512 .bf16)
    (p : Fin 1024) (n : Fin 512) :
    k1_pay1 acc A B (ix2 p n) = acc (ix2 p n) + ∑ k : Fin 512, A (ix2 p k) * B (ix2 n k) := by
  unfold k1_pay1
  refine (congrFun (shapeCast_self _ _) (ix2 p n)).trans (congrArg (acc (ix2 p n) + ·) ?_)
  show FloatOps.matmul _ none A B (constant S1024x512 .f32 0x00000000#32) (ix2 p n) = _
  rw [Ideal.matmul_constant_zero_apply, ← Equiv.sum_comp (contrEquiv1 _ 512 rfl rfl).symm]
  refine Finset.sum_congr rfl fun k _ => ?_
  have hk := contrEquiv1_symm_val dot_S1024x512_S512x512_S1024x512_1_1_0_0_n_n 512 rfl rfl k
  refine congrArg₂ (fun i j => A i * B j) (funext fun a => Fin.ext ?_) (funext fun a => Fin.ext ?_)
  · match a with
    | ⟨0, _⟩ => rfl
    | ⟨1, _⟩ => exact hk
  · match a with
    | ⟨0, _⟩ => rfl
    | ⟨1, _⟩ => exact hk

end Cert.KernelIdeal.Hand

end
-- ==== Proof.KI.Val0Aux2.lean ====
import proofs.«102340_j15058155339839_1_alg».proof.Proof.KI.Val1Aux2

noncomputable section

namespace Cert.KernelIdeal.Hand

open Cert.KernelIdeal Cert.KernelIdeal.Gen
open Idealize.ShloMosaic Idealize.ShloMosaic.ValueIdx
open Cert.Spec

theorem gateZero_apply (p : Fin 1024) (n : Fin 512) : (k0_pay4 (F := Ideal)) (ix2 p n) = 0 := pay2_apply _

theorem upZero_apply (p : Fin 1024) (n : Fin 512) : (k0_pay5 (F := Ideal)) (ix2 p n) = 0 := pay2_apply _

theorem wgtQ_apply (x : Vec Ideal S512x512 .f32) (n q : Fin 512) : k1_pay4 x (ix2 n q) = wq (at2 x n.val) q.val := by
  refine (pay4_apply x n q).trans ?_
  show _ = qw (Ideal.div (∑ l : Fin 128, eabs (at2 x n.val (128 * (q.val / 128) + l.val))) c128 + cEps) (at2 x n.val q.val)
  rw [at2_of_lt x n.isLt q.isLt]
  exact congrArg (fun S => qw (Ideal.div S c128 + cEps) _)
    (Finset.sum_congr rfl fun l _ => congrArg eabs (at2_of_lt x n.isLt (grp_lt q l)).symm)

def blkTerm (x0 : Vec Ideal S1024x512 .f32) (x1 : Vec Ideal S1024x1 .f32) (w : Vec Ideal S512x512 .f32) (p : Fin 1024) (n : Fin 512) (k : Fin 512) : EReal :=
  qa (x1 (ix2 p (0 : Fin 1))) (x0 (ix2 p k)) * wq (at2 w n.val) k.val

theorem gateStep_apply (x0 : Vec Ideal S1024x512 .f32) (x1 : Vec Ideal S1024x1 .f32) (x2 : Vec Ideal S512x512 .f32) (acc : Vec Ideal S1024x512 .f32)
    (p : Fin 1024) (n : Fin 512) :
    k0_pay1 (k0_pay6 x0 x1) (k0_pay7 x2) acc (ix2 p n) = acc (ix2 p n) + ∑ k : Fin 512, blkTerm x0 x1 x2 p n k :=
  (pay1_apply acc (k1_pay3 x0 x1) (k1_pay4 x2) p n).trans (congrArg (acc (ix2 p n) + ·)
    (Finset.sum_congr rfl fun k _ => congrArg₂ (· * ·) (pay3_apply x0 x1 p k) (wgtQ_apply x2 n k)))

theorem upStep_apply (x0 : Vec Ideal S1024x512 .f32) (x1 : Vec Ideal S1024x1 .f32) (x3 : Vec Ideal S512x512 .f32) (acc : Vec Ideal S1024x512 .f32)
    (p : Fin 1024) (n : Fin 512) :
    k0_pay2 (k0_pay6 x0 x1) (k0_pay8 x3) acc (ix2 p n) = acc (ix2 p n) + ∑ k : Fin 512, blkTerm x0 x1 x3 p n k :=
  gateStep_apply x0 x1 x3 acc p n

end Cert.KernelIdeal.Hand

end
-- ==== Proof.KI.Val0Aux3.lean ====
import proofs.«102340_j15058155339839_1_alg».proof.Proof.KI.Region0
import proofs.«102340_j15058155339839_1_alg».proof.Proof.Spec

noncomputable section

namespace Cert.KernelIdeal.Hand

open Cert.KernelIdeal Cert.KernelIdeal.Gen
open Idealize.ShloMosaic Idealize.ShloMosaic.TcCoe
open Idealize.SL Idealize.SL.Sem
open Cert.Spec Idealize.ShloMosaic.ValueIdx

variable (V : (c : Dev nD) → (b : Ref sig .tc) → Buf (Elt Ideal) ((c : Thread nD τ).loc b))

theorem blockIdx : ∀ t : Fin cfg0.N,
    win0_0.index t (0 : Fin 2) = t.val / 44 ∧ win0_0.index t (1 : Fin 2) = t.val % 4
    ∧ win0_1.index t (0 : Fin 2) = t.val / 44 ∧ win0_1.index t (1 : Fin 2) = 0
    ∧ win0_2.index t (0 : Fin 2) = t.val / 4 % 11 ∧ win0_2.index t (1 : Fin 2) = t.val % 4
    ∧ win0_3.index t (0 : Fin 2) = t.val / 4 % 11 ∧ win0_3.index t (1 : Fin 2) = t.val % 4
    ∧ win0_4.index t (0 : Fin 2) = t.val / 44 ∧ win0_4.index t (1 : Fin 2) = t.val / 4 % 11 :=
  (by decide +kernel : ∀ t : Fin grid0.N, _)

abbrev xblk (c : Dev nD) (t : Fin cfg0.N) : Vec Ideal S1024x512 .f32 := iblk0 V c 0 t
abbrev sblk (c : Dev nD) (t : Fin cfg0.N) : Vec Ideal S1024x1 .f32 := iblk0 V c 1 t
abbrev gblk (c : Dev nD) (t : Fin cfg0.N) : Vec Ideal S512x512 .f32 := iblk0 V c 2 t
abbrev ublk (c : Dev nD) (t : Fin cfg0.N) : Vec Ideal S512x512 .f32 := iblk0 V c 3 t
abbrev xarr (c : Dev nD) : Vec Ideal S8192x2048 .f32 := V c main_v0
abbrev sarr (c : Dev nD) : Vec Ideal S8192x1 .f32 := V c main_v9
abbrev garr (c : Dev nD) : Vec Ideal S5632x2048 .f32 := V c main_v1
abbrev uarr (c : Dev nD) : Vec Ideal S5632x2048 .f32 := V c main_v2

-- An array's entry at an index, named by that index's two coordinates.
theorem at2_read {a b : ℕ} (X : (⟨2, ![a, b]⟩ : Shape).Idx → EReal) (i : (⟨2, ![a, b]⟩ : Shape).Idx) {r s : ℕ}
    (h0 : (i 0).val = r) (h1 : (i 1).val = s) : X i = at2 X r s := by
  subst h0 h1
  exact ((at2_of_lt X (i 0).isLt (i 1).isLt).trans (congrArg X (eq_ix2 i).symm)).symm

theorem xblk_apply (c : Dev nD) (t : Fin cfg0.N) (p : Fin 1024) (q : Fin 512) :
    xblk V c t (ix2 p q) = at2 (xarr V c) (1024 * (t.val / 44) + p.val) (t.val % 4 * 512 + q.val) := by
  obtain ⟨e0, e1, -⟩ := blockIdx t
  unfold xblk iblk0
  rw [View.read_apply]
  refine at2_read (V c main_v0) _ ?_ ?_
  · show win0_0.index t (0 : Fin 2) * 1024 + 1 * p.val = _; rw [e0]; omega
  · show win0_0.index t (1 : Fin 2) * 512 + 1 * q.val = _; rw [e1]; omega

theorem sblk_apply (c : Dev nD) (t : Fin cfg0.N) (p : Fin 1024) :
    sblk V c t (ix2 p (0 : Fin 1)) = at2 (sarr V c) (1024 * (t.val / 44) + p.val) 0 := by
  obtain ⟨-, -, e0, e1, -⟩ := blockIdx t
  unfold sblk iblk0
  rw [View.read_apply]
  refine at2_read (V c main_v9) _ ?_ ?_
  · show win0_1.index t (0 : Fin 2) * 1024 + 1 * p.val = _; rw [e0]; omega
  · show win0_1.index t (1 : Fin 2) * 1 + 1 * 0 = _; rw [e1]

theorem gblk_apply (c : Dev nD) (t : Fin cfg0.N) (n k : Fin 512) :
    gblk V c t (ix2 n k) = at2 (garr V c) (512 * (t.val / 4 % 11) + n.val) (t.val % 4 * 512 + k.val) := by
  obtain ⟨-, -, -, -, e0, e1, -⟩ := blockIdx t
  unfold gblk iblk0
  rw [View.read_apply]
  refine at2_read (V c main_v1) _ ?_ ?_
  · show win0_2.index t (0 : Fin 2) * 512 + 1 * n.val = _; rw [e0]; omega
  · show win0_2.index t (1 : Fin 2) * 512 + 1 * k.val = _; rw [e1]; omega

theorem ublk_apply (c : Dev nD) (t : Fin cfg0.N) (n k : Fin 512) :
    ublk V c t (ix2 n k) = at2 (uarr V c) (512 * (t.val / 4 % 11) + n.val) (t.val % 4 * 512 + k.val) := by
  obtain ⟨-, -, -, -, -, -, e0, e1, -⟩ := blockIdx t
  unfold ublk iblk0
  rw [View.read_apply]
  refine at2_read (V c main_v2) _ ?_ ?_
  · show win0_3.index t (0 : Fin 2) * 512 + 1 * n.val = _; rw [e0]; omega
  · show win0_3.index t (1 : Fin 2) * 512 + 1 * k.val = _; rw [e1]; omega

theorem wq_shift (row row' : ℕ → EReal) (s : ℕ) (h : ∀ j, j < 512 → row' j = row (s * 512 + j)) (k : ℕ) (hk : k < 512) :
    wq row' k = wq row (s * 512 + k) := by
  have e1 : ∀ l : Fin 128, row' (128 * (k / 128) + l.val) = row (128 * ((s * 512 + k) / 128) + l.val) := fun l =>
    (h _ (by have := l.isLt; omega)).trans (congrArg row (by have := l.isLt; omega))
  exact congrArg₂ (fun S w => qw (Ideal.div S c128 + cEps) w)
    (Finset.sum_congr rfl fun l _ => congrArg eabs (e1 l)) (h k hk)

theorem resCover (i : S8192x5632.Idx) : ∃ t : Fin cfg0.N, (cfg0.win 4).flush t = true ∧ i ∈ ((cfg0.win 4).blk t).view.set := by
  have hi0 : (i 0).val < 8192 := (i 0).isLt
  have hi1 : (i 1).val < 5632 := (i 1).isLt
  have hN : cfg0.N = 352 := N_0
  obtain ⟨tv, htv⟩ : ∃ tv : ℕ, tv = ((i 0).val / 1024 * 11 + (i 1).val / 512) * 4 + 3 := ⟨_, rfl⟩
  have hlt : tv < cfg0.N := by rw [hN]; omega
  obtain ⟨-, -, -, -, -, -, -, -, e40, e41⟩ := blockIdx ⟨tv, hlt⟩
  refine ⟨⟨tv, hlt⟩, (flush0_4 ⟨tv, hlt⟩).mpr (by show tv % 4 = 3; omega), ?_⟩
  show i ∈ ((View.whole main_v10).slice (win0_4.rect ⟨tv, hlt⟩)).set
  rw [View.set_slice_whole, Rect.mem_set_unit]
  intro a
  match a with
  | ⟨0, _⟩ =>
    show win0_4.index ⟨tv, hlt⟩ (0 : Fin 2) * 1024 ≤ (i 0).val ∧ (i 0).val < win0_4.index ⟨tv, hlt⟩ (0 : Fin 2) * 1024 + 1024
    rw [e40]
    show tv / 44 * 1024 ≤ (i 0).val ∧ (i 0).val < tv / 44 * 1024 + 1024
    omega
  | ⟨1, _⟩ =>
    show win0_4.index ⟨tv, hlt⟩ (1 : Fin 2) * 512 ≤ (i 1).val ∧ (i 1).val < win0_4.index ⟨tv, hlt⟩ (1 : Fin 2) * 512 + 512
    rw [e41]
    show tv / 4 % 11 * 512 ≤ (i 1).val ∧ (i 1).val < tv / 4 % 11 * 512 + 512
    omega

end Cert.KernelIdeal.Hand

end
-- ==== Proof.LibBlockSums.lean ====
import Mathlib.Algebra.BigOperators.Fin

namespace Cert.LibBlockSums

variable {M : Type*} [AddCommMonoid M]

theorem sum_cast {n n' : Nat} (h : n = n') (f : Nat → M) : ∑ r : Fin n, f r.val = ∑ r : Fin n', f r.val := by
  subst h
  rfl

theorem sum_add (a b : Nat) (f : Nat → M) :
    ∑ r : Fin (a + b), f r.val = ∑ r : Fin a, f r.val + ∑ r : Fin b, f (a + r.val) := by
  rw [Fin.sum_univ_add]
  rfl

theorem sum_blocks_succ (B s : Nat) (f : Nat → M) :
    ∑ r : Fin ((s + 1) * B), f r.val = ∑ r : Fin (s * B), f r.val + ∑ r : Fin B, f (s * B + r.val) := by
  rw [sum_cast (Nat.succ_mul s B) f, sum_add]

theorem sum_blocks_zero (B : Nat) (f : Nat → M) : ∑ r : Fin (0 * B), f r.val = 0 := by
  rw [sum_cast (Nat.zero_mul B) f]
  rfl

end Cert.LibBlockSums
-- ==== Proof.LibDotBlocks.lean ====
import Mathlib.Data.EReal.Basic
import proofs.«102340_j15058155339839_1_alg».proof.Proof.LibBlockSums

open scoped BigOperators

namespace Cert.LibDotBlocks

noncomputable def ext0 {N : ℕ} (g : Fin N → EReal) (i : ℕ) : EReal := if h : i < N then g ⟨i, h⟩ else 0

theorem ext0_of_lt {N : ℕ} (g : Fin N → EReal) {i : ℕ} (h : i < N) : ext0 g i = g ⟨i, h⟩ := dif_pos h

theorem ext0_val {N : ℕ} (g : Fin N → EReal) (k : Fin N) : ext0 g k.val = g k := ext0_of_lt g k.isLt

noncomputable def partialSum {N : ℕ} (B : ℕ) (g : Fin N → EReal) (s : ℕ) : EReal := ∑ r : Fin (s * B), ext0 g r.val

theorem partialSum_zero {N : ℕ} (B : ℕ) (g : Fin N → EReal) : partialSum B g 0 = 0 :=
  Cert.LibBlockSums.sum_blocks_zero B (ext0 g)

theorem partialSum_succ {N : ℕ} (B : ℕ) (g : Fin N → EReal) (s : ℕ) :
    partialSum B g (s + 1) = partialSum B g s + ∑ r : Fin B, ext0 g (s * B + r.val) :=
  Cert.LibBlockSums.sum_blocks_succ B s (ext0 g)

theorem partialSum_all {N : ℕ} (B : ℕ) (g : Fin N → EReal) (s : ℕ) (h : s * B = N) :
    partialSum B g s = ∑ k : Fin N, g k := by
  unfold partialSum
  rw [Cert.LibBlockSums.sum_cast h (ext0 g)]
  exact Finset.sum_congr rfl fun k _ => ext0_val g k

end Cert.LibDotBlocks
-- ==== Proof.KI.Val0.lean ====
import proofs.«102340_j15058155339839_1_alg».proof.Proof.KI.Region0
import proofs.«102340_j15058155339839_1_alg».proof.Proof.Spec
import proofs.«102340_j15058155339839_1_alg».proof.Proof.KI.Val0Aux1
import proofs.«102340_j15058155339839_1_alg».proof.Proof.KI.Val0Aux2
import proofs.«102340_j15058155339839_1_alg».proof.Proof.KI.Val0Aux3
import proofs.«102340_j15058155339839_1_alg».proof.Proof.LibDotBlocks

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec Idealize.ShloMosaic.ValueIdx

variable (V : (c : Dev nD) → (b : Ref sig .tc) → Buf (Elt Ideal) ((c : Thread nD τ).loc b))

open Cert.LibDotBlocks (partialSum ext0)

-- One row of the quantised activations against one row of a quantised weight array: the terms of their dot product.
def wTerm (A : Vec Ideal S5632x2048 .f32) (c : Dev nD) (r o : ℕ) : Fin 2048 → EReal := fun j =>
  qa (at2 (sarr V c) r 0) (at2 (xarr V c) r j.val) * wq (at2 A o) j.val

-- A point's block terms are the dot product's terms of its block of 512 columns.
theorem blockSum (c : Dev nD) (t : Fin cfg0.N) (B : Vec Ideal S512x512 .f32) (A : Vec Ideal S5632x2048 .f32)
    (hB : ∀ n k : Fin 512, B (ix2 n k) = at2 A (512 * (t.val / 4 % 11) + n.val) (t.val % 4 * 512 + k.val)) (p : Fin 1024) (m : Fin 512) :
    ∑ k : Fin 512, blkTerm (xblk V c t) (sblk V c t) B p m k
      = ∑ k : Fin 512, ext0 (wTerm V A c (1024 * (t.val / 44) + p.val) (512 * (t.val / 4 % 11) + m.val)) (t.val % 4 * 512 + k.val) := by
  refine Finset.sum_congr rfl fun k _ => ?_
  have hlt : t.val % 4 * 512 + k.val < 2048 := by have := k.isLt; omega
  rw [Cert.LibDotBlocks.ext0_of_lt _ hlt]
  show qa (sblk V c t (ix2 p (0 : Fin 1))) (xblk V c t (ix2 p k)) * wq (at2 B m.val) k.val
    = qa (at2 (sarr V c) (1024 * (t.val / 44) + p.val) 0) (at2 (xarr V c) (1024 * (t.val / 44) + p.val) (t.val % 4 * 512 + k.val)) * wq (at2 A (512 * (t.val / 4 % 11) + m.val)) (t.val % 4 * 512 + k.val)
  rw [sblk_apply, xblk_apply,
    wq_shift (at2 A (512 * (t.val / 4 % 11) + m.val)) (at2 B m.val) (t.val % 4)
      (fun j hj => (at2_of_lt B m.isLt hj).trans (hB m ⟨j, hj⟩)) k.val k.isLt]

theorem res_last (c : Dev nD) (t : Fin cfg0.N) (h1 : t.val % 4 = 3) (p : Fin 1024) (m : Fin 512) :
    (outsAt0 V c t.val t.isLt).1 (ix2 p m)
      = hid ((outsAt0 V c t.val t.isLt).2.1 (ix2 p m)) ((outsAt0 V c t.val t.isLt).2.2 (ix2 p m)) :=
  (congrFun (res0 V c t h1) (ix2 p m)).trans rfl

-- An accumulator that starts each row of four points at zero and adds a point's block terms holds a partial dot product.
theorem acc_partial (c : Dev nD) (a : (n : ℕ) → n < cfg0.N → Vec Ideal S1024x512 .f32) (B : Fin cfg0.N → Vec Ideal S512x512 .f32) (A : Vec Ideal S5632x2048 .f32)
    (hB : ∀ (t : Fin cfg0.N) (n k : Fin 512), B t (ix2 n k) = at2 A (512 * (t.val / 4 % 11) + n.val) (t.val % 4 * 512 + k.val))
    (z : Vec Ideal S1024x512 .f32) (hz : ∀ (p : Fin 1024) (m : Fin 512), z (ix2 p m) = 0)
    (hstep : ∀ (t : Fin cfg0.N) (p : Fin 1024) (m : Fin 512), a t.val t.isLt (ix2 p m)
      = (if t.val % 4 = 0 then z else a (t.val - 1) (Nat.lt_of_le_of_lt (Nat.sub_le _ _) t.isLt)) (ix2 p m)
        + ∑ k : Fin 512, blkTerm (xblk V c t) (sblk V c t) (B t) p m k) :
    ∀ (n : ℕ) (h : n < cfg0.N) (p : Fin 1024) (m : Fin 512),
      a n h (ix2 p m) = partialSum 512 (wTerm V A c (1024 * (n / 44) + p.val) (512 * (n / 4 % 11) + m.val)) (n % 4 + 1) := by
  intro n
  induction n using Nat.strong_induction_on with
  | _ n ih =>
    intro h p m
    refine (hstep ⟨n, h⟩ p m).trans ?_
    rw [blockSum V c ⟨n, h⟩ (B ⟨n, h⟩) A (hB ⟨n, h⟩) p m, Cert.LibDotBlocks.partialSum_succ]
    show (if n % 4 = 0 then z else a (n - 1) _) (ix2 p m)
      + ∑ k : Fin 512, ext0 (wTerm V A c (1024 * (n / 44) + p.val) (512 * (n / 4 % 11) + m.val)) (n % 4 * 512 + k.val) = _
    by_cases h0 : n % 4 = 0
    · rw [if_pos h0, hz, h0, Cert.LibDotBlocks.partialSum_zero]
    · have ihp := ih (n - 1) (by omega) (Nat.lt_of_le_of_lt (Nat.sub_le _ _) h) p m
      rw [show (n - 1) / 44 = n / 44 by omega, show (n - 1) / 4 % 11 = n / 4 % 11 by omega, show (n - 1) % 4 + 1 = n % 4 by omega] at ihp
      rw [if_neg h0, ihp]

theorem acc_inv (c : Dev nD) (n : ℕ) (h : n < cfg0.N) (p : Fin 1024) (m : Fin 512) :
    (outsAt0 V c n h).2.1 (ix2 p m) = partialSum 512 (wTerm V (garr V c) c (1024 * (n / 44) + p.val) (512 * (n / 4 % 11) + m.val)) (n % 4 + 1)
    ∧ (outsAt0 V c n h).2.2 (ix2 p m) = partialSum 512 (wTerm V (uarr V c) c (1024 * (n / 44) + p.val) (512 * (n / 4 % 11) + m.val)) (n % 4 + 1) :=
  ⟨acc_partial V c (fun n h => (outsAt0 V c n h).2.1) (gblk V c) (garr V c) (gblk_apply V c) (k0_pay4 (F := Ideal)) gateZero_apply
      (fun t p m => (congrFun (accs0 V c t).1 (ix2 p m)).trans (gateStep_apply _ _ _ _ p m)) n h p m,
    acc_partial V c (fun n h => (outsAt0 V c n h).2.2) (ublk V c) (uarr V c) (ublk_apply V c) (k0_pay5 (F := Ideal)) upZero_apply
      (fun t p m => (congrFun (accs0 V c t).2 (ix2 p m)).trans (upStep_apply _ _ _ _ p m)) n h p m⟩

def hiddenAt (c : Dev nD) (r o : ℕ) : EReal :=
  hid (dot 2048 (fun j => qa (at2 (sarr V c) r 0) (at2 (xarr V c) r j)) (wq (at2 (garr V c) o)))
      (dot 2048 (fun j => qa (at2 (sarr V c) r 0) (at2 (xarr V c) r j)) (wq (at2 (uarr V c) o)))

def hidden0 (c : Dev nD) : Buf (Elt Ideal) ((c : Thread nD τ).loc main_v10) :=
  fun (i : S8192x5632.Idx) => hiddenAt V c (i 0).val (i 1).val

theorem resBlock_apply (c : Dev nD) (t : Fin cfg0.N) (h3 : t.val % 4 = 3) (p : Fin 1024) (m : Fin 512) :
    (outsAt0 V c t.val t.isLt).1 (ix2 p m) = hiddenAt V c (1024 * (t.val / 44) + p.val) (512 * (t.val / 4 % 11) + m.val) := by
  obtain ⟨hg, hu⟩ := acc_inv V c t.val t.isLt p m
  rw [res_last V c t h3 p m, hg, hu, h3, Cert.LibDotBlocks.partialSum_all (N := 2048) 512 _ (3 + 1) rfl, Cert.LibDotBlocks.partialSum_all (N := 2048) 512 _ (3 + 1) rfl]
  rfl

theorem flushed_eq (c : Dev nD) (t : Fin cfg0.N) (hf : (cfg0.win 4).flush t = true) :
    (dat0 V c).flushed 4 t = ((cfg0.win 4).blk t).view.read (Elt Ideal) (hidden0 V c) := by
  have h3 : t.val % 4 = 3 := (flush0_4 t).mp hf
  obtain ⟨e00, e01, e10, e11, e20, e21, e30, e31, e40, e41⟩ := blockIdx t
  have key : ((outsAt0 V c t.val t.isLt).1 : Vec Ideal S1024x512 .f32)
      = fun y : S1024x512.Idx => hiddenAt V c (1024 * (t.val / 44) + (y 0).val) (512 * (t.val / 4 % 11) + (y 1).val) := by
    funext y
    obtain ⟨p, m, rfl⟩ : ∃ (p : Fin 1024) (m : Fin 512), y = ix2 p m := ⟨y 0, y 1, eq_ix2 y⟩
    exact resBlock_apply V c t h3 p m
  show (cfg0.win 4).cut (grid0.coords t) ((dat0 V c).after 4 t) = _
  rw [after0_4, key]
  funext j
  show hiddenAt V c (1024 * (t.val / 44) + (j 0).val) (512 * (t.val / 4 % 11) + (j 1).val)
    = hiddenAt V c ((((cfg0.win 4).blk t).view.emb j) 0).val ((((cfg0.win 4).blk t).view.emb j) 1).val
  have a0 : 1024 * (t.val / 44) + (j 0).val = ((((cfg0.win 4).blk t).view.emb j) 0).val := by
    show _ = win0_4.index t (0 : Fin 2) * 1024 + 1 * (j 0).val
    rw [e40]; omega
  have a1 : 512 * (t.val / 4 % 11) + (j 1).val = ((((cfg0.win 4).blk t).view.emb j) 1).val := by
    show _ = win0_4.index t (1 : Fin 2) * 512 + 1 * (j 1).val
    rw [e41]; omega
  rw [a0, a1]

theorem final0 (c : Dev nD) : (dat0 V c).arrAt 4 cfg0.N = hidden0 V c :=
  (dat0 V c).arrAt_eq_of_cover 4 (hidden0 V c) (fun t hf => flushed_eq V c t hf) (fun i => resCover i)

theorem value0 (c : Dev nD) (r : Fin 8192) (o : Fin 5632) :
    ((dat0 (F := Ideal) V c).arrAt 4 cfg0.N : S8192x5632.Idx → EReal) (ix2 r o)
      = hid (dot 2048 (fun j => qa (at2 (V c main_v9 : S8192x1.Idx → EReal) r.val 0) (at2 (V c main_v0 : S8192x2048.Idx → EReal) r.val j))
                (wq (at2 (V c main_v1 : S5632x2048.Idx → EReal) o.val)))
            (dot 2048 (fun j => qa (at2 (V c main_v9 : S8192x1.Idx → EReal) r.val 0) (at2 (V c main_v0 : S8192x2048.Idx → EReal) r.val j))
                (wq (at2 (V c main_v2 : S5632x2048.Idx → EReal) o.val))) := by
  exact congrFun (final0 V c) (ix2 r o)

end Cert.KernelIdeal.Hand

end
-- ==== Proof.KI.Val1.lean ====
import proofs.«102340_j15058155339839_1_alg».proof.Proof.KI.Region1
import proofs.«102340_j15058155339839_1_alg».proof.Proof.Spec
import proofs.«102340_j15058155339839_1_alg».proof.Proof.KI.Val1Aux1
import proofs.«102340_j15058155339839_1_alg».proof.Proof.KI.Val1Aux2
import proofs.«102340_j15058155339839_1_alg».proof.Proof.LibDotBlocks
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Spec Idealize.ShloMosaic.ValueIdx
open Cert.LibDotBlocks (ext0 ext0_of_lt partialSum partialSum_zero partialSum_succ partialSum_all)

variable (V : (c : Dev nD) → (b : Ref sig .tc) → Buf (Elt Ideal) ((c : Thread nD τ).loc b))

theorem idx1 : ∀ t : Fin cfg1.N, win1_0.index t (0 : Fin 2) = t.val / 44 ∧ win1_0.index t (1 : Fin 2) = t.val % 11
    ∧ win1_1.index t (0 : Fin 2) = t.val / 44 ∧ win1_1.index t (1 : Fin 2) = 0
    ∧ win1_2.index t (0 : Fin 2) = t.val / 11 % 4 ∧ win1_2.index t (1 : Fin 2) = t.val % 11
    ∧ win1_3.index t (0 : Fin 2) = t.val / 44 ∧ win1_3.index t (1 : Fin 2) = t.val / 11 % 4 :=
  (by decide +kernel : ∀ t : Fin grid1.N, _)

abbrev hblk (c : Dev nD) (t : Fin cfg1.N) : Vec Ideal S1024x512 .f32 := iblk1 V c 0 t
abbrev sblk1 (c : Dev nD) (t : Fin cfg1.N) : Vec Ideal S1024x1 .f32 := iblk1 V c 1 t
abbrev wblk (c : Dev nD) (t : Fin cfg1.N) : Vec Ideal S512x512 .f32 := iblk1 V c 2 t

theorem hblk_apply (c : Dev nD) (t : Fin cfg1.N) (p : Fin 1024) (q : Fin 512) :
    hblk V c t (ix2 p q)
      = at2 (V c main_v10 : S8192x5632.Idx → EReal) (t.val / 44 * 1024 + p.val) (t.val % 11 * 512 + q.val) := by
  have hN : t.val < 352 := lt_of_lt_of_eq t.isLt (show cfg1.N = 352 from N_1)
  obtain ⟨e0, e1, -⟩ := idx1 t
  have hi : t.val / 44 * 1024 + p.val < 8192 := by have := p.isLt; omega
  have hj : t.val % 11 * 512 + q.val < 5632 := by have := q.isLt; omega
  rw [at2_of_lt _ hi hj]
  unfold hblk iblk1
  rw [View.read_apply]
  show V c main_v10 _ = V c main_v10 _
  congr 1
  funext a; apply Fin.ext
  match a with
  | ⟨0, _⟩ => show win1_0.index t (0 : Fin 2) * 1024 + 1 * p.val = t.val / 44 * 1024 + p.val; rw [e0]; omega
  | ⟨1, _⟩ => show win1_0.index t (1 : Fin 2) * 512 + 1 * q.val = t.val % 11 * 512 + q.val; rw [e1]; omega

theorem sblk1_apply (c : Dev nD) (t : Fin cfg1.N) (p : Fin 1024) :
    sblk1 V c t (ix2 p (0 : Fin 1)) = at2 (V c main_v16 : S8192x1.Idx → EReal) (t.val / 44 * 1024 + p.val) 0 := by
  have hN : t.val < 352 := lt_of_lt_of_eq t.isLt (show cfg1.N = 352 from N_1)
  obtain ⟨-, -, e0, e1, -⟩ := idx1 t
  have hi : t.val / 44 * 1024 + p.val < 8192 := by have := p.isLt; omega
  have hj : 0 < 1 := Nat.one_pos
  rw [at2_of_lt _ hi hj]
  unfold sblk1 iblk1
  rw [View.read_apply]
  show V c main_v16 _ = V c main_v16 _
  congr 1
  funext a; apply Fin.ext
  match a with
  | ⟨0, _⟩ => show win1_1.index t (0 : Fin 2) * 1024 + 1 * p.val = t.val / 44 * 1024 + p.val; rw [e0]; omega
  | ⟨1, _⟩ => show win1_1.index t (1 : Fin 2) * 1 + 1 * 0 = 0; rw [e1]

theorem wblk_apply (c : Dev nD) (t : Fin cfg1.N) (n : Fin 512) (q : Fin 512) :
    wblk V c t (ix2 n q)
      = at2 (V c main_v3 : S2048x5632.Idx → EReal) (t.val / 11 % 4 * 512 + n.val) (t.val % 11 * 512 + q.val) := by
  have hN : t.val < 352 := lt_of_lt_of_eq t.isLt (show cfg1.N = 352 from N_1)
  obtain ⟨-, -, -, -, e0, e1, -⟩ := idx1 t
  have hi : t.val / 11 % 4 * 512 + n.val < 2048 := by have := n.isLt; omega
  have hj : t.val % 11 * 512 + q.val < 5632 := by have := q.isLt; omega
  rw [at2_of_lt _ hi hj]
  unfold wblk iblk1
  rw [View.read_apply]
  show V c main_v3 _ = V c main_v3 _
  congr 1
  funext a; apply Fin.ext
  match a with
  | ⟨0, _⟩ => show win1_2.index t (0 : Fin 2) * 512 + 1 * n.val = t.val / 11 % 4 * 512 + n.val; rw [e0]; omega
  | ⟨1, _⟩ => show win1_2.index t (1 : Fin 2) * 512 + 1 * q.val = t.val % 11 * 512 + q.val; rw [e1]; omega

def term1 (c : Dev nD) (R D : ℕ) (o : Fin 5632) : EReal :=
  qa (at2 (V c main_v16 : S8192x1.Idx → EReal) R 0) (at2 (V c main_v10 : S8192x5632.Idx → EReal) R o.val)
    * wq (at2 (V c main_v3 : S2048x5632.Idx → EReal) D) o.val

theorem blockSum1 (c : Dev nD) (t : Fin cfg1.N) (p : Fin 1024) (n : Fin 512) :
    (∑ k : Fin 512, k1_pay3 (hblk V c t) (sblk1 V c t) (ix2 p k) * k1_pay4 (wblk V c t) (ix2 n k))
      = ∑ r : Fin 512, ext0 (term1 V c (t.val / 44 * 1024 + p.val) (t.val / 11 % 4 * 512 + n.val)) (t.val % 11 * 512 + r.val) := by
  have hN : t.val < 352 := lt_of_lt_of_eq t.isLt (show cfg1.N = 352 from N_1)
  refine Finset.sum_congr rfl fun k _ => ?_
  have hk : t.val % 11 * 512 + k.val < 5632 := by have := k.isLt; omega
  rw [pay3_apply (hblk V c t) (sblk1 V c t) p k, pay4_apply (wblk V c t) n k, ext0_of_lt _ hk,
    hblk_apply V c t p k, sblk1_apply V c t p, wblk_apply V c t n k]
  unfold term1 wq wsc gsum
  dsimp only
  have hs : (∑ l : Fin 128, eabs (wblk V c t (ix2 n ⟨128 * (k.val / 128) + l.val, grp_lt k l⟩)))
      = ∑ l : Fin 128, eabs (at2 (V c main_v3 : S2048x5632.Idx → EReal) (t.val / 11 % 4 * 512 + n.val)
          (128 * ((t.val % 11 * 512 + k.val) / 128) + l.val)) :=
    Finset.sum_congr rfl fun l _ => by
      rw [wblk_apply V c t n ⟨128 * (k.val / 128) + l.val, grp_lt k l⟩]
      have e : t.val % 11 * 512 + (128 * (k.val / 128) + l.val) = 128 * ((t.val % 11 * 512 + k.val) / 128) + l.val := by
        have := l.isLt; omega
      show eabs (at2 _ _ (t.val % 11 * 512 + (128 * (k.val / 128) + l.val))) = _
      rw [e]
  rw [hs]

theorem acc1_sum (c : Dev nD) : ∀ (m : ℕ) (hm : m < cfg1.N) (p : Fin 1024) (n : Fin 512),
    acc1 V c m hm (ix2 p n)
      = partialSum 512 (term1 V c (m / 44 * 1024 + p.val) (m / 11 % 4 * 512 + n.val)) (m % 11 + 1) := by
  intro m
  induction m using Nat.strong_induction_on with
  | _ m ih =>
    intro hm p n
    have hN : m < 352 := lt_of_lt_of_eq hm (show cfg1.N = 352 from N_1)
    rw [show acc1 V c m hm = _ from acc1_eq V c ⟨m, hm⟩]; unfold step1
    rw [pay1_apply _ (k1_pay3 (hblk V c ⟨m, hm⟩) (sblk1 V c ⟨m, hm⟩)) (k1_pay4 (wblk V c ⟨m, hm⟩)) p n, blockSum1 V c ⟨m, hm⟩ p n]
    dsimp only
    by_cases h0 : m % 11 = 0
    · rw [if_pos h0, pay2_apply, h0, partialSum_succ, partialSum_zero]
    · rw [if_neg h0]; unfold prev1; dsimp only
      rw [ih (m - 1) (by omega) _ p n, show (m - 1) / 44 = m / 44 from by omega, show (m - 1) / 11 % 4 = m / 11 % 4 from by omega,
        show (m - 1) % 11 + 1 = m % 11 from by omega, partialSum_succ]

def G1 (c : Dev nD) : S8192x2048.Idx → EReal := fun i =>
  dot 5632 (fun o => qa (at2 (V c main_v16 : S8192x1.Idx → EReal) (i 0).val 0) (at2 (V c main_v10 : S8192x5632.Idx → EReal) (i 0).val o))
    (wq (at2 (V c main_v3 : S2048x5632.Idx → EReal) (i 1).val))

theorem G1_apply (c : Dev nD) (R : Fin 8192) (D : Fin 2048) :
    G1 V c (ix2 R D) = ∑ o : Fin 5632, term1 V c R.val D.val o := rfl

theorem flushed1_eq (c : Dev nD) (t : Fin cfg1.N) (hf : (cfg1.win 3).flush t = true) :
    (dat1 (F := Ideal) V c).flushed 3 t = ((cfg1.win 3).blk t).view.read (Elt Ideal) (G1 V c) := by
  have hN : t.val < 352 := lt_of_lt_of_eq t.isLt (show cfg1.N = 352 from N_1)
  have h10 : t.val % 11 = 10 := (flush1_3 t).mp hf
  obtain ⟨-, -, -, -, -, -, e0, e1⟩ := idx1 t
  show (cfg1.win 3).cut (grid1.coords t) ((dat1 (F := Ideal) V c).after 3 t) = _
  funext y
  rw [View.read_apply]
  obtain ⟨p, n, rfl⟩ : ∃ (p : Fin 1024) (n : Fin 512), y = ix2 p n := ⟨y 0, y 1, eq_ix2 y⟩
  have he : ((cfg1.win 3).blk t).view.emb (ix2 p n)
      = ix2 (⟨t.val / 44 * 1024 + p.val, by have := p.isLt; omega⟩ : Fin 8192) (⟨t.val / 11 % 4 * 512 + n.val, by have := n.isLt; omega⟩ : Fin 2048) := by
    funext a; apply Fin.ext
    match a with
    | ⟨0, _⟩ => show win1_3.index t (0 : Fin 2) * 1024 + 1 * p.val = t.val / 44 * 1024 + p.val; rw [e0]; omega
    | ⟨1, _⟩ => show win1_3.index t (1 : Fin 2) * 512 + 1 * n.val = t.val / 11 % 4 * 512 + n.val; rw [e1]; omega
  show acc1 V c t.val t.isLt (ix2 p n) = G1 V c (((cfg1.win 3).blk t).view.emb (ix2 p n))
  rw [he, G1_apply, acc1_sum V c t.val t.isLt p n, h10]
  exact partialSum_all 512 _ (10 + 1) (by decide)

theorem mem_blk1 (t : Fin cfg1.N) (i : S8192x2048.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v17).slice (win1_3.rect t)).set ↔ _
  rw [View.set_slice_whole, Rect.mem_set_unit]
  exact Iff.rfl

theorem cover1 (i : S8192x2048.Idx) : ∃ t : Fin cfg1.N, (cfg1.win 3).flush t = true ∧ i ∈ ((cfg1.win 3).blk t).view.set := by
  have hr : (i 0).val < 8192 := (i 0).isLt
  have hd : (i 1).val < 2048 := (i 1).isLt
  have ht : ((i 0).val / 1024 * 4 + (i 1).val / 512) * 11 + 10 < cfg1.N := by
    rw [show cfg1.N = 352 from N_1]; omega
  obtain ⟨-, -, -, -, -, -, e0, e1⟩ := idx1 ⟨_, ht⟩
  refine ⟨⟨_, ht⟩, (flush1_3 _).mpr (by show (((i 0).val / 1024 * 4 + (i 1).val / 512) * 11 + 10) % 11 = 10; omega), ?_⟩
  rw [mem_blk1]
  intro a
  match a with
  | ⟨0, _⟩ =>
    show win1_3.index ⟨_, ht⟩ (0 : Fin 2) * 1024 ≤ (i 0).val ∧ (i 0).val < win1_3.index ⟨_, ht⟩ (0 : Fin 2) * 1024 + 1024
    rw [e0]
    show (((i 0).val / 1024 * 4 + (i 1).val / 512) * 11 + 10) / 44 * 1024 ≤ (i 0).val ∧ (i 0).val < (((i 0).val / 1024 * 4 + (i 1).val / 512) * 11 + 10) / 44 * 1024 + 1024
    omega
  | ⟨1, _⟩ =>
    show win1_3.index ⟨_, ht⟩ (1 : Fin 2) * 512 ≤ (i 1).val ∧ (i 1).val < win1_3.index ⟨_, ht⟩ (1 : Fin 2) * 512 + 512
    rw [e1]
    show (((i 0).val / 1024 * 4 + (i 1).val / 512) * 11 + 10) / 11 % 4 * 512 ≤ (i 1).val ∧ (i 1).val < (((i 0).val / 1024 * 4 + (i 1).val / 512) * 11 + 10) / 11 % 4 * 512 + 512
    omega

theorem value1 (c : Dev nD) (r : Fin 8192) (d : Fin 2048) :
    ((dat1 (F := Ideal) V c).arrAt 3 cfg1.N : S8192x2048.Idx → EReal) (ix2 r d)
      = dot 5632 (fun o => qa (at2 (V c main_v16 : S8192x1.Idx → EReal) r.val 0) (at2 (V c main_v10 : S8192x5632.Idx → EReal) r.val o))
          (wq (at2 (V c main_v3 : S2048x5632.Idx → EReal) d.val)) := by
  have h := (dat1 (F := Ideal) V c).arrAt_eq_of_cover 3 (G1 V c) (flushed1_eq V c) cover1
  exact congrFun h (ix2 r d)

end Cert.KernelIdeal.Hand

end
-- ==== Proof.LibColumnBroadcast.lean ====
import Idealize.ShloMosaic.Lib.Pipeline.Value
import Idealize.ShloMosaic.Lib.ValueIdx

namespace Cert.LibColumnBroadcast

open Idealize.ShloMosaic Idealize.ShloMosaic.ValueIdx

variable {α : Type}

theorem colOfVec_apply {N : ℕ} (v : (⟨1, ![N]⟩ : Shape).Idx → α)
    (h₁ : (⟨1, ![N]⟩ : Shape).BroadcastsInDim ⟨2, ![N, 1]⟩ ![0]) (r : Fin N) :
    broadcastInDim (⟨2, ![N, 1]⟩ : Shape) ![0] h₁ v (ix2 r (0 : Fin 1)) = v (ix1 r) := by
  refine broadcastInDim_apply ![0] h₁ v _ (ix1 r) fun ax => ?_
  match ax with
  | ⟨0, _⟩ =>
    show r.val = if N = 1 then 0 else r.val
    split
    · have := r.isLt; omega
    · rfl

theorem splat_apply {s : Shape} (h₀ : (⟨0, ![]⟩ : Shape).BroadcastsInDim s ![]) (w : BitVec 32) (j : s.Idx) :
    broadcastInDim s ![] h₀ (constant (F := Ideal) (⟨0, ![]⟩ : Shape) .f32 w) j = Ideal.ofBits .f32 w := by
  rw [broadcastInDim_apply ![] h₀ _ j ix0 (fun ax => ax.elim0), constant_apply]

end Cert.LibColumnBroadcast
-- ==== Proof.KI.HostVals.lean ====
import proofs.«102340_j15058155339839_1_alg».proof.Proof.Gen.KernelIdeal.Regions
import proofs.«102340_j15058155339839_1_alg».proof.Proof.Spec
import Idealize.ShloMosaic.Lib.StableHlo.Run
import Idealize.ShloMosaic.Lib.ValueLayout
import proofs.«102340_j15058155339839_1_alg».proof.Proof.LibColumnBroadcast
import Idealize.ShloMosaic.Lib.KernelVsHost
import Idealize.ShloMosaic.PureOps.Reduce

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Cert.Spec Idealize.ShloMosaic.ValueIdx

variable (m : (ℓ : Loc nD τ sig) → Buf (Elt Ideal) ℓ) (outs : Outs (F := Ideal)) (c : Dev nD)

abbrev argX : S4x2048x2048.Idx → EReal := m ((c : Thread nD τ).loc main_arg0)
abbrev argWg : S5504x2048.Idx → EReal := m ((c : Thread nD τ).loc main_arg1)
abbrev argWu : S5504x2048.Idx → EReal := m ((c : Thread nD τ).loc main_arg2)
abbrev argWd : S2048x5504.Idx → EReal := m ((c : Thread nD τ).loc main_arg3)

-- A row's scale: 127 over the larger of the threshold and the row's largest magnitude.
private def rowScale {a b : ℕ} (X : (⟨2, ![a, b]⟩ : Shape).Idx → EReal)
    (h' : (⟨2, ![a, b]⟩ : Shape).ReducesTo [1] (⟨1, ![a]⟩ : Shape)) (hu : 0 < (⟨0, ![]⟩ : Shape).numel)
    (hb0 : (⟨1, ![a]⟩ : Shape).BroadcastsInDim ⟨2, ![a, 1]⟩ ![0])
    (hb : (⟨0, ![]⟩ : Shape).BroadcastsInDim ⟨2, ![a, 1]⟩ ![]) : (⟨2, ![a, 1]⟩ : Shape).Idx → EReal :=
  Host.divf (F := Ideal) (φ := .f32) (broadcastInDim (⟨2, ![a, 1]⟩ : Shape) ![] hb (constant (F := Ideal) (⟨0, ![]⟩ : Shape) .f32 0x42FE0000#32))
    (maximumf (F := Ideal) (φ := .f32) (broadcastInDim (⟨2, ![a, 1]⟩ : Shape) ![] hb (id (constant (F := Ideal) (⟨0, ![]⟩ : Shape) .f32 0x3727C5AC#32)))
      (broadcastInDim (⟨2, ![a, 1]⟩ : Shape) ![0] hb0
        (Host.reduce (FloatOps.maximumf (F := Ideal) (φ := .f32)) (Host.absf (F := Ideal) (φ := .f32) X)
          (constant (F := Ideal) (⟨0, ![]⟩ : Shape) .f32 0xFF800000#32) h' hu)))

private theorem scale_read {a b : ℕ} (X : (⟨2, ![a, b]⟩ : Shape).Idx → EReal)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel)
    (hb0 : (⟨1, ![a]⟩ : Shape).BroadcastsInDim ⟨2, ![a, 1]⟩ ![0])
    (hb : (⟨0, ![]⟩ : Shape).BroadcastsInDim ⟨2, ![a, 1]⟩ ![]) (r : Fin a) :
    rowScale X h' hu hb0 hb (ix2 r (0 : Fin 1))
      = rscale ((Finset.univ : Finset (Fin b)).fold max cNegInf (fun k => eabs (X (ix2 r k)))) := by
  show Ideal.div (broadcastInDim _ _ hb (constant (F := Ideal) _ .f32 0x42FE0000#32) _)
      (max (broadcastInDim _ _ hb (constant (F := Ideal) _ .f32 0x3727C5AC#32) _) (broadcastInDim _ _ hb0 _ _)) = _
  rw [Cert.LibColumnBroadcast.splat_apply, Cert.LibColumnBroadcast.splat_apply, Cert.LibColumnBroadcast.colOfVec_apply,
    Host.reduce_eq_fold_single FloatOps.maximumf _ _ h' h hu]
  exact congrArg (fun f : Fin b → EReal => rscale (Finset.fold max cNegInf f Finset.univ))
    (funext fun k => congrArg (fun i => eabs (X i)) (funext fun ax => Fin.ext (by
      rw [h.lift_val]
      match ax with
      | ⟨0, _⟩ => rfl
      | ⟨1, _⟩ => rfl)))

private theorem pad_at2 {a b a' b' : ℕ} (x : (⟨2, ![a, b]⟩ : Shape).Idx → EReal) {u : Shape} (v : u.Idx → EReal) (hi : Fin 2 → ℕ)
    (h : (⟨2, ![a, b]⟩ : Shape).Pads ![0, 0] hi ![0, 0] ⟨2, ![a', b']⟩) (hu : 0 < u.numel) (hv : v (Shape.Idx.first hu) = 0)
    (o : Fin a') (j : Fin b') :
    pad ⟨2, ![a', b']⟩ ![0, 0] hi ![0, 0] x v h hu (ix2 o j) = at2 x o.val j.val := by
  by_cases hin : o.val < a ∧ j.val < b
  · rw [at2_of_lt x hin.1 hin.2]
    refine pad_apply_of_inside _ _ _ x v h hu _ _ fun ax => ?_
    match ax with
    | ⟨0, _⟩ => show o.val = 0 + o.val * (0 + 1); omega
    | ⟨1, _⟩ => show j.val = 0 + j.val * (0 + 1); omega
  · rw [show at2 x o.val j.val = 0 from dif_neg hin, ← hv]
    by_cases ho : o.val < a
    · exact pad_apply_of_not_inside _ _ _ x v h hu _ (1 : Fin 2) fun hh =>
        hin ⟨ho, by have : (j.val - 0) / (0 + 1) < b := hh.2.2; omega⟩
    · exact pad_apply_of_not_inside _ _ _ x v h hu _ (0 : Fin 2) fun hh =>
        ho (by have : (o.val - 0) / (0 + 1) < a := hh.2.2; omega)

private theorem zero_word_read : (sitofp (F := Ideal) .f32 (constantI S_ 32 0#32) : S_.Idx → EReal) (Shape.Idx.first h_S_) = 0 := by
  rw [sitofp_apply, constantI_apply]
  show (((0#32 : BitVec 32).toInt : ℝ) : EReal) = 0
  simp

theorem host_x (r : Fin 8192) (j : Fin 2048) :
    (V9 m c main_v0 : S8192x2048.Idx → EReal) (ix2 r j) = rows3 (argX m c) r.val j.val := by
  rw [V9_of m c main_v0 (by decide), V8_of m c main_v0 (by decide), V7_of m c main_v0 (by decide), V6_of m c main_v0 (by decide),
    V5_of m c main_v0 (by decide), V4_of m c main_v0 (by decide), V3_of m c main_v0 (by decide), V2_of m c main_v0 (by decide)]
  show StableHlo.after hostOps0 (V0 m c) (Proc.devRef .tc main_v0) _ = _
  after_results
  unfold rows3
  rw [dif_pos ⟨r.isLt, j.isLt⟩]
  refine shapeCast_apply (argX m c) shapeCasts_S4x2048x2048_S8192x2048 _ _ ?_
  rw [Shape.rowMajor_val_two, Shape.rowMajor_val_three]
  show (r.val / 2048 * 2048 + r.val % 2048) * 2048 + j.val = r.val * 2048 + j.val
  omega

section Stretches
variable (W : Valuation τ sig (Elt Ideal))

private theorem s6_v6 : StableHlo.after hostOps0_6 W (Proc.devRef .tc main_v6)
    = broadcastInDim S8192x1 ![0] bcast_S8192_S8192x1_0
        (Host.reduce (FloatOps.maximumf (F := Ideal) (φ := .f32)) (Host.absf (F := Ideal) (φ := .f32) (W (Proc.devRef .tc main_v0) : S8192x2048.Idx → EReal))
          (constant (F := Ideal) S_ .f32 0xFF800000#32) reducesTo_S8192x2048_S8192_d1 h_S_) := by
  after_results

private theorem s6_cst : StableHlo.after hostOps0_6 W (Proc.devRef .tc main_cst_2) = constant (F := Ideal) S_ .f32 0x3727C5AC#32 := by
  after_results

private theorem s7_v7 : StableHlo.after hostOps0_7 W (Proc.devRef .tc main_v7)
    = maximumf (F := Ideal) (φ := .f32) (broadcastInDim S8192x1 ![] bcast_S_S8192x1 (id (W (Proc.devRef .tc main_cst_2) : S_.Idx → EReal)))
        (W (Proc.devRef .tc main_v6) : S8192x1.Idx → EReal) := by
  after_results
  rfl

private theorem s8_v9 : StableHlo.after hostOps0_8 W (Proc.devRef .tc main_v9)
    = Host.divf (F := Ideal) (φ := .f32) (broadcastInDim S8192x1 ![] bcast_S_S8192x1 (constant (F := Ideal) S_ .f32 0x42FE0000#32))
        (W (Proc.devRef .tc main_v7) : S8192x1.Idx → EReal) := by
  after_results

end Stretches

private theorem v9_eq : (V9 m c main_v9 : S8192x1.Idx → EReal)
    = rowScale (V9 m c main_v0 : S8192x2048.Idx → EReal) reducesTo_S8192x2048_S8192_d1 h_S_ bcast_S8192_S8192x1_0 bcast_S_S8192x1 := by
  have e9 : V9 m c (Proc.devRef .tc main_v9) = _ := s8_v9 (V8 m c)
  have e7 : V8 m c (Proc.devRef .tc main_v7) = _ := s7_v7 (V7 m c)
  have e6 : V7 m c (Proc.devRef .tc main_v6) = _ := s6_v6 (V6 m c)
  have ec : V7 m c (Proc.devRef .tc main_cst_2) = _ := s6_cst (V6 m c)
  have e0 : (V9 m c main_v0 : S8192x2048.Idx → EReal) = V6 m c main_v0 := by
    rw [V9_of m c main_v0 (by decide), V8_of m c main_v0 (by decide), V7_of m c main_v0 (by decide)]
  rw [e0]
  refine e9.trans ?_
  rw [e7, e6, ec]
  rfl

theorem host_sx (r : Fin 8192) :
    (V9 m c main_v9 : S8192x1.Idx → EReal) (ix2 r 0) = rscale (rowMax 2048 (rows3 (argX m c) r.val)) := by
  rw [v9_eq]
  refine (scale_read (V9 m c main_v0 : S8192x2048.Idx → EReal) reducesTo_S8192x2048_S8192_d1 (by decide) h_S_
    bcast_S8192_S8192x1_0 bcast_S_S8192x1 r).trans ?_
  exact congrArg rscale (congrArg (fun f : Fin 2048 → EReal => Finset.fold max cNegInf f Finset.univ)
    (funext fun k => congrArg eabs (host_x m c r k)))

theorem host_wg (o : Fin 5632) (j : Fin 2048) :
    (V9 m c main_v1 : S5632x2048.Idx → EReal) (ix2 o j) = at2 (argWg m c) o.val j.val := by
  rw [V9_of m c main_v1 (by decide), V8_of m c main_v1 (by decide), V7_of m c main_v1 (by decide), V6_of m c main_v1 (by decide),
    V5_of m c main_v1 (by decide), V4_of m c main_v1 (by decide), V3_of m c main_v1 (by decide)]
  show StableHlo.after hostOps0_1 (V1 m c) (Proc.devRef .tc main_v1) _ = _
  after_results
  exact pad_at2 (argWg m c) _ _ pads_S5504x2048_S5632x2048_01280_000 h_S_ zero_word_read o j

theorem host_wu (o : Fin 5632) (j : Fin 2048) :
    (V9 m c main_v2 : S5632x2048.Idx → EReal) (ix2 o j) = at2 (argWu m c) o.val j.val := by
  rw [V9_of m c main_v2 (by decide), V8_of m c main_v2 (by decide), V7_of m c main_v2 (by decide), V6_of m c main_v2 (by decide),
    V5_of m c main_v2 (by decide)]
  show StableHlo.after hostOps0_3 (V3 m c) (Proc.devRef .tc main_v2) _ = _
  after_results
  exact pad_at2 (argWu m c) _ _ pads_S5504x2048_S5632x2048_01280_000 h_S_ zero_word_read o j

section Stretches2
variable (W : Valuation τ sig (Elt Ideal))

private theorem t1_v13 : StableHlo.after hostOps1 W (Proc.devRef .tc main_v13)
    = broadcastInDim S8192x1 ![0] bcast_S8192_S8192x1_0
        (Host.reduce (FloatOps.maximumf (F := Ideal) (φ := .f32)) (Host.absf (F := Ideal) (φ := .f32) (W (Proc.devRef .tc main_v10) : S8192x5632.Idx → EReal))
          (constant (F := Ideal) S_ .f32 0xFF800000#32) reducesTo_S8192x5632_S8192_d1 h_S_) := by
  after_results

private theorem t1_cst : StableHlo.after hostOps1 W (Proc.devRef .tc main_cst_5) = constant (F := Ideal) S_ .f32 0x3727C5AC#32 := by
  after_results

private theorem t2_v14 : StableHlo.after hostOps1_1 W (Proc.devRef .tc main_v14)
    = maximumf (F := Ideal) (φ := .f32) (broadcastInDim S8192x1 ![] bcast_S_S8192x1 (id (W (Proc.devRef .tc main_cst_5) : S_.Idx → EReal)))
        (W (Proc.devRef .tc main_v13) : S8192x1.Idx → EReal) := by
  after_results
  rfl

private theorem t3_v16 : StableHlo.after hostOps1_2 W (Proc.devRef .tc main_v16)
    = Host.divf (F := Ideal) (φ := .f32) (broadcastInDim S8192x1 ![] bcast_S_S8192x1 (constant (F := Ideal) S_ .f32 0x42FE0000#32))
        (W (Proc.devRef .tc main_v14) : S8192x1.Idx → EReal) := by
  after_results

end Stretches2

theorem host_keep : V13 m outs c main_v10 = V10 m outs c main_v10 := by
  rw [V13_of m outs c main_v10 (by decide), V12_of m outs c main_v10 (by decide), V11_of m outs c main_v10 (by decide)]

private theorem v16_eq : (V13 m outs c main_v16 : S8192x1.Idx → EReal)
    = rowScale (V10 m outs c main_v10 : S8192x5632.Idx → EReal) reducesTo_S8192x5632_S8192_d1 h_S_ bcast_S8192_S8192x1_0 bcast_S_S8192x1 := by
  have e16 : V13 m outs c (Proc.devRef .tc main_v16) = _ := t3_v16 (V12 m outs c)
  have e14 : V12 m outs c (Proc.devRef .tc main_v14) = _ := t2_v14 (V11 m outs c)
  have e13 : V11 m outs c (Proc.devRef .tc main_v13) = _ := t1_v13 (V10 m outs c)
  have ec : V11 m outs c (Proc.devRef .tc main_cst_5) = _ := t1_cst (V10 m outs c)
  refine e16.trans ?_
  rw [e14, e13, ec]
  rfl

theorem host_sh (r : Fin 8192) :
    (V13 m outs c main_v16 : S8192x1.Idx → EReal) (ix2 r 0)
      = rscale (rowMax 5632 (at2 (V10 m outs c main_v10 : S8192x5632.Idx → EReal) r.val)) := by
  rw [v16_eq]
  refine (scale_read (V10 m outs c main_v10 : S8192x5632.Idx → EReal) reducesTo_S8192x5632_S8192_d1 (by decide) h_S_
    bcast_S8192_S8192x1_0 bcast_S_S8192x1 r).trans ?_
  exact congrArg rscale (congrArg (fun f : Fin 5632 → EReal => Finset.fold max cNegInf f Finset.univ)
    (funext fun k => congrArg eabs (at2_of_lt (V10 m outs c main_v10 : S8192x5632.Idx → EReal) r.isLt k.isLt).symm))

theorem host_wd (d : Fin 2048) (o : Fin 5632) :
    (V13 m outs c main_v3 : S2048x5632.Idx → EReal) (ix2 d o) = at2 (argWd m c) d.val o.val := by
  rw [V13_of m outs c main_v3 (by decide), V12_of m outs c main_v3 (by decide), V11_of m outs c main_v3 (by decide),
    V10_of m outs c main_v3 (by decide),
    V9_of m c main_v3 (by decide), V8_of m c main_v3 (by decide), V7_of m c main_v3 (by decide)]
  show StableHlo.after hostOps0_5 (V5 m c) (Proc.devRef .tc main_v3) _ = _
  after_results
  exact pad_at2 (argWd m c) _ _ pads_S2048x5504_S2048x5632_000_01280 h_S_ zero_word_read d o

theorem host_out (b : Fin 4) (s d : Fin 2048) :
    (V15 m outs c main_v18 : S4x2048x2048.Idx → EReal) (ix3 b s d)
      = (V14 m outs c main_v17 : S8192x2048.Idx → EReal) (ix2 ⟨b.val * 2048 + s.val, by have := b.isLt; have := s.isLt; omega⟩ d) := by
  show StableHlo.after hostOps2 (V14 m outs c) (Proc.devRef .tc main_v18) _ = _
  after_results
  refine shapeCast_apply (s := S8192x2048) (t := S4x2048x2048) _ shapeCasts_S8192x2048_S4x2048x2048 _ _ ?_
  rw [Shape.rowMajor_val_two, Shape.rowMajor_val_three]
  rfl

end Cert.KernelIdeal.Hand

end
-- ==== Proof.KI.KernelValue.lean ====
import proofs.«102340_j15058155339839_1_alg».proof.Proof.KI.Run
import proofs.«102340_j15058155339839_1_alg».proof.Proof.KI.Val0
import proofs.«102340_j15058155339839_1_alg».proof.Proof.KI.Val1
import proofs.«102340_j15058155339839_1_alg».proof.Proof.KI.HostVals
import proofs.«102340_j15058155339839_1_alg».proof.Proof.Spec

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Cert.Spec Idealize.ShloMosaic.ValueIdx

variable (m : (ℓ : Loc nD τ sig) → Buf (Elt Ideal) ℓ) (c : Dev nD)

theorem rowMax_congr {n : ℕ} {row row' : ℕ → EReal} (h : ∀ k, k < n → row k = row' k) : rowMax n row = rowMax n row' := by
  unfold rowMax
  congr 1
  funext k
  rw [h k.val k.isLt]

theorem dot_congr {n : ℕ} {a a' b b' : ℕ → EReal} (ha : ∀ k, k < n → a k = a' k) (hb : ∀ k, k < n → b k = b' k) :
    dot n a b = dot n a' b' := by
  unfold dot
  exact Finset.sum_congr rfl fun k _ => by rw [ha k.val k.isLt, hb k.val k.isLt]

-- A zero-padded array and the array it pads agree at every pair of naturals.
theorem at2_pad {a b a' b' : ℕ} (P : (⟨2, ![a', b']⟩ : Shape).Idx → EReal) (W : (⟨2, ![a, b]⟩ : Shape).Idx → EReal)
    (h : ∀ (o : Fin a') (j : Fin b'), P (ix2 o j) = at2 W o.val j.val) (ha : a ≤ a') (hb : b ≤ b') (o j : ℕ) :
    at2 P o j = at2 W o j := by
  by_cases ho : o < a'
  · by_cases hj : j < b'
    · rw [at2_of_lt P ho hj]; exact h ⟨o, ho⟩ ⟨j, hj⟩
    · rw [at2_of_ge_right P o (Nat.le_of_not_lt hj), at2_of_ge_right W o (by omega)]
  · rw [at2_of_ge_left P j (Nat.le_of_not_lt ho), at2_of_ge_left W j (by omega)]

theorem hidden_value (r : Fin 8192) (o : Fin 5632) :
    ((dat0 (F := Ideal) (Ein0 m) c).arrAt 4 cfg0.N : S8192x5632.Idx → EReal) (ix2 r o)
      = Spec.hidden (rows3 (argX m c)) (at2 (argWg m c)) (at2 (argWu m c)) r.val o.val := by
  rw [value0 (Ein0 m) c r o]
  unfold Spec.hidden gate
  have hs : at2 (Ein0 m c main_v9 : S8192x1.Idx → EReal) r.val 0 = rscale (rowMax 2048 (rows3 (argX m c) r.val)) := by
    rw [at2_of_lt _ r.isLt (by decide : 0 < 1)]; exact host_sx m c r
  have hx : ∀ k, k < 2048 → (fun j => qa (at2 (Ein0 m c main_v9 : S8192x1.Idx → EReal) r.val 0) (at2 (Ein0 m c main_v0 : S8192x2048.Idx → EReal) r.val j)) k
      = aq 2048 (rows3 (argX m c) r.val) k := by
    intro k hk
    show qa _ _ = qa _ _
    rw [hs, at2_of_lt _ r.isLt hk]
    exact congrArg _ (host_x m c r ⟨k, hk⟩)
  have hg : (at2 (Ein0 m c main_v1 : S5632x2048.Idx → EReal) o.val) = at2 (argWg m c) o.val :=
    funext (at2_pad _ _ (host_wg m c) (by decide) (by decide) o.val)
  have hu : (at2 (Ein0 m c main_v2 : S5632x2048.Idx → EReal) o.val) = at2 (argWu m c) o.val :=
    funext (at2_pad _ _ (host_wu m c) (by decide) (by decide) o.val)
  rw [hg, hu, dot_congr hx (fun _ _ => rfl), dot_congr hx (fun _ _ => rfl)]

theorem kernel_value (b : Fin 4) (s d : Fin 2048) :
    (V15 m (outs m) c main_v18 : S4x2048x2048.Idx → EReal) (ix3 b s d)
      = out 5632 (rows3 (argX m c)) (at2 (argWg m c)) (at2 (argWu m c)) (at2 (argWd m c)) (b.val * 2048 + s.val) d.val := by
  have hr : b.val * 2048 + s.val < 8192 := by have := b.isLt; have := s.isLt; omega
  rw [host_out m (outs m) c b s d]
  rw [show (V14 m (outs m) c main_v17 : S8192x2048.Idx → EReal) = ((dat1 (F := Ideal) (Ein1 m) c).arrAt 3 cfg1.N : S8192x2048.Idx → EReal)
    from V14_main_v17 m c]
  rw [value1 (Ein1 m) c ⟨b.val * 2048 + s.val, hr⟩ d]
  unfold out

  have hH : (Ein1 m c main_v10 : S8192x5632.Idx → EReal) = ((dat0 (F := Ideal) (Ein0 m) c).arrAt 4 cfg0.N : S8192x5632.Idx → EReal) := by
    show (V13 m (outsA m) c main_v10 : S8192x5632.Idx → EReal) = _
    rw [host_keep m (outsA m) c]
    show (Function.update (V9 m c) main_v10 (outsA m 10 main_v10 c) main_v10 : S8192x5632.Idx → EReal) = _
    rw [Function.update_self]
    exact W10_arr m c 4
  have hrow : ∀ k, k < 5632 → at2 (Ein1 m c main_v10 : S8192x5632.Idx → EReal) (b.val * 2048 + s.val) k
      = Spec.hidden (rows3 (argX m c)) (at2 (argWg m c)) (at2 (argWu m c)) (b.val * 2048 + s.val) k := by
    intro k hk
    rw [at2_of_lt _ hr hk, hH]
    exact hidden_value m c ⟨_, hr⟩ ⟨k, hk⟩
  have hs : at2 (Ein1 m c main_v16 : S8192x1.Idx → EReal) (b.val * 2048 + s.val) 0
      = rscale (rowMax 5632 (Spec.hidden (rows3 (argX m c)) (at2 (argWg m c)) (at2 (argWu m c)) (b.val * 2048 + s.val))) := by
    rw [at2_of_lt _ hr (by decide : 0 < 1)]
    refine (host_sh m (outsA m) c ⟨_, hr⟩).trans ?_
    refine congrArg rscale (rowMax_congr fun k hk => ?_)
    have e : (V10 m (outsA m) c main_v10 : S8192x5632.Idx → EReal) = (Ein1 m c main_v10 : S8192x5632.Idx → EReal) :=
      (host_keep m (outsA m) c).symm
    rw [e]; exact hrow k hk
  have hd : (at2 (Ein1 m c main_v3 : S2048x5632.Idx → EReal) d.val) = at2 (argWd m c) d.val :=
    funext (at2_pad _ _ (host_wd m (outsA m) c) (by decide) (by decide) d.val)
  rw [hd]
  refine dot_congr (fun k hk => ?_) (fun _ _ => rfl)
  show qa _ _ = aq 5632 _ k
  unfold aq
  rw [hs, hrow k hk]

end Cert.KernelIdeal.Hand

end
-- ==== Proof.LibSsaAfter.lean ====
import Idealize.ShloMosaic.Lib.StableHlo.Run
import Idealize.ShloMosaic.Lib.Pipeline.Frame

noncomputable section

namespace Cert.LibSsaAfter

open Idealize.ShloMosaic Idealize.ShloMosaic.TcCoe Idealize.ShloMosaic.StableHlo

variable {τ : Topo} {sig : RefSig} {Val : EltTy → Type}

def Writes : List (HloOp τ sig Val) → List (Ref sig .tc) → Prop
  | [], [] => True
  | op :: ops, r :: rs => op.writes = {(Proc.devRef .tc r : DevRef τ sig)} ∧ Writes ops rs
  | _, _ => False

theorem Writes.drop : ∀ {ops : List (HloOp τ sig Val)} {rs : List (Ref sig .tc)} (k : ℕ), Writes ops rs → Writes (ops.drop k) (rs.drop k)
  | _, _, 0, h => h
  | [], [], _ + 1, _ => trivial
  | _ :: _, _ :: _, k + 1, h => Writes.drop k h.2
  | [], _ :: _, _ + 1, h => h.elim
  | _ :: _, [], _ + 1, h => h.elim

theorem Writes.not_written : ∀ {ops : List (HloOp τ sig Val)} {rs : List (Ref sig .tc)}, Writes ops rs → ∀ {r : Ref sig .tc}, r ∉ rs →
    ∀ op ∈ ops, (Proc.devRef .tc r : DevRef τ sig) ∉ op.writes
  | [], [], _, _, _, _, hop => nomatch hop
  | op :: ops, r' :: rs, h, r, hr, o, ho => by
    rcases List.mem_cons.mp ho with rfl | ho
    · rw [h.1, Finset.mem_singleton]
      exact devRef_ne_of_ne (fun e => hr (e ▸ List.mem_cons_self))
    · exact Writes.not_written h.2 (fun hm => hr (List.mem_cons_of_mem _ hm)) o ho
  | [], _ :: _, h, _, _, _, _ => h.elim
  | _ :: _, [], h, _, _, _, _ => h.elim

variable (ops : List (HloOp τ sig Val)) (rs : List (Ref sig .tc)) (hW : Writes ops rs) (V : Valuation τ sig Val)

include hW in

theorem after_take (k : ℕ) (r : Ref sig .tc) (hr : r ∉ rs.drop k) :
    after ops V (Proc.devRef .tc r) = after (ops.take k) V (Proc.devRef .tc r) := by
  conv_lhs => rw [← List.take_append_drop k ops]
  rw [StableHlo.after_append]
  exact after_of_forall_not_mem _ _ (Writes.not_written (Writes.drop k hW) hr)

include hW in

theorem after_unwritten (r : Ref sig .tc) (hr : r ∉ rs) : after ops V (Proc.devRef .tc r) = V (Proc.devRef .tc r) :=
  after_of_forall_not_mem _ _ (Writes.not_written hW hr)

theorem after_take_succ (k : ℕ) (op : HloOp τ sig Val) (hk : ops[k]? = some op) :
    after (ops.take (k + 1)) V = op.result (after (ops.take k) V) := by
  rw [List.take_succ, hk, StableHlo.after_append]
  rfl

include hW in
theorem at_nullary (k : ℕ) {y : Ref sig .tc} {v : y.ty.Contents Val} {hy}
    (hk : ops[k]? = some (nullary y v hy)) (wy : y ∉ rs.drop (k + 1)) :
    after ops V (Proc.devRef .tc y) = v := by
  rw [after_take ops rs hW V (k + 1) y wy, after_take_succ ops V k _ hk, nullary_result]

include hW in
theorem at_unary (k : ℕ) {x y : Ref sig .tc} {f : x.ty.Contents Val → y.ty.Contents Val} {hx hy}
    (hk : ops[k]? = some (unary x y f hx hy)) (wy : y ∉ rs.drop (k + 1)) (wx : x ∉ rs.drop k) :
    after ops V (Proc.devRef .tc y) = f (after ops V (Proc.devRef .tc x)) := by
  rw [after_take ops rs hW V (k + 1) y wy, after_take_succ ops V k _ hk, unary_result, ← after_take ops rs hW V k x wx]

include hW in
theorem at_binary (k : ℕ) {a b y : Ref sig .tc} {f : a.ty.Contents Val → b.ty.Contents Val → y.ty.Contents Val} {ha hb hy}
    (hk : ops[k]? = some (binary a b y f ha hb hy)) (wy : y ∉ rs.drop (k + 1)) (wa : a ∉ rs.drop k) (wb : b ∉ rs.drop k) :
    after ops V (Proc.devRef .tc y) = f (after ops V (Proc.devRef .tc a)) (after ops V (Proc.devRef .tc b)) := by
  rw [after_take ops rs hW V (k + 1) y wy, after_take_succ ops V k _ hk, binary_result, ← after_take ops rs hW V k a wa,
    ← after_take ops rs hW V k b wb]

include hW in
theorem at_reshape (k : ℕ) {x y : Ref sig .tc} {he hn hx hy}
    (hk : ops[k]? = some (reshape (Val := Val) x y he hn hx hy)) (wy : y ∉ rs.drop (k + 1)) (wx : x ∉ rs.drop k) :
    after ops V (Proc.devRef .tc y) = fun i => he ▸ shapeCast y.ty.shape (after ops V (Proc.devRef .tc x)) hn i := by
  rw [after_take ops rs hW V (k + 1) y wy, after_take_succ ops V k _ hk, reshape_result, ← after_take ops rs hW V k x wx]

end Cert.LibSsaAfter

end
-- ==== Proof.RefStages.lean ====
import proofs.«102340_j15058155339839_1_alg».proof.Proof.RefRun
import proofs.«102340_j15058155339839_1_alg».proof.Proof.LibSsaAfter
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

abbrev idx_main_v2 (i : S4x2048x1.Idx) : S4x2048.Idx := fun a => match a with
  | ⟨0, _⟩ => ⟨(i 0).val, (i 0).isLt⟩
  | ⟨1, _⟩ => ⟨(i 1).val, (i 1).isLt⟩

abbrev idx_main_call0_v1 (i : S4x2048x1.Idx) : S_.Idx := fun a => a.elim0

abbrev idx_main_v4 (i : S4x2048x1.Idx) : S_.Idx := fun a => a.elim0

abbrev idx_main_v6 (i : S4x2048x2048.Idx) : S4x2048x1.Idx := fun a => match a with
  | ⟨0, _⟩ => ⟨(i 0).val, (i 0).isLt⟩
  | ⟨1, _⟩ => ⟨(i 1).val, (i 1).isLt⟩
  | ⟨2, _⟩ => ⟨0, Nat.one_pos⟩

abbrev idx_main_call2_v1 (i : S4x2048x2048.Idx) : S_.Idx := fun a => a.elim0

abbrev idx_main_call2_v4 (i : S4x2048x2048.Idx) : S_.Idx := fun a => a.elim0

abbrev idx_main_v10 (i : S4x2048x2048.Idx) : S4x2048x1.Idx := fun a => match a with
  | ⟨0, _⟩ => ⟨(i 0).val, (i 0).isLt⟩
  | ⟨1, _⟩ => ⟨(i 1).val, (i 1).isLt⟩
  | ⟨2, _⟩ => ⟨0, Nat.one_pos⟩

abbrev idx_main_v14 (i : S5504x16x128.Idx) : S5504x2048.Idx := fun a => match a with
  | ⟨0, _⟩ => ⟨(((i 0).val * 16 + (i 1).val) * 128 + (i 2).val) / 2048, by have h0 : (i 0).val < 5504 := (i 0).isLt; have h1 : (i 1).val < 16 := (i 1).isLt; have h2 : (i 2).val < 128 := (i 2).isLt; show (((i 0).val * 16 + (i 1).val) * 128 + (i 2).val) / 2048 < 5504; omega⟩
  | ⟨1, _⟩ => ⟨(((i 0).val * 16 + (i 1).val) * 128 + (i 2).val) % 2048, by have h0 : (i 0).val < 5504 := (i 0).isLt; have h1 : (i 1).val < 16 := (i 1).isLt; have h2 : (i 2).val < 128 := (i 2).isLt; show (((i 0).val * 16 + (i 1).val) * 128 + (i 2).val) % 2048 < 2048; omega⟩

abbrev idx_main_v16 (i : S5504x16.Idx) (k : Fin 128) : S5504x16x128.Idx := fun a => match a with
  | ⟨0, _⟩ => ⟨(i 0).val, (i 0).isLt⟩
  | ⟨1, _⟩ => ⟨(i 1).val, (i 1).isLt⟩
  | ⟨2, _⟩ => ⟨k.val, k.isLt⟩

abbrev idx_main_v17 (i : S5504x16x1.Idx) : S5504x16.Idx := fun a => match a with
  | ⟨0, _⟩ => ⟨(i 0).val, (i 0).isLt⟩
  | ⟨1, _⟩ => ⟨(i 1).val, (i 1).isLt⟩

abbrev idx_main_v18 (i : S5504x16x1.Idx) : S_.Idx := fun a => a.elim0

abbrev idx_main_v20 (i : S5504x16x1.Idx) : S_.Idx := fun a => a.elim0

abbrev idx_main_v22 (i : S5504x16x128.Idx) : S5504x16x1.Idx := fun a => match a with
  | ⟨0, _⟩ => ⟨(i 0).val, (i 0).isLt⟩
  | ⟨1, _⟩ => ⟨(i 1).val, (i 1).isLt⟩
  | ⟨2, _⟩ => ⟨0, Nat.one_pos⟩

abbrev idx_main_call3_v1 (i : S5504x16x128.Idx) : S_.Idx := fun a => a.elim0

abbrev idx_main_call3_v4 (i : S5504x16x128.Idx) : S_.Idx := fun a => a.elim0

abbrev idx_main_v26 (i : S5504x16x128.Idx) : S5504x16x1.Idx := fun a => match a with
  | ⟨0, _⟩ => ⟨(i 0).val, (i 0).isLt⟩
  | ⟨1, _⟩ => ⟨(i 1).val, (i 1).isLt⟩
  | ⟨2, _⟩ => ⟨0, Nat.one_pos⟩

abbrev idx_main_v28 (i : S5504x2048.Idx) : S5504x16x128.Idx := fun a => match a with
  | ⟨0, _⟩ => ⟨((i 0).val * 2048 + (i 1).val) / 2048, by have h0 : (i 0).val < 5504 := (i 0).isLt; have h1 : (i 1).val < 2048 := (i 1).isLt; show ((i 0).val * 2048 + (i 1).val) / 2048 < 5504; omega⟩
  | ⟨1, _⟩ => ⟨((i 0).val * 2048 + (i 1).val) / 128 % 16, by have h0 : (i 0).val < 5504 := (i 0).isLt; have h1 : (i 1).val < 2048 := (i 1).isLt; show ((i 0).val * 2048 + (i 1).val) / 128 % 16 < 16; omega⟩
  | ⟨2, _⟩ => ⟨((i 0).val * 2048 + (i 1).val) % 128, by have h0 : (i 0).val < 5504 := (i 0).isLt; have h1 : (i 1).val < 2048 := (i 1).isLt; show ((i 0).val * 2048 + (i 1).val) % 128 < 128; omega⟩

abbrev lidx_main_v31 (i : S4x2048x5504.Idx) (k : Fin 2048) : S4x2048x2048.Idx := fun a => match a with
  | ⟨0, _⟩ => ⟨(i 0).val, (i 0).isLt⟩
  | ⟨1, _⟩ => ⟨(i 1).val, (i 1).isLt⟩
  | ⟨2, _⟩ => ⟨k.val, k.isLt⟩

abbrev ridx_main_v31 (i : S4x2048x5504.Idx) (k : Fin 2048) : S5504x2048.Idx := fun a => match a with
  | ⟨0, _⟩ => ⟨(i 2).val, (i 2).isLt⟩
  | ⟨1, _⟩ => ⟨k.val, k.isLt⟩

abbrev idx_main_call10_v2 (i : S4x2048x5504.Idx) : S_.Idx := fun a => a.elim0

abbrev idx_main_call10_v4 (i : S4x2048x5504.Idx) : S_.Idx := fun a => a.elim0

abbrev idx_main_v68 (i : S4x2048x1.Idx) : S4x2048.Idx := fun a => match a with
  | ⟨0, _⟩ => ⟨(i 0).val, (i 0).isLt⟩
  | ⟨1, _⟩ => ⟨(i 1).val, (i 1).isLt⟩

abbrev idx_main_call11_v1 (i : S4x2048x1.Idx) : S_.Idx := fun a => a.elim0

abbrev idx_main_v70 (i : S4x2048x1.Idx) : S_.Idx := fun a => a.elim0

abbrev idx_main_v72 (i : S4x2048x5504.Idx) : S4x2048x1.Idx := fun a => match a with
  | ⟨0, _⟩ => ⟨(i 0).val, (i 0).isLt⟩
  | ⟨1, _⟩ => ⟨(i 1).val, (i 1).isLt⟩
  | ⟨2, _⟩ => ⟨0, Nat.one_pos⟩

abbrev idx_main_call13_v1 (i : S4x2048x5504.Idx) : S_.Idx := fun a => a.elim0

abbrev idx_main_call13_v4 (i : S4x2048x5504.Idx) : S_.Idx := fun a => a.elim0

abbrev idx_main_v76 (i : S4x2048x5504.Idx) : S4x2048x1.Idx := fun a => match a with
  | ⟨0, _⟩ => ⟨(i 0).val, (i 0).isLt⟩
  | ⟨1, _⟩ => ⟨(i 1).val, (i 1).isLt⟩
  | ⟨2, _⟩ => ⟨0, Nat.one_pos⟩

abbrev idx_main_v80 (i : S2048x43x128.Idx) : S2048x5504.Idx := fun a => match a with
  | ⟨0, _⟩ => ⟨(((i 0).val * 43 + (i 1).val) * 128 + (i 2).val) / 5504, by have h0 : (i 0).val < 2048 := (i 0).isLt; have h1 : (i 1).val < 43 := (i 1).isLt; have h2 : (i 2).val < 128 := (i 2).isLt; show (((i 0).val * 43 + (i 1).val) * 128 + (i 2).val) / 5504 < 2048; omega⟩
  | ⟨1, _⟩ => ⟨(((i 0).val * 43 + (i 1).val) * 128 + (i 2).val) % 5504, by have h0 : (i 0).val < 2048 := (i 0).isLt; have h1 : (i 1).val < 43 := (i 1).isLt; have h2 : (i 2).val < 128 := (i 2).isLt; show (((i 0).val * 43 + (i 1).val) * 128 + (i 2).val) % 5504 < 5504; omega⟩

abbrev idx_main_v82 (i : S2048x43.Idx) (k : Fin 128) : S2048x43x128.Idx := fun a => match a with
  | ⟨0, _⟩ => ⟨(i 0).val, (i 0).isLt⟩
  | ⟨1, _⟩ => ⟨(i 1).val, (i 1).isLt⟩
  | ⟨2, _⟩ => ⟨k.val, k.isLt⟩

abbrev idx_main_v83 (i : S2048x43x1.Idx) : S2048x43.Idx := fun a => match a with
  | ⟨0, _⟩ => ⟨(i 0).val, (i 0).isLt⟩
  | ⟨1, _⟩ => ⟨(i 1).val, (i 1).isLt⟩

abbrev idx_main_v84 (i : S2048x43x1.Idx) : S_.Idx := fun a => a.elim0

abbrev idx_main_v86 (i : S2048x43x1.Idx) : S_.Idx := fun a => a.elim0

abbrev idx_main_v88 (i : S2048x43x128.Idx) : S2048x43x1.Idx := fun a => match a with
  | ⟨0, _⟩ => ⟨(i 0).val, (i 0).isLt⟩
  | ⟨1, _⟩ => ⟨(i 1).val, (i 1).isLt⟩
  | ⟨2, _⟩ => ⟨0, Nat.one_pos⟩

abbrev idx_main_call14_v1 (i : S2048x43x128.Idx) : S_.Idx := fun a => a.elim0

abbrev idx_main_call14_v4 (i : S2048x43x128.Idx) : S_.Idx := fun a => a.elim0

abbrev idx_main_v92 (i : S2048x43x128.Idx) : S2048x43x1.Idx := fun a => match a with
  | ⟨0, _⟩ => ⟨(i 0).val, (i 0).isLt⟩
  | ⟨1, _⟩ => ⟨(i 1).val, (i 1).isLt⟩
  | ⟨2, _⟩ => ⟨0, Nat.one_pos⟩

abbrev idx_main_v94 (i : S2048x5504.Idx) : S2048x43x128.Idx := fun a => match a with
  | ⟨0, _⟩ => ⟨((i 0).val * 5504 + (i 1).val) / 5504, by have h0 : (i 0).val < 2048 := (i 0).isLt; have h1 : (i 1).val < 5504 := (i 1).isLt; show ((i 0).val * 5504 + (i 1).val) / 5504 < 2048; omega⟩
  | ⟨1, _⟩ => ⟨((i 0).val * 5504 + (i 1).val) / 128 % 43, by have h0 : (i 0).val < 2048 := (i 0).isLt; have h1 : (i 1).val < 5504 := (i 1).isLt; show ((i 0).val * 5504 + (i 1).val) / 128 % 43 < 43; omega⟩
  | ⟨2, _⟩ => ⟨((i 0).val * 5504 + (i 1).val) % 128, by have h0 : (i 0).val < 2048 := (i 0).isLt; have h1 : (i 1).val < 5504 := (i 1).isLt; show ((i 0).val * 5504 + (i 1).val) % 128 < 128; omega⟩

abbrev lidx_main_v97 (i : S4x2048x2048.Idx) (k : Fin 5504) : S4x2048x5504.Idx := fun a => match a with
  | ⟨0, _⟩ => ⟨(i 0).val, (i 0).isLt⟩
  | ⟨1, _⟩ => ⟨(i 1).val, (i 1).isLt⟩
  | ⟨2, _⟩ => ⟨k.val, k.isLt⟩

abbrev ridx_main_v97 (i : S4x2048x2048.Idx) (k : Fin 5504) : S2048x5504.Idx := fun a => match a with
  | ⟨0, _⟩ => ⟨(i 2).val, (i 2).isLt⟩
  | ⟨1, _⟩ => ⟨k.val, k.isLt⟩

end Cert.ReferenceIdeal.Read

namespace Cert.ReferenceIdeal.Stages

open Cert.ReferenceIdeal Cert.ReferenceIdeal.Gen Idealize.ShloMosaic Idealize.ShloMosaic.TcCoe Idealize.SL.Sem Idealize.ShloMosaic.StableHlo
open Cert.LibSsaAfter Cert.ReferenceIdeal.Value Cert.ReferenceIdeal.Read

variable {F : FTy → Type} [FloatOps F]

abbrev Ws : List (Ref sig .tc) :=
  [main_v0, main_cst, main_v1, main_v2, main_cst_0, main_call0_v0, main_call0_v1, main_v3, main_cst_1, main_v4, main_v5, main_v6, main_v7, main_v8, main_cst_2, main_cst_3, main_call2_v0, main_call2_v1, main_call2_v2, main_call2_v3, main_call2_v4, main_v9, main_v10, main_v11, main_v12, main_v13, main_v14, main_v15, main_cst_4, main_v16, main_v17, main_cst_5, main_v18, main_v19, main_cst_6, main_v20, main_v21, main_v22, main_v23, main_cst_7, main_cst_8, main_call3_v0, main_call3_v1, main_call3_v2, main_call3_v3, main_call3_v4, main_v24, main_v25, main_v26, main_v27, main_v28, main_v29, main_v30, main_v31, main_v32, main_cst_9, main_v33, main_v34, main_cst_10, main_call5_v0, main_call5_v1, main_v35, main_cst_11, main_v36, main_v37, main_v38, main_v39, main_v40, main_cst_12, main_cst_13, main_call7_v0, main_call7_v1, main_call7_v2, main_call7_v3, main_call7_v4, main_v41, main_v42, main_v43, main_v44, main_v45, main_v46, main_v47, main_cst_14, main_v48, main_v49, main_cst_15, main_v50, main_v51, main_cst_16, main_v52, main_v53, main_v54, main_v55, main_cst_17, main_cst_18, main_call8_v0, main_call8_v1, main_call8_v2, main_call8_v3, main_call8_v4, main_v56, main_v57, main_v58, main_v59, main_v60, main_v61, main_v62, main_v63, main_call10_v0, main_call10_v1, main_call10_cst, main_call10_v2, main_call10_v3, main_call10_cst_0, main_call10_v4, main_call10_v5, main_v64, main_v65, main_v66, main_cst_19, main_v67, main_v68, main_cst_20, main_call11_v0, main_call11_v1, main_v69, main_cst_21, main_v70, main_v71, main_v72, main_v73, main_v74, main_cst_22, main_cst_23, main_call13_v0, main_call13_v1, main_call13_v2, main_call13_v3, main_call13_v4, main_v75, main_v76, main_v77, main_v78, main_v79, main_v80, main_v81, main_cst_24, main_v82, main_v83, main_cst_25, main_v84, main_v85, main_cst_26, main_v86, main_v87, main_v88, main_v89, main_cst_27, main_cst_28, main_call14_v0, main_call14_v1, main_call14_v2, main_call14_v3, main_call14_v4, main_v90, main_v91, main_v92, main_v93, main_v94, main_v95, main_v96, main_v97]

set_option maxHeartbeats 4000000 in
theorem hW : Writes (τ := τ) (ops (F := F)) Ws :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

variable (V : Valuation τ sig (Elt F))

def W (b : Ref sig .tc) := after (ops (F := F)) V (Proc.devRef .tc b)
abbrev a0 := V (Proc.devRef .tc main_arg0)
abbrev a1 := V (Proc.devRef .tc main_arg1)
abbrev a2 := V (Proc.devRef .tc main_arg2)
abbrev a3 := V (Proc.devRef .tc main_arg3)

theorem W_arg (r : Ref sig .tc) (hr : r ∉ Ws) : W V r = V (Proc.devRef .tc r) := after_unwritten _ _ hW V r hr
theorem W_nullary (k : ℕ) {y : Ref sig .tc} {v : y.ty.Contents (Elt F)} {hy} (hk : (ops (F := F))[k]? = some (nullary y v hy))
    (wy : y ∉ Ws.drop (k + 1)) : W V y = v := at_nullary _ _ hW V k hk wy
theorem W_unary (k : ℕ) {x y : Ref sig .tc} {f : x.ty.Contents (Elt F) → y.ty.Contents (Elt F)} {hx hy}
    (hk : (ops (F := F))[k]? = some (unary x y f hx hy)) (wy : y ∉ Ws.drop (k + 1)) (wx : x ∉ Ws.drop k) :
    W V y = f (W V x) := at_unary _ _ hW V k hk wy wx
theorem W_binary (k : ℕ) {a b y : Ref sig .tc} {f : a.ty.Contents (Elt F) → b.ty.Contents (Elt F) → y.ty.Contents (Elt F)} {ha hb hy}
    (hk : (ops (F := F))[k]? = some (binary a b y f ha hb hy)) (wy : y ∉ Ws.drop (k + 1)) (wa : a ∉ Ws.drop k) (wb : b ∉ Ws.drop k) :
    W V y = f (W V a) (W V b) := at_binary _ _ hW V k hk wy wa wb
theorem W_reshape (k : ℕ) {x y : Ref sig .tc} {he hn hx hy} (hk : (ops (F := F))[k]? = some (reshape (Val := Elt F) x y he hn hx hy))
    (wy : y ∉ Ws.drop (k + 1)) (wx : x ∉ Ws.drop k) :
    W V y = fun i => he ▸ shapeCast y.ty.shape (W V x) hn i := at_reshape _ _ hW V k hk wy wx

theorem s_main_arg0 : W V main_arg0 = a0 V :=
  W_arg V main_arg0 (by decide)
theorem s_main_arg1 : W V main_arg1 = a1 V :=
  W_arg V main_arg1 (by decide)
theorem s_main_arg2 : W V main_arg2 = a2 V :=
  W_arg V main_arg2 (by decide)
theorem s_main_arg3 : W V main_arg3 = a3 V :=
  W_arg V main_arg3 (by decide)

theorem r_main_v0 : W V main_v0 = Host.absf (a0 V) := by
  rw [W_unary V 0 rfl (by decide) (by decide), s_main_arg0]

theorem r_main_cst : W V main_cst = constant S_ .f32 0xFF800000#32 := by
  rw [W_nullary V 1 rfl (by decide)]

theorem r_main_v1 : W V main_v1 = Host.reduce FloatOps.maximumf (W V main_v0) (W V main_cst) reducesTo_S4x2048x2048_S4x2048_d2 h_S_ := by
  rw [W_binary V 2 rfl (by decide) (by decide) (by decide)]

theorem r_main_v2 (i : S4x2048x1.Idx) :
    W V main_v2 i = W V main_v1 (idx_main_v2 i) := by
  rw [W_unary V 3 rfl (by decide) (by decide)]
  generalize W V main_v1 = y
  exact broadcastInDim_apply _ bcast_S4x2048_S4x2048x1_0_1 y i (idx_main_v2 i) (fun a => match a with
    | ⟨0, _⟩ => by show (i 0).val = if (4 : Nat) = 1 then 0 else (i 0).val; rw [if_neg (by decide)]
    | ⟨1, _⟩ => by show (i 1).val = if (2048 : Nat) = 1 then 0 else (i 1).val; rw [if_neg (by decide)])

theorem r_main_cst_0 (i : S_.Idx) :
    W V main_cst_0 i = FloatOps.ofBits .f32 0x3727C5AC#32 := by
  rw [W_nullary V 4 rfl (by decide)]; rfl

theorem r_main_call0_v0 (i : S_.Idx) :
    W V main_call0_v0 i = (W V main_cst_0 i) := by
  rw [W_unary V 5 rfl (by decide) (by decide)]; rfl

theorem r_main_call0_v1 (i : S4x2048x1.Idx) :
    W V main_call0_v1 i = W V main_call0_v0 (idx_main_call0_v1 i) := by
  rw [W_unary V 6 rfl (by decide) (by decide)]
  generalize W V main_call0_v0 = y
  exact broadcastInDim_apply _ bcast_S_S4x2048x1 y i (idx_main_call0_v1 i) (fun a => a.elim0)

theorem r_main_v3 (i : S4x2048x1.Idx) :
    W V main_v3 i = FloatOps.maximumf (W V main_call0_v1 i) (W V main_v2 i) := by
  rw [W_binary V 7 rfl (by decide) (by decide) (by decide)]
  generalize W V main_call0_v1 = za
  generalize W V main_v2 = zb
  rw [show (TRef.of (T := ⟨S4x2048x1, .f32⟩) main_call0_v1).ofBuf za = za from rfl, show (TRef.of (T := ⟨S4x2048x1, .f32⟩) main_v2).ofBuf zb = zb from rfl]
  exact congrFun (cast_eq _ _) i

theorem r_main_cst_1 (i : S_.Idx) :
    W V main_cst_1 i = FloatOps.ofBits .f32 0x42FE0000#32 := by
  rw [W_nullary V 8 rfl (by decide)]; rfl

theorem r_main_v4 (i : S4x2048x1.Idx) :
    W V main_v4 i = W V main_cst_1 (idx_main_v4 i) := by
  rw [W_unary V 9 rfl (by decide) (by decide)]
  generalize W V main_cst_1 = y
  exact broadcastInDim_apply _ bcast_S_S4x2048x1 y i (idx_main_v4 i) (fun a => a.elim0)

theorem r_main_v5 (i : S4x2048x1.Idx) :
    W V main_v5 i = FloatOps.hostDivf (W V main_v4 i) (W V main_v3 i) := by
  rw [W_binary V 10 rfl (by decide) (by decide) (by decide)]; rfl

theorem r_main_v6 (i : S4x2048x2048.Idx) :
    W V main_v6 i = W V main_v5 (idx_main_v6 i) := by
  rw [W_unary V 11 rfl (by decide) (by decide)]
  generalize W V main_v5 = y
  exact broadcastInDim_apply _ bcast_S4x2048x1_S4x2048x2048_0_1_2 y i (idx_main_v6 i) (fun a => match a with
    | ⟨0, _⟩ => by show (i 0).val = if (4 : Nat) = 1 then 0 else (i 0).val; rw [if_neg (by decide)]
    | ⟨1, _⟩ => by show (i 1).val = if (2048 : Nat) = 1 then 0 else (i 1).val; rw [if_neg (by decide)]
    | ⟨2, _⟩ => by show 0 = if (1 : Nat) = 1 then 0 else (i 2).val; rw [if_pos rfl])

theorem r_main_v7 (i : S4x2048x2048.Idx) :
    W V main_v7 i = FloatOps.mulf (a0 V i) (W V main_v6 i) := by
  rw [W_binary V 12 rfl (by decide) (by decide) (by decide), s_main_arg0]; rfl

theorem r_main_v8 (i : S4x2048x2048.Idx) :
    W V main_v8 i = FloatOps.hostUnary .roundeven (W V main_v7 i) := by
  rw [W_unary V 13 rfl (by decide) (by decide)]; rfl

theorem r_main_cst_2 (i : S_.Idx) :
    W V main_cst_2 i = FloatOps.ofBits .f32 0xC3000000#32 := by
  rw [W_nullary V 14 rfl (by decide)]; rfl

theorem r_main_cst_3 (i : S_.Idx) :
    W V main_cst_3 i = FloatOps.ofBits .f32 0x42FE0000#32 := by
  rw [W_nullary V 15 rfl (by decide)]; rfl

theorem r_main_call2_v0 (i : S_.Idx) :
    W V main_call2_v0 i = (W V main_cst_2 i) := by
  rw [W_unary V 16 rfl (by decide) (by decide)]; rfl

theorem r_main_call2_v1 (i : S4x2048x2048.Idx) :
    W V main_call2_v1 i = W V main_call2_v0 (idx_main_call2_v1 i) := by
  rw [W_unary V 17 rfl (by decide) (by decide)]
  generalize W V main_call2_v0 = y
  exact broadcastInDim_apply _ bcast_S_S4x2048x2048 y i (idx_main_call2_v1 i) (fun a => a.elim0)

theorem r_main_call2_v2 (i : S4x2048x2048.Idx) :
    W V main_call2_v2 i = FloatOps.maximumf (W V main_call2_v1 i) (W V main_v8 i) := by
  rw [W_binary V 18 rfl (by decide) (by decide) (by decide)]; rfl

theorem r_main_call2_v3 (i : S_.Idx) :
    W V main_call2_v3 i = (W V main_cst_3 i) := by
  rw [W_unary V 19 rfl (by decide) (by decide)]; rfl

theorem r_main_call2_v4 (i : S4x2048x2048.Idx) :
    W V main_call2_v4 i = W V main_call2_v3 (idx_main_call2_v4 i) := by
  rw [W_unary V 20 rfl (by decide) (by decide)]
  generalize W V main_call2_v3 = y
  exact broadcastInDim_apply _ bcast_S_S4x2048x2048 y i (idx_main_call2_v4 i) (fun a => a.elim0)

theorem r_main_v9 (i : S4x2048x2048.Idx) :
    W V main_v9 i = FloatOps.minimumf (W V main_call2_v4 i) (W V main_call2_v2 i) := by
  rw [W_binary V 21 rfl (by decide) (by decide) (by decide)]; rfl

theorem r_main_v10 (i : S4x2048x2048.Idx) :
    W V main_v10 i = W V main_v5 (idx_main_v10 i) := by
  rw [W_unary V 22 rfl (by decide) (by decide)]
  generalize W V main_v5 = y
  exact broadcastInDim_apply _ bcast_S4x2048x1_S4x2048x2048_0_1_2 y i (idx_main_v10 i) (fun a => match a with
    | ⟨0, _⟩ => by show (i 0).val = if (4 : Nat) = 1 then 0 else (i 0).val; rw [if_neg (by decide)]
    | ⟨1, _⟩ => by show (i 1).val = if (2048 : Nat) = 1 then 0 else (i 1).val; rw [if_neg (by decide)]
    | ⟨2, _⟩ => by show 0 = if (1 : Nat) = 1 then 0 else (i 2).val; rw [if_pos rfl])

theorem r_main_v11 (i : S4x2048x2048.Idx) :
    W V main_v11 i = FloatOps.hostDivf (W V main_v9 i) (W V main_v10 i) := by
  rw [W_binary V 23 rfl (by decide) (by decide) (by decide)]; rfl

theorem r_main_v12 (i : S4x2048x2048.Idx) :
    W V main_v12 i = FloatOps.subf (W V main_v11 i) (a0 V i) := by
  rw [W_binary V 24 rfl (by decide) (by decide) (by decide), s_main_arg0]; rfl

theorem r_main_v13 (i : S4x2048x2048.Idx) :
    W V main_v13 i = FloatOps.addf (a0 V i) (W V main_v12 i) := by
  rw [W_binary V 25 rfl (by decide) (by decide) (by decide), s_main_arg0]; rfl

theorem r_main_v14 (i : S5504x16x128.Idx) :
    W V main_v14 i = a1 V (idx_main_v14 i) := by
  rw [W_reshape V 26 rfl (by decide) (by decide), s_main_arg1]
  exact shapeCast_apply (s := S5504x2048) (a1 V) shapeCasts_S5504x2048_S5504x16x128 i (idx_main_v14 i)
    (by rewrite [Shape.rowMajor_val_two, Shape.rowMajor_val_three]; have h0 : (i 0).val < 5504 := (i 0).isLt; have h1 : (i 1).val < 16 := (i 1).isLt; have h2 : (i 2).val < 128 := (i 2).isLt; show (((i 0).val * 16 + (i 1).val) * 128 + (i 2).val) / 2048 * 2048 + (((i 0).val * 16 + (i 1).val) * 128 + (i 2).val) % 2048 = ((i 0).val * 16 + (i 1).val) * 128 + (i 2).val; omega)

theorem r_main_v15 (i : S5504x16x128.Idx) :
    W V main_v15 i = FloatOps.hostAbsf (W V main_v14 i) := by
  rw [W_unary V 27 rfl (by decide) (by decide)]; rfl

theorem r_main_cst_4 (i : S_.Idx) :
    W V main_cst_4 i = FloatOps.ofBits .f32 0x00000000#32 := by
  rw [W_nullary V 28 rfl (by decide)]; rfl

theorem r_main_v16 (V : Valuation τ sig (Elt Ideal)) (i : S5504x16.Idx) :
    @Eq EReal (W V main_v16 i) (@HAdd.hAdd EReal EReal EReal _ (W V main_cst_4 (Shape.Idx.first h_S_))
      (@Finset.sum _ EReal _ Finset.univ fun k : Fin 128 => W V main_v15 (idx_main_v16 i k))) := by
  rw [W_binary V 29 rfl (by decide) (by decide) (by decide)]
  generalize W V main_v15 = y0
  simp only [Host.reduceAdd, Ideal.hostReduceAdd_def]
  rw [Ideal.hostReduceAdd_single reducesTo_S5504x16x128_S5504x16_d2 (by decide)]
  refine congrArg _ (Finset.sum_congr rfl fun k _ => ?_)
  exact congrArg y0 (funext fun a => Fin.ext (by match a with | ⟨0, _⟩ => rfl | ⟨1, _⟩ => rfl | ⟨2, _⟩ => rfl))

theorem r_main_v17 (i : S5504x16x1.Idx) :
    W V main_v17 i = W V main_v16 (idx_main_v17 i) := by
  rw [W_unary V 30 rfl (by decide) (by decide)]
  generalize W V main_v16 = y
  exact broadcastInDim_apply _ bcast_S5504x16_S5504x16x1_0_1 y i (idx_main_v17 i) (fun a => match a with
    | ⟨0, _⟩ => by show (i 0).val = if (5504 : Nat) = 1 then 0 else (i 0).val; rw [if_neg (by decide)]
    | ⟨1, _⟩ => by show (i 1).val = if (16 : Nat) = 1 then 0 else (i 1).val; rw [if_neg (by decide)])

theorem r_main_cst_5 (i : S_.Idx) :
    W V main_cst_5 i = FloatOps.ofBits .f32 0x43000000#32 := by
  rw [W_nullary V 31 rfl (by decide)]; rfl

theorem r_main_v18 (i : S5504x16x1.Idx) :
    W V main_v18 i = W V main_cst_5 (idx_main_v18 i) := by
  rw [W_unary V 32 rfl (by decide) (by decide)]
  generalize W V main_cst_5 = y
  exact broadcastInDim_apply _ bcast_S_S5504x16x1 y i (idx_main_v18 i) (fun a => a.elim0)

theorem r_main_v19 (i : S5504x16x1.Idx) :
    W V main_v19 i = FloatOps.hostDivf (W V main_v17 i) (W V main_v18 i) := by
  rw [W_binary V 33 rfl (by decide) (by decide) (by decide)]; rfl

theorem r_main_cst_6 (i : S_.Idx) :
    W V main_cst_6 i = FloatOps.ofBits .f32 0x3727C5AC#32 := by
  rw [W_nullary V 34 rfl (by decide)]; rfl

theorem r_main_v20 (i : S5504x16x1.Idx) :
    W V main_v20 i = W V main_cst_6 (idx_main_v20 i) := by
  rw [W_unary V 35 rfl (by decide) (by decide)]
  generalize W V main_cst_6 = y
  exact broadcastInDim_apply _ bcast_S_S5504x16x1 y i (idx_main_v20 i) (fun a => a.elim0)

theorem r_main_v21 (i : S5504x16x1.Idx) :
    W V main_v21 i = FloatOps.addf (W V main_v19 i) (W V main_v20 i) := by
  rw [W_binary V 36 rfl (by decide) (by decide) (by decide)]; rfl

theorem r_main_v22 (i : S5504x16x128.Idx) :
    W V main_v22 i = W V main_v21 (idx_main_v22 i) := by
  rw [W_unary V 37 rfl (by decide) (by decide)]
  generalize W V main_v21 = y
  exact broadcastInDim_apply _ bcast_S5504x16x1_S5504x16x128_0_1_2 y i (idx_main_v22 i) (fun a => match a with
    | ⟨0, _⟩ => by show (i 0).val = if (5504 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl])

theorem r_main_v23 (i : S5504x16x128.Idx) :
    W V main_v23 i = FloatOps.hostDivf (W V main_v14 i) (W V main_v22 i) := by
  rw [W_binary V 38 rfl (by decide) (by decide) (by decide)]; rfl

theorem r_main_cst_7 (i : S_.Idx) :
    W V main_cst_7 i = FloatOps.ofBits .f32 0xBF800000#32 := by
  rw [W_nullary V 39 rfl (by decide)]; rfl

theorem r_main_cst_8 (i : S_.Idx) :
    W V main_cst_8 i = FloatOps.ofBits .f32 0x3F800000#32 := by
  rw [W_nullary V 40 rfl (by decide)]; rfl

theorem r_main_call3_v0 (i : S_.Idx) :
    W V main_call3_v0 i = (W V main_cst_7 i) := by
  rw [W_unary V 41 rfl (by decide) (by decide)]; rfl

theorem r_main_call3_v1 (i : S5504x16x128.Idx) :
    W V main_call3_v1 i = W V main_call3_v0 (idx_main_call3_v1 i) := by
  rw [W_unary V 42 rfl (by decide) (by decide)]
  generalize W V main_call3_v0 = y
  exact broadcastInDim_apply _ bcast_S_S5504x16x128 y i (idx_main_call3_v1 i) (fun a => a.elim0)

theorem r_main_call3_v2 (i : S5504x16x128.Idx) :
    W V main_call3_v2 i = FloatOps.maximumf (W V main_call3_v1 i) (W V main_v23 i) := by
  rw [W_binary V 43 rfl (by decide) (by decide) (by decide)]; rfl

theorem r_main_call3_v3 (i : S_.Idx) :
    W V main_call3_v3 i = (W V main_cst_8 i) := by
  rw [W_unary V 44 rfl (by decide) (by decide)]; rfl

theorem r_main_call3_v4 (i : S5504x16x128.Idx) :
    W V main_call3_v4 i = W V main_call3_v3 (idx_main_call3_v4 i) := by
  rw [W_unary V 45 rfl (by decide) (by decide)]
  generalize W V main_call3_v3 = y
  exact broadcastInDim_apply _ bcast_S_S5504x16x128 y i (idx_main_call3_v4 i) (fun a => a.elim0)

theorem r_main_v24 (i : S5504x16x128.Idx) :
    W V main_v24 i = FloatOps.minimumf (W V main_call3_v4 i) (W V main_call3_v2 i) := by
  rw [W_binary V 46 rfl (by decide) (by decide) (by decide)]; rfl

theorem r_main_v25 (i : S5504x16x128.Idx) :
    W V main_v25 i = FloatOps.hostUnary .roundeven (W V main_v24 i) := by
  rw [W_unary V 47 rfl (by decide) (by decide)]; rfl

theorem r_main_v26 (i : S5504x16x128.Idx) :
    W V main_v26 i = W V main_v21 (idx_main_v26 i) := by
  rw [W_unary V 48 rfl (by decide) (by decide)]
  generalize W V main_v21 = y
  exact broadcastInDim_apply _ bcast_S5504x16x1_S5504x16x128_0_1_2 y i (idx_main_v26 i) (fun a => match a with
    | ⟨0, _⟩ => by show (i 0).val = if (5504 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl])

theorem r_main_v27 (i : S5504x16x128.Idx) :
    W V main_v27 i = FloatOps.mulf (W V main_v25 i) (W V main_v26 i) := by
  rw [W_binary V 49 rfl (by decide) (by decide) (by decide)]; rfl

theorem r_main_v28 (i : S5504x2048.Idx) :
    W V main_v28 i = W V main_v27 (idx_main_v28 i) := by
  rw [W_reshape V 50 rfl (by decide) (by decide)]
  generalize W V main_v27 = y
  exact shapeCast_apply (s := S5504x16x128) y shapeCasts_S5504x16x128_S5504x2048 i (idx_main_v28 i)
    (by rewrite [Shape.rowMajor_val_three, Shape.rowMajor_val_two]; have h0 : (i 0).val < 5504 := (i 0).isLt; have h1 : (i 1).val < 2048 := (i 1).isLt; show (((i 0).val * 2048 + (i 1).val) / 2048 * 16 + ((i 0).val * 2048 + (i 1).val) / 128 % 16) * 128 + ((i 0).val * 2048 + (i 1).val) % 128 = (i 0).val * 2048 + (i 1).val; omega)

theorem r_main_v29 (i : S5504x2048.Idx) :
    W V main_v29 i = FloatOps.subf (W V main_v28 i) (a1 V i) := by
  rw [W_binary V 51 rfl (by decide) (by decide) (by decide), s_main_arg1]; rfl

theorem r_main_v30 (i : S5504x2048.Idx) :
    W V main_v30 i = FloatOps.addf (a1 V i) (W V main_v29 i) := by
  rw [W_binary V 52 rfl (by decide) (by decide) (by decide), s_main_arg1]; rfl

theorem r_main_v31 (V : Valuation τ sig (Elt Ideal)) (i : S4x2048x5504.Idx) :
    @Eq EReal (W V main_v31 i) (@Finset.sum _ EReal _ Finset.univ fun k : Fin 2048 =>
      @HMul.hMul EReal EReal EReal _ (W V main_v13 (lidx_main_v31 i k)) (W V main_v30 (ridx_main_v31 i k))) := by
  rw [W_binary V 53 rfl (by decide) (by decide) (by decide)]
  generalize W V main_v13 = y0
  generalize W V main_v30 = y1
  simp only [Host.dotGeneral]
  rw [Ideal.dotGeneral_apply, ← Equiv.sum_comp (ValueIdx.contrEquiv1 dot_S4x2048x2048_S5504x2048_S4x2048x5504_2_1_01_0_n_n 2048 rfl rfl).symm]
  refine Finset.sum_congr rfl fun k _ => ?_
  have hk := ValueIdx.contrEquiv1_symm_val dot_S4x2048x2048_S5504x2048_S4x2048x5504_2_1_01_0_n_n 2048 rfl rfl k
  have el : dot_S4x2048x2048_S5504x2048_S4x2048x5504_2_1_01_0_n_n.lhsIdx i ((ValueIdx.contrEquiv1 dot_S4x2048x2048_S5504x2048_S4x2048x5504_2_1_01_0_n_n 2048 rfl rfl).symm k) = lidx_main_v31 i k := funext fun a => Fin.ext (by
    match a with
    | ⟨0, _⟩ => rfl
    | ⟨1, _⟩ => rfl
    | ⟨2, _⟩ => exact hk)
  have er : dot_S4x2048x2048_S5504x2048_S4x2048x5504_2_1_01_0_n_n.rhsIdx i ((ValueIdx.contrEquiv1 dot_S4x2048x2048_S5504x2048_S4x2048x5504_2_1_01_0_n_n 2048 rfl rfl).symm k) = ridx_main_v31 i k := funext fun a => Fin.ext (by
    match a with
    | ⟨0, _⟩ => rfl
    | ⟨1, _⟩ => exact hk)
  rw [el, er]

theorem r_main_v46 (i : S5504x16x128.Idx) :
    W V main_v46 i = a2 V (idx_main_v14 i) := by
  rw [W_reshape V 80 rfl (by decide) (by decide), s_main_arg2]
  exact shapeCast_apply (s := S5504x2048) (a2 V) shapeCasts_S5504x2048_S5504x16x128 i (idx_main_v14 i)
    (by rewrite [Shape.rowMajor_val_two, Shape.rowMajor_val_three]; have h0 : (i 0).val < 5504 := (i 0).isLt; have h1 : (i 1).val < 16 := (i 1).isLt; have h2 : (i 2).val < 128 := (i 2).isLt; show (((i 0).val * 16 + (i 1).val) * 128 + (i 2).val) / 2048 * 2048 + (((i 0).val * 16 + (i 1).val) * 128 + (i 2).val) % 2048 = ((i 0).val * 16 + (i 1).val) * 128 + (i 2).val; omega)

theorem r_main_v47 (i : S5504x16x128.Idx) :
    W V main_v47 i = FloatOps.hostAbsf (W V main_v46 i) := by
  rw [W_unary V 81 rfl (by decide) (by decide)]; rfl

theorem r_main_cst_14 (i : S_.Idx) :
    W V main_cst_14 i = FloatOps.ofBits .f32 0x00000000#32 := by
  rw [W_nullary V 82 rfl (by decide)]; rfl

theorem r_main_v48 (V : Valuation τ sig (Elt Ideal)) (i : S5504x16.Idx) :
    @Eq EReal (W V main_v48 i) (@HAdd.hAdd EReal EReal EReal _ (W V main_cst_14 (Shape.Idx.first h_S_))
      (@Finset.sum _ EReal _ Finset.univ fun k : Fin 128 => W V main_v47 (idx_main_v16 i k))) := by
  rw [W_binary V 83 rfl (by decide) (by decide) (by decide)]
  generalize W V main_v47 = y0
  simp only [Host.reduceAdd, Ideal.hostReduceAdd_def]
  rw [Ideal.hostReduceAdd_single reducesTo_S5504x16x128_S5504x16_d2 (by decide)]
  refine congrArg _ (Finset.sum_congr rfl fun k _ => ?_)
  exact congrArg y0 (funext fun a => Fin.ext (by match a with | ⟨0, _⟩ => rfl | ⟨1, _⟩ => rfl | ⟨2, _⟩ => rfl))

theorem r_main_v49 (i : S5504x16x1.Idx) :
    W V main_v49 i = W V main_v48 (idx_main_v17 i) := by
  rw [W_unary V 84 rfl (by decide) (by decide)]
  generalize W V main_v48 = y
  exact broadcastInDim_apply _ bcast_S5504x16_S5504x16x1_0_1 y i (idx_main_v17 i) (fun a => match a with
    | ⟨0, _⟩ => by show (i 0).val = if (5504 : Nat) = 1 then 0 else (i 0).val; rw [if_neg (by decide)]
    | ⟨1, _⟩ => by show (i 1).val = if (16 : Nat) = 1 then 0 else (i 1).val; rw [if_neg (by decide)])

theorem r_main_cst_15 (i : S_.Idx) :
    W V main_cst_15 i = FloatOps.ofBits .f32 0x43000000#32 := by
  rw [W_nullary V 85 rfl (by decide)]; rfl

theorem r_main_v50 (i : S5504x16x1.Idx) :
    W V main_v50 i = W V main_cst_15 (idx_main_v18 i) := by
  rw [W_unary V 86 rfl (by decide) (by decide)]
  generalize W V main_cst_15 = y
  exact broadcastInDim_apply _ bcast_S_S5504x16x1 y i (idx_main_v18 i) (fun a => a.elim0)

theorem r_main_v51 (i : S5504x16x1.Idx) :
    W V main_v51 i = FloatOps.hostDivf (W V main_v49 i) (W V main_v50 i) := by
  rw [W_binary V 87 rfl (by decide) (by decide) (by decide)]; rfl

theorem r_main_cst_16 (i : S_.Idx) :
    W V main_cst_16 i = FloatOps.ofBits .f32 0x3727C5AC#32 := by
  rw [W_nullary V 88 rfl (by decide)]; rfl

theorem r_main_v52 (i : S5504x16x1.Idx) :
    W V main_v52 i = W V main_cst_16 (idx_main_v20 i) := by
  rw [W_unary V 89 rfl (by decide) (by decide)]
  generalize W V main_cst_16 = y
  exact broadcastInDim_apply _ bcast_S_S5504x16x1 y i (idx_main_v20 i) (fun a => a.elim0)

theorem r_main_v53 (i : S5504x16x1.Idx) :
    W V main_v53 i = FloatOps.addf (W V main_v51 i) (W V main_v52 i) := by
  rw [W_binary V 90 rfl (by decide) (by decide) (by decide)]; rfl

theorem r_main_v54 (i : S5504x16x128.Idx) :
    W V main_v54 i = W V main_v53 (idx_main_v22 i) := by
  rw [W_unary V 91 rfl (by decide) (by decide)]
  generalize W V main_v53 = y
  exact broadcastInDim_apply _ bcast_S5504x16x1_S5504x16x128_0_1_2 y i (idx_main_v22 i) (fun a => match a with
    | ⟨0, _⟩ => by show (i 0).val = if (5504 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl])

theorem r_main_v55 (i : S5504x16x128.Idx) :
    W V main_v55 i = FloatOps.hostDivf (W V main_v46 i) (W V main_v54 i) := by
  rw [W_binary V 92 rfl (by decide) (by decide) (by decide)]; rfl

theorem r_main_cst_17 (i : S_.Idx) :
    W V main_cst_17 i = FloatOps.ofBits .f32 0xBF800000#32 := by
  rw [W_nullary V 93 rfl (by decide)]; rfl

theorem r_main_cst_18 (i : S_.Idx) :
    W V main_cst_18 i = FloatOps.ofBits .f32 0x3F800000#32 := by
  rw [W_nullary V 94 rfl (by decide)]; rfl

theorem r_main_call8_v0 (i : S_.Idx) :
    W V main_call8_v0 i = (W V main_cst_17 i) := by
  rw [W_unary V 95 rfl (by decide) (by decide)]; rfl

theorem r_main_call8_v1 (i : S5504x16x128.Idx) :
    W V main_call8_v1 i = W V main_call8_v0 (idx_main_call3_v1 i) := by
  rw [W_unary V 96 rfl (by decide) (by decide)]
  generalize W V main_call8_v0 = y
  exact broadcastInDim_apply _ bcast_S_S5504x16x128 y i (idx_main_call3_v1 i) (fun a => a.elim0)

theorem r_main_call8_v2 (i : S5504x16x128.Idx) :
    W V main_call8_v2 i = FloatOps.maximumf (W V main_call8_v1 i) (W V main_v55 i) := by
  rw [W_binary V 97 rfl (by decide) (by decide) (by decide)]; rfl

theorem r_main_call8_v3 (i : S_.Idx) :
    W V main_call8_v3 i = (W V main_cst_18 i) := by
  rw [W_unary V 98 rfl (by decide) (by decide)]; rfl

theorem r_main_call8_v4 (i : S5504x16x128.Idx) :
    W V main_call8_v4 i = W V main_call8_v3 (idx_main_call3_v4 i) := by
  rw [W_unary V 99 rfl (by decide) (by decide)]
  generalize W V main_call8_v3 = y
  exact broadcastInDim_apply _ bcast_S_S5504x16x128 y i (idx_main_call3_v4 i) (fun a => a.elim0)

theorem r_main_v56 (i : S5504x16x128.Idx) :
    W V main_v56 i = FloatOps.minimumf (W V main_call8_v4 i) (W V main_call8_v2 i) := by
  rw [W_binary V 100 rfl (by decide) (by decide) (by decide)]; rfl

theorem r_main_v57 (i : S5504x16x128.Idx) :
    W V main_v57 i = FloatOps.hostUnary .roundeven (W V main_v56 i) := by
  rw [W_unary V 101 rfl (by decide) (by decide)]; rfl

theorem r_main_v58 (i : S5504x16x128.Idx) :
    W V main_v58 i = W V main_v53 (idx_main_v26 i) := by
  rw [W_unary V 102 rfl (by decide) (by decide)]
  generalize W V main_v53 = y
  exact broadcastInDim_apply _ bcast_S5504x16x1_S5504x16x128_0_1_2 y i (idx_main_v26 i) (fun a => match a with
    | ⟨0, _⟩ => by show (i 0).val = if (5504 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl])

theorem r_main_v59 (i : S5504x16x128.Idx) :
    W V main_v59 i = FloatOps.mulf (W V main_v57 i) (W V main_v58 i) := by
  rw [W_binary V 103 rfl (by decide) (by decide) (by decide)]; rfl

theorem r_main_v60 (i : S5504x2048.Idx) :
    W V main_v60 i = W V main_v59 (idx_main_v28 i) := by
  rw [W_reshape V 104 rfl (by decide) (by decide)]
  generalize W V main_v59 = y
  exact shapeCast_apply (s := S5504x16x128) y shapeCasts_S5504x16x128_S5504x2048 i (idx_main_v28 i)
    (by rewrite [Shape.rowMajor_val_three, Shape.rowMajor_val_two]; have h0 : (i 0).val < 5504 := (i 0).isLt; have h1 : (i 1).val < 2048 := (i 1).isLt; show (((i 0).val * 2048 + (i 1).val) / 2048 * 16 + ((i 0).val * 2048 + (i 1).val) / 128 % 16) * 128 + ((i 0).val * 2048 + (i 1).val) % 128 = (i 0).val * 2048 + (i 1).val; omega)

theorem r_main_v61 (i : S5504x2048.Idx) :
    W V main_v61 i = FloatOps.subf (W V main_v60 i) (a2 V i) := by
  rw [W_binary V 105 rfl (by decide) (by decide) (by decide), s_main_arg2]; rfl

theorem r_main_v62 (i : S5504x2048.Idx) :
    W V main_v62 i = FloatOps.addf (a2 V i) (W V main_v61 i) := by
  rw [W_binary V 106 rfl (by decide) (by decide) (by decide), s_main_arg2]; rfl

theorem r_main_v63 (V : Valuation τ sig (Elt Ideal)) (i : S4x2048x5504.Idx) :
    @Eq EReal (W V main_v63 i) (@Finset.sum _ EReal _ Finset.univ fun k : Fin 2048 =>
      @HMul.hMul EReal EReal EReal _ (W V main_v45 (lidx_main_v31 i k)) (W V main_v62 (ridx_main_v31 i k))) := by
  rw [W_binary V 107 rfl (by decide) (by decide) (by decide)]
  generalize W V main_v45 = y0
  generalize W V main_v62 = y1
  simp only [Host.dotGeneral]
  rw [Ideal.dotGeneral_apply, ← Equiv.sum_comp (ValueIdx.contrEquiv1 dot_S4x2048x2048_S5504x2048_S4x2048x5504_2_1_01_0_n_n 2048 rfl rfl).symm]
  refine Finset.sum_congr rfl fun k _ => ?_
  have hk := ValueIdx.contrEquiv1_symm_val dot_S4x2048x2048_S5504x2048_S4x2048x5504_2_1_01_0_n_n 2048 rfl rfl k
  have el : dot_S4x2048x2048_S5504x2048_S4x2048x5504_2_1_01_0_n_n.lhsIdx i ((ValueIdx.contrEquiv1 dot_S4x2048x2048_S5504x2048_S4x2048x5504_2_1_01_0_n_n 2048 rfl rfl).symm k) = lidx_main_v31 i k := funext fun a => Fin.ext (by
    match a with
    | ⟨0, _⟩ => rfl
    | ⟨1, _⟩ => rfl
    | ⟨2, _⟩ => exact hk)
  have er : dot_S4x2048x2048_S5504x2048_S4x2048x5504_2_1_01_0_n_n.rhsIdx i ((ValueIdx.contrEquiv1 dot_S4x2048x2048_S5504x2048_S4x2048x5504_2_1_01_0_n_n 2048 rfl rfl).symm k) = ridx_main_v31 i k := funext fun a => Fin.ext (by
    match a with
    | ⟨0, _⟩ => rfl
    | ⟨1, _⟩ => exact hk)
  rw [el, er]

theorem r_main_call10_v0 (i : S4x2048x5504.Idx) :
    W V main_call10_v0 i = FloatOps.hostNegf (W V main_v31 i) := by
  rw [W_unary V 108 rfl (by decide) (by decide)]; rfl

theorem r_main_call10_v1 (i : S4x2048x5504.Idx) :
    W V main_call10_v1 i = FloatOps.hostUnary .exp (W V main_call10_v0 i) := by
  rw [W_unary V 109 rfl (by decide) (by decide)]; rfl

theorem r_main_call10_cst (i : S_.Idx) :
    W V main_call10_cst i = FloatOps.ofBits .f32 0x3F800000#32 := by
  rw [W_nullary V 110 rfl (by decide)]; rfl

theorem r_main_call10_v2 (i : S4x2048x5504.Idx) :
    W V main_call10_v2 i = W V main_call10_cst (idx_main_call10_v2 i) := by
  rw [W_unary V 111 rfl (by decide) (by decide)]
  generalize W V main_call10_cst = y
  exact broadcastInDim_apply _ bcast_S_S4x2048x5504 y i (idx_main_call10_v2 i) (fun a => a.elim0)

theorem r_main_call10_v3 (i : S4x2048x5504.Idx) :
    W V main_call10_v3 i = FloatOps.addf (W V main_call10_v2 i) (W V main_call10_v1 i) := by
  rw [W_binary V 112 rfl (by decide) (by decide) (by decide)]; rfl

theorem r_main_call10_cst_0 (i : S_.Idx) :
    W V main_call10_cst_0 i = FloatOps.ofBits .f32 0x3F800000#32 := by
  rw [W_nullary V 113 rfl (by decide)]; rfl

theorem r_main_call10_v4 (i : S4x2048x5504.Idx) :
    W V main_call10_v4 i = W V main_call10_cst_0 (idx_main_call10_v4 i) := by
  rw [W_unary V 114 rfl (by decide) (by decide)]
  generalize W V main_call10_cst_0 = y
  exact broadcastInDim_apply _ bcast_S_S4x2048x5504 y i (idx_main_call10_v4 i) (fun a => a.elim0)

theorem r_main_call10_v5 (i : S4x2048x5504.Idx) :
    W V main_call10_v5 i = FloatOps.hostDivf (W V main_call10_v4 i) (W V main_call10_v3 i) := by
  rw [W_binary V 115 rfl (by decide) (by decide) (by decide)]; rfl

theorem r_main_v64 (i : S4x2048x5504.Idx) :
    W V main_v64 i = FloatOps.mulf (W V main_v31 i) (W V main_call10_v5 i) := by
  rw [W_binary V 116 rfl (by decide) (by decide) (by decide)]; rfl

theorem r_main_v65 (i : S4x2048x5504.Idx) :
    W V main_v65 i = FloatOps.mulf (W V main_v64 i) (W V main_v63 i) := by
  rw [W_binary V 117 rfl (by decide) (by decide) (by decide)]; rfl

theorem r_main_v66 : W V main_v66 = Host.absf (W V main_v65) := by
  rw [W_unary V 118 rfl (by decide) (by decide)]

theorem r_main_cst_19 : W V main_cst_19 = constant S_ .f32 0xFF800000#32 := by
  rw [W_nullary V 119 rfl (by decide)]

theorem r_main_v67 : W V main_v67 = Host.reduce FloatOps.maximumf (W V main_v66) (W V main_cst_19) reducesTo_S4x2048x5504_S4x2048_d2 h_S_ := by
  rw [W_binary V 120 rfl (by decide) (by decide) (by decide)]

theorem r_main_v68 (i : S4x2048x1.Idx) :
    W V main_v68 i = W V main_v67 (idx_main_v68 i) := by
  rw [W_unary V 121 rfl (by decide) (by decide)]
  generalize W V main_v67 = y
  exact broadcastInDim_apply _ bcast_S4x2048_S4x2048x1_0_1 y i (idx_main_v68 i) (fun a => match a with
    | ⟨0, _⟩ => by show (i 0).val = if (4 : Nat) = 1 then 0 else (i 0).val; rw [if_neg (by decide)]
    | ⟨1, _⟩ => by show (i 1).val = if (2048 : Nat) = 1 then 0 else (i 1).val; rw [if_neg (by decide)])

theorem r_main_cst_20 (i : S_.Idx) :
    W V main_cst_20 i = FloatOps.ofBits .f32 0x3727C5AC#32 := by
  rw [W_nullary V 122 rfl (by decide)]; rfl

theorem r_main_call11_v0 (i : S_.Idx) :
    W V main_call11_v0 i = (W V main_cst_20 i) := by
  rw [W_unary V 123 rfl (by decide) (by decide)]; rfl

theorem r_main_call11_v1 (i : S4x2048x1.Idx) :
    W V main_call11_v1 i = W V main_call11_v0 (idx_main_call11_v1 i) := by
  rw [W_unary V 124 rfl (by decide) (by decide)]
  generalize W V main_call11_v0 = y
  exact broadcastInDim_apply _ bcast_S_S4x2048x1 y i (idx_main_call11_v1 i) (fun a => a.elim0)

theorem r_main_v69 (i : S4x2048x1.Idx) :
    W V main_v69 i = FloatOps.maximumf (W V main_call11_v1 i) (W V main_v68 i) := by
  rw [W_binary V 125 rfl (by decide) (by decide) (by decide)]
  generalize W V main_call11_v1 = za
  generalize W V main_v68 = zb
  rw [show (TRef.of (T := ⟨S4x2048x1, .f32⟩) main_call11_v1).ofBuf za = za from rfl, show (TRef.of (T := ⟨S4x2048x1, .f32⟩) main_v68).ofBuf zb = zb from rfl]
  exact congrFun (cast_eq _ _) i

theorem r_main_cst_21 (i : S_.Idx) :
    W V main_cst_21 i = FloatOps.ofBits .f32 0x42FE0000#32 := by
  rw [W_nullary V 126 rfl (by decide)]; rfl

theorem r_main_v70 (i : S4x2048x1.Idx) :
    W V main_v70 i = W V main_cst_21 (idx_main_v70 i) := by
  rw [W_unary V 127 rfl (by decide) (by decide)]
  generalize W V main_cst_21 = y
  exact broadcastInDim_apply _ bcast_S_S4x2048x1 y i (idx_main_v70 i) (fun a => a.elim0)

theorem r_main_v71 (i : S4x2048x1.Idx) :
    W V main_v71 i = FloatOps.hostDivf (W V main_v70 i) (W V main_v69 i) := by
  rw [W_binary V 128 rfl (by decide) (by decide) (by decide)]; rfl

theorem r_main_v72 (i : S4x2048x5504.Idx) :
    W V main_v72 i = W V main_v71 (idx_main_v72 i) := by
  rw [W_unary V 129 rfl (by decide) (by decide)]
  generalize W V main_v71 = y
  exact broadcastInDim_apply _ bcast_S4x2048x1_S4x2048x5504_0_1_2 y i (idx_main_v72 i) (fun a => match a with
    | ⟨0, _⟩ => by show (i 0).val = if (4 : Nat) = 1 then 0 else (i 0).val; rw [if_neg (by decide)]
    | ⟨1, _⟩ => by show (i 1).val = if (2048 : Nat) = 1 then 0 else (i 1).val; rw [if_neg (by decide)]
    | ⟨2, _⟩ => by show 0 = if (1 : Nat) = 1 then 0 else (i 2).val; rw [if_pos rfl])

theorem r_main_v73 (i : S4x2048x5504.Idx) :
    W V main_v73 i = FloatOps.mulf (W V main_v65 i) (W V main_v72 i) := by
  rw [W_binary V 130 rfl (by decide) (by decide) (by decide)]; rfl

theorem r_main_v74 (i : S4x2048x5504.Idx) :
    W V main_v74 i = FloatOps.hostUnary .roundeven (W V main_v73 i) := by
  rw [W_unary V 131 rfl (by decide) (by decide)]; rfl

theorem r_main_cst_22 (i : S_.Idx) :
    W V main_cst_22 i = FloatOps.ofBits .f32 0xC3000000#32 := by
  rw [W_nullary V 132 rfl (by decide)]; rfl

theorem r_main_cst_23 (i : S_.Idx) :
    W V main_cst_23 i = FloatOps.ofBits .f32 0x42FE0000#32 := by
  rw [W_nullary V 133 rfl (by decide)]; rfl

theorem r_main_call13_v0 (i : S_.Idx) :
    W V main_call13_v0 i = (W V main_cst_22 i) := by
  rw [W_unary V 134 rfl (by decide) (by decide)]; rfl

theorem r_main_call13_v1 (i : S4x2048x5504.Idx) :
    W V main_call13_v1 i = W V main_call13_v0 (idx_main_call13_v1 i) := by
  rw [W_unary V 135 rfl (by decide) (by decide)]
  generalize W V main_call13_v0 = y
  exact broadcastInDim_apply _ bcast_S_S4x2048x5504 y i (idx_main_call13_v1 i) (fun a => a.elim0)

theorem r_main_call13_v2 (i : S4x2048x5504.Idx) :
    W V main_call13_v2 i = FloatOps.maximumf (W V main_call13_v1 i) (W V main_v74 i) := by
  rw [W_binary V 136 rfl (by decide) (by decide) (by decide)]; rfl

theorem r_main_call13_v3 (i : S_.Idx) :
    W V main_call13_v3 i = (W V main_cst_23 i) := by
  rw [W_unary V 137 rfl (by decide) (by decide)]; rfl

theorem r_main_call13_v4 (i : S4x2048x5504.Idx) :
    W V main_call13_v4 i = W V main_call13_v3 (idx_main_call13_v4 i) := by
  rw [W_unary V 138 rfl (by decide) (by decide)]
  generalize W V main_call13_v3 = y
  exact broadcastInDim_apply _ bcast_S_S4x2048x5504 y i (idx_main_call13_v4 i) (fun a => a.elim0)

theorem r_main_v75 (i : S4x2048x5504.Idx) :
    W V main_v75 i = FloatOps.minimumf (W V main_call13_v4 i) (W V main_call13_v2 i) := by
  rw [W_binary V 139 rfl (by decide) (by decide) (by decide)]; rfl

theorem r_main_v76 (i : S4x2048x5504.Idx) :
    W V main_v76 i = W V main_v71 (idx_main_v76 i) := by
  rw [W_unary V 140 rfl (by decide) (by decide)]
  generalize W V main_v71 = y
  exact broadcastInDim_apply _ bcast_S4x2048x1_S4x2048x5504_0_1_2 y i (idx_main_v76 i) (fun a => match a with
    | ⟨0, _⟩ => by show (i 0).val = if (4 : Nat) = 1 then 0 else (i 0).val; rw [if_neg (by decide)]
    | ⟨1, _⟩ => by show (i 1).val = if (2048 : Nat) = 1 then 0 else (i 1).val; rw [if_neg (by decide)]
    | ⟨2, _⟩ => by show 0 = if (1 : Nat) = 1 then 0 else (i 2).val; rw [if_pos rfl])

theorem r_main_v77 (i : S4x2048x5504.Idx) :
    W V main_v77 i = FloatOps.hostDivf (W V main_v75 i) (W V main_v76 i) := by
  rw [W_binary V 141 rfl (by decide) (by decide) (by decide)]; rfl

theorem r_main_v78 (i : S4x2048x5504.Idx) :
    W V main_v78 i = FloatOps.subf (W V main_v77 i) (W V main_v65 i) := by
  rw [W_binary V 142 rfl (by decide) (by decide) (by decide)]; rfl

theorem r_main_v79 (i : S4x2048x5504.Idx) :
    W V main_v79 i = FloatOps.addf (W V main_v65 i) (W V main_v78 i) := by
  rw [W_binary V 143 rfl (by decide) (by decide) (by decide)]; rfl

theorem r_main_v80 (i : S2048x43x128.Idx) :
    W V main_v80 i = a3 V (idx_main_v80 i) := by
  rw [W_reshape V 144 rfl (by decide) (by decide), s_main_arg3]
  exact shapeCast_apply (s := S2048x5504) (a3 V) shapeCasts_S2048x5504_S2048x43x128 i (idx_main_v80 i)
    (by rewrite [Shape.rowMajor_val_two, Shape.rowMajor_val_three]; have h0 : (i 0).val < 2048 := (i 0).isLt; have h1 : (i 1).val < 43 := (i 1).isLt; have h2 : (i 2).val < 128 := (i 2).isLt; show (((i 0).val * 43 + (i 1).val) * 128 + (i 2).val) / 5504 * 5504 + (((i 0).val * 43 + (i 1).val) * 128 + (i 2).val) % 5504 = ((i 0).val * 43 + (i 1).val) * 128 + (i 2).val; omega)

theorem r_main_v81 (i : S2048x43x128.Idx) :
    W V main_v81 i = FloatOps.hostAbsf (W V main_v80 i) := by
  rw [W_unary V 145 rfl (by decide) (by decide)]; rfl

theorem r_main_cst_24 (i : S_.Idx) :
    W V main_cst_24 i = FloatOps.ofBits .f32 0x00000000#32 := by
  rw [W_nullary V 146 rfl (by decide)]; rfl

theorem r_main_v82 (V : Valuation τ sig (Elt Ideal)) (i : S2048x43.Idx) :
    @Eq EReal (W V main_v82 i) (@HAdd.hAdd EReal EReal EReal _ (W V main_cst_24 (Shape.Idx.first h_S_))
      (@Finset.sum _ EReal _ Finset.univ fun k : Fin 128 => W V main_v81 (idx_main_v82 i k))) := by
  rw [W_binary V 147 rfl (by decide) (by decide) (by decide)]
  generalize W V main_v81 = y0
  simp only [Host.reduceAdd, Ideal.hostReduceAdd_def]
  rw [Ideal.hostReduceAdd_single reducesTo_S2048x43x128_S2048x43_d2 (by decide)]
  refine congrArg _ (Finset.sum_congr rfl fun k _ => ?_)
  exact congrArg y0 (funext fun a => Fin.ext (by match a with | ⟨0, _⟩ => rfl | ⟨1, _⟩ => rfl | ⟨2, _⟩ => rfl))

theorem r_main_v83 (i : S2048x43x1.Idx) :
    W V main_v83 i = W V main_v82 (idx_main_v83 i) := by
  rw [W_unary V 148 rfl (by decide) (by decide)]
  generalize W V main_v82 = y
  exact broadcastInDim_apply _ bcast_S2048x43_S2048x43x1_0_1 y i (idx_main_v83 i) (fun a => match a with
    | ⟨0, _⟩ => by show (i 0).val = if (2048 : Nat) = 1 then 0 else (i 0).val; rw [if_neg (by decide)]
    | ⟨1, _⟩ => by show (i 1).val = if (43 : Nat) = 1 then 0 else (i 1).val; rw [if_neg (by decide)])

theorem r_main_cst_25 (i : S_.Idx) :
    W V main_cst_25 i = FloatOps.ofBits .f32 0x43000000#32 := by
  rw [W_nullary V 149 rfl (by decide)]; rfl

theorem r_main_v84 (i : S2048x43x1.Idx) :
    W V main_v84 i = W V main_cst_25 (idx_main_v84 i) := by
  rw [W_unary V 150 rfl (by decide) (by decide)]
  generalize W V main_cst_25 = y
  exact broadcastInDim_apply _ bcast_S_S2048x43x1 y i (idx_main_v84 i) (fun a => a.elim0)

theorem r_main_v85 (i : S2048x43x1.Idx) :
    W V main_v85 i = FloatOps.hostDivf (W V main_v83 i) (W V main_v84 i) := by
  rw [W_binary V 151 rfl (by decide) (by decide) (by decide)]; rfl

theorem r_main_cst_26 (i : S_.Idx) :
    W V main_cst_26 i = FloatOps.ofBits .f32 0x3727C5AC#32 := by
  rw [W_nullary V 152 rfl (by decide)]; rfl

theorem r_main_v86 (i : S2048x43x1.Idx) :
    W V main_v86 i = W V main_cst_26 (idx_main_v86 i) := by
  rw [W_unary V 153 rfl (by decide) (by decide)]
  generalize W V main_cst_26 = y
  exact broadcastInDim_apply _ bcast_S_S2048x43x1 y i (idx_main_v86 i) (fun a => a.elim0)

theorem r_main_v87 (i : S2048x43x1.Idx) :
    W V main_v87 i = FloatOps.addf (W V main_v85 i) (W V main_v86 i) := by
  rw [W_binary V 154 rfl (by decide) (by decide) (by decide)]; rfl

theorem r_main_v88 (i : S2048x43x128.Idx) :
    W V main_v88 i = W V main_v87 (idx_main_v88 i) := by
  rw [W_unary V 155 rfl (by decide) (by decide)]
  generalize W V main_v87 = y
  exact broadcastInDim_apply _ bcast_S2048x43x1_S2048x43x128_0_1_2 y i (idx_main_v88 i) (fun a => match a with
    | ⟨0, _⟩ => by show (i 0).val = if (2048 : Nat) = 1 then 0 else (i 0).val; rw [if_neg (by decide)]
    | ⟨1, _⟩ => by show (i 1).val = if (43 : Nat) = 1 then 0 else (i 1).val; rw [if_neg (by decide)]
    | ⟨2, _⟩ => by show 0 = if (1 : Nat) = 1 then 0 else (i 2).val; rw [if_pos rfl])

theorem r_main_v89 (i : S2048x43x128.Idx) :
    W V main_v89 i = FloatOps.hostDivf (W V main_v80 i) (W V main_v88 i) := by
  rw [W_binary V 156 rfl (by decide) (by decide) (by decide)]; rfl

theorem r_main_cst_27 (i : S_.Idx) :
    W V main_cst_27 i = FloatOps.ofBits .f32 0xBF800000#32 := by
  rw [W_nullary V 157 rfl (by decide)]; rfl

theorem r_main_cst_28 (i : S_.Idx) :
    W V main_cst_28 i = FloatOps.ofBits .f32 0x3F800000#32 := by
  rw [W_nullary V 158 rfl (by decide)]; rfl

theorem r_main_call14_v0 (i : S_.Idx) :
    W V main_call14_v0 i = (W V main_cst_27 i) := by
  rw [W_unary V 159 rfl (by decide) (by decide)]; rfl

theorem r_main_call14_v1 (i : S2048x43x128.Idx) :
    W V main_call14_v1 i = W V main_call14_v0 (idx_main_call14_v1 i) := by
  rw [W_unary V 160 rfl (by decide) (by decide)]
  generalize W V main_call14_v0 = y
  exact broadcastInDim_apply _ bcast_S_S2048x43x128 y i (idx_main_call14_v1 i) (fun a => a.elim0)

theorem r_main_call14_v2 (i : S2048x43x128.Idx) :
    W V main_call14_v2 i = FloatOps.maximumf (W V main_call14_v1 i) (W V main_v89 i) := by
  rw [W_binary V 161 rfl (by decide) (by decide) (by decide)]; rfl

theorem r_main_call14_v3 (i : S_.Idx) :
    W V main_call14_v3 i = (W V main_cst_28 i) := by
  rw [W_unary V 162 rfl (by decide) (by decide)]; rfl

theorem r_main_call14_v4 (i : S2048x43x128.Idx) :
    W V main_call14_v4 i = W V main_call14_v3 (idx_main_call14_v4 i) := by
  rw [W_unary V 163 rfl (by decide) (by decide)]
  generalize W V main_call14_v3 = y
  exact broadcastInDim_apply _ bcast_S_S2048x43x128 y i (idx_main_call14_v4 i) (fun a => a.elim0)

theorem r_main_v90 (i : S2048x43x128.Idx) :
    W V main_v90 i = FloatOps.minimumf (W V main_call14_v4 i) (W V main_call14_v2 i) := by
  rw [W_binary V 164 rfl (by decide) (by decide) (by decide)]; rfl

theorem r_main_v91 (i : S2048x43x128.Idx) :
    W V main_v91 i = FloatOps.hostUnary .roundeven (W V main_v90 i) := by
  rw [W_unary V 165 rfl (by decide) (by decide)]; rfl

theorem r_main_v92 (i : S2048x43x128.Idx) :
    W V main_v92 i = W V main_v87 (idx_main_v92 i) := by
  rw [W_unary V 166 rfl (by decide) (by decide)]
  generalize W V main_v87 = y
  exact broadcastInDim_apply _ bcast_S2048x43x1_S2048x43x128_0_1_2 y i (idx_main_v92 i) (fun a => match a with
    | ⟨0, _⟩ => by show (i 0).val = if (2048 : Nat) = 1 then 0 else (i 0).val; rw [if_neg (by decide)]
    | ⟨1, _⟩ => by show (i 1).val = if (43 : Nat) = 1 then 0 else (i 1).val; rw [if_neg (by decide)]
    | ⟨2, _⟩ => by show 0 = if (1 : Nat) = 1 then 0 else (i 2).val; rw [if_pos rfl])

theorem r_main_v93 (i : S2048x43x128.Idx) :
    W V main_v93 i = FloatOps.mulf (W V main_v91 i) (W V main_v92 i) := by
  rw [W_binary V 167 rfl (by decide) (by decide) (by decide)]; rfl

theorem r_main_v94 (i : S2048x5504.Idx) :
    W V main_v94 i = W V main_v93 (idx_main_v94 i) := by
  rw [W_reshape V 168 rfl (by decide) (by decide)]
  generalize W V main_v93 = y
  exact shapeCast_apply (s := S2048x43x128) y shapeCasts_S2048x43x128_S2048x5504 i (idx_main_v94 i)
    (by rewrite [Shape.rowMajor_val_three, Shape.rowMajor_val_two]; have h0 : (i 0).val < 2048 := (i 0).isLt; have h1 : (i 1).val < 5504 := (i 1).isLt; show (((i 0).val * 5504 + (i 1).val) / 5504 * 43 + ((i 0).val * 5504 + (i 1).val) / 128 % 43) * 128 + ((i 0).val * 5504 + (i 1).val) % 128 = (i 0).val * 5504 + (i 1).val; omega)

theorem r_main_v95 (i : S2048x5504.Idx) :
    W V main_v95 i = FloatOps.subf (W V main_v94 i) (a3 V i) := by
  rw [W_binary V 169 rfl (by decide) (by decide) (by decide), s_main_arg3]; rfl

theorem r_main_v96 (i : S2048x5504.Idx) :
    W V main_v96 i = FloatOps.addf (a3 V i) (W V main_v95 i) := by
  rw [W_binary V 170 rfl (by decide) (by decide) (by decide), s_main_arg3]; rfl

theorem r_main_v97 (V : Valuation τ sig (Elt Ideal)) (i : S4x2048x2048.Idx) :
    @Eq EReal (W V main_v97 i) (@Finset.sum _ EReal _ Finset.univ fun k : Fin 5504 =>
      @HMul.hMul EReal EReal EReal _ (W V main_v79 (lidx_main_v97 i k)) (W V main_v96 (ridx_main_v97 i k))) := by
  rw [W_binary V 171 rfl (by decide) (by decide) (by decide)]
  generalize W V main_v79 = y0
  generalize W V main_v96 = y1
  simp only [Host.dotGeneral]
  rw [Ideal.dotGeneral_apply, ← Equiv.sum_comp (ValueIdx.contrEquiv1 dot_S4x2048x5504_S2048x5504_S4x2048x2048_2_1_01_0_n_n 5504 rfl rfl).symm]
  refine Finset.sum_congr rfl fun k _ => ?_
  have hk := ValueIdx.contrEquiv1_symm_val dot_S4x2048x5504_S2048x5504_S4x2048x2048_2_1_01_0_n_n 5504 rfl rfl k
  have el : dot_S4x2048x5504_S2048x5504_S4x2048x2048_2_1_01_0_n_n.lhsIdx i ((ValueIdx.contrEquiv1 dot_S4x2048x5504_S2048x5504_S4x2048x2048_2_1_01_0_n_n 5504 rfl rfl).symm k) = lidx_main_v97 i k := funext fun a => Fin.ext (by
    match a with
    | ⟨0, _⟩ => rfl
    | ⟨1, _⟩ => rfl
    | ⟨2, _⟩ => exact hk)
  have er : dot_S4x2048x5504_S2048x5504_S4x2048x2048_2_1_01_0_n_n.rhsIdx i ((ValueIdx.contrEquiv1 dot_S4x2048x5504_S2048x5504_S4x2048x2048_2_1_01_0_n_n 5504 rfl rfl).symm k) = ridx_main_v97 i k := funext fun a => Fin.ext (by
    match a with
    | ⟨0, _⟩ => rfl
    | ⟨1, _⟩ => exact hk)
  rw [el, er]

-- Both projections quantize the same input through the same operations.
theorem e_main_v45 : W V main_v45 = W V main_v13 := by
  rw [W_binary V 79 rfl (by decide) (by decide) (by decide), W_binary V 78 rfl (by decide) (by decide) (by decide),
    W_binary V 77 rfl (by decide) (by decide) (by decide), W_unary V 76 rfl (by decide) (by decide),
    W_binary V 75 rfl (by decide) (by decide) (by decide), W_unary V 74 rfl (by decide) (by decide),
    W_unary V 73 rfl (by decide) (by decide), W_binary V 72 rfl (by decide) (by decide) (by decide),
    W_unary V 71 rfl (by decide) (by decide), W_unary V 70 rfl (by decide) (by decide), W_nullary V 69 rfl (by decide),
    W_nullary V 68 rfl (by decide), W_unary V 67 rfl (by decide) (by decide),
    W_binary V 66 rfl (by decide) (by decide) (by decide), W_unary V 65 rfl (by decide) (by decide),
    W_binary V 64 rfl (by decide) (by decide) (by decide), W_unary V 63 rfl (by decide) (by decide),
    W_nullary V 62 rfl (by decide), W_binary V 61 rfl (by decide) (by decide) (by decide),
    W_unary V 60 rfl (by decide) (by decide), W_unary V 59 rfl (by decide) (by decide), W_nullary V 58 rfl (by decide),
    W_unary V 57 rfl (by decide) (by decide), W_binary V 56 rfl (by decide) (by decide) (by decide),
    W_nullary V 55 rfl (by decide), W_unary V 54 rfl (by decide) (by decide),
    W_binary V 25 rfl (by decide) (by decide) (by decide), W_binary V 24 rfl (by decide) (by decide) (by decide),
    W_binary V 23 rfl (by decide) (by decide) (by decide), W_unary V 22 rfl (by decide) (by decide),
    W_binary V 21 rfl (by decide) (by decide) (by decide), W_unary V 20 rfl (by decide) (by decide),
    W_unary V 19 rfl (by decide) (by decide), W_binary V 18 rfl (by decide) (by decide) (by decide),
    W_unary V 17 rfl (by decide) (by decide), W_unary V 16 rfl (by decide) (by decide), W_nullary V 15 rfl (by decide),
    W_nullary V 14 rfl (by decide), W_unary V 13 rfl (by decide) (by decide),
    W_binary V 12 rfl (by decide) (by decide) (by decide), W_unary V 11 rfl (by decide) (by decide),
    W_binary V 10 rfl (by decide) (by decide) (by decide), W_unary V 9 rfl (by decide) (by decide),
    W_nullary V 8 rfl (by decide), W_binary V 7 rfl (by decide) (by decide) (by decide),
    W_unary V 6 rfl (by decide) (by decide), W_unary V 5 rfl (by decide) (by decide), W_nullary V 4 rfl (by decide),
    W_unary V 3 rfl (by decide) (by decide), W_binary V 2 rfl (by decide) (by decide) (by decide),
    W_nullary V 1 rfl (by decide), W_unary V 0 rfl (by decide) (by decide)]

end Cert.ReferenceIdeal.Stages

end
-- ==== Proof.RefRunMain.lean ====
import proofs.«102340_j15058155339839_1_alg».proof.Proof.RefStages

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev res_out0 (m : (ℓ : Loc nD τ sig) → Buf (Elt F) ℓ) (c : Dev nD) : Buf (Elt F) ((c.tc : Thread nD τ).loc main_v97) :=
  Cert.ReferenceIdeal.Stages.W (launchContents m c) main_v97

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v97) = res_out0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h c main_v97,
      (h c main_arg0).trans (Cert.ReferenceIdeal.Stages.s_main_arg0 (launchContents m c)),
      (h c main_arg1).trans (Cert.ReferenceIdeal.Stages.s_main_arg1 (launchContents m c)),
      (h c main_arg2).trans (Cert.ReferenceIdeal.Stages.s_main_arg2 (launchContents m c)),
      (h c main_arg3).trans (Cert.ReferenceIdeal.Stages.s_main_arg3 (launchContents m c))⟩)
    (run_seq scopedRefs_eq scopedSems_eq defs main (fun _ => ops) main_eq (fun _ => ops_sub) m ρ)

end Cert.ReferenceIdeal.Value

end
-- ==== Proof.LibSpelledLogistic.lean ====
import Idealize.ShloMosaic.Lib.IdealHost

noncomputable section

namespace Cert.LibSpelledLogistic

open Idealize.ShloMosaic

theorem spelled_logistic (z : EReal) :
    Ideal.div (Ideal.ofBits .f32 0x3F800000#32) (Ideal.ofBits .f32 0x3F800000#32 + Ideal.exp (-z)) = Ideal.logistic z := by
  rw [Ideal.ofBits_one_f32]; rfl

end Cert.LibSpelledLogistic

end
-- ==== Proof.RefValue.lean ====
import proofs.«102340_j15058155339839_1_alg».proof.Defs
import proofs.«102340_j15058155339839_1_alg».proof.Proof.RefRunMain
import proofs.«102340_j15058155339839_1_alg».proof.Proof.Spec
import proofs.«102340_j15058155339839_1_alg».proof.Proof.LibSpelledLogistic

noncomputable section

namespace Cert.ReferenceIdeal.RefValue

open Cert.ReferenceIdeal Cert.ReferenceIdeal.Gen Idealize.ShloMosaic Idealize.ShloMosaic.TcCoe Idealize.SL.Sem
open Cert.Spec Idealize.ShloMosaic.ValueIdx
open Cert.ReferenceIdeal.Stages Cert.ReferenceIdeal.Read

theorem at2_at {a b : ℕ} (A : (⟨2, ![a, b]⟩ : Shape).Idx → EReal) (j : (⟨2, ![a, b]⟩ : Shape).Idx) :
    A j = at2 A (j 0).val (j 1).val :=
  (congrArg A (eq_ix2 j)).trans (at2_of_lt A (idx2_lt0 j) (idx2_lt1 j)).symm

theorem rows3_at (x : (⟨3, ![4, 2048, 2048]⟩ : Shape).Idx → EReal) (j : (⟨3, ![4, 2048, 2048]⟩ : Shape).Idx) :
    x j = rows3 x ((j 0).val * 2048 + (j 1).val) (j 2).val :=
  (congrArg x (eq_ix3 j)).trans (rows3_of_lt x (j 0) (j 1) (j 2)).symm

theorem reduce_max_last {n : ℕ} (x : (⟨3, ![4, 2048, n]⟩ : Shape).Idx → EReal) (init : (⟨0, ![]⟩ : Shape).Idx → EReal)
    (h' : (⟨3, ![4, 2048, n]⟩ : Shape).ReducesTo [2] ⟨2, ![4, 2048]⟩)
    (h : (⟨3, ![4, 2048, n]⟩ : Shape).Reduces [2] ⟨2, ![4, 2048]⟩)
    (hu : 0 < (⟨0, ![]⟩ : Shape).numel) (j : (⟨2, ![4, 2048]⟩ : Shape).Idx) :
    Host.reduce (FloatOps.maximumf (F := Ideal) (φ := .f32)) x init h' hu j
      = (Finset.univ : Finset (Fin n)).fold max (init (Shape.Idx.first hu)) (fun k => x (ix3 (j 0) (j 1) k)) := by
  rw [Host.reduce_eq_fold_single (FloatOps.maximumf (F := Ideal) (φ := .f32)) x init h' h hu j]
  have hf : (x ∘ h.lift j) = fun k : Fin n => x (ix3 (j 0) (j 1) k) := funext fun k => congrArg x (by
    funext c; apply Fin.ext
    fin_cases c <;> rfl)
  exact congrArg (fun f => Finset.fold max (init (Shape.Idx.first hu)) f (Finset.univ : Finset (Fin n))) hf

variable (V : Valuation τ sig (Elt Ideal))

theorem v1_at (j : S4x2048.Idx) :
    @Eq EReal (W V main_v1 j)
      (rowMax 2048 (rows3 (a0 V) ((j 0).val * 2048 + (j 1).val))) := by
  rw [r_main_v1, r_main_v0, r_main_cst]
  refine (reduce_max_last _ _ reducesTo_S4x2048x2048_S4x2048_d2
    (by decide) h_S_ j).trans ?_
  unfold rowMax
  refine congrArg (fun f => Finset.fold max cNegInf f (Finset.univ : Finset (Fin 2048))) (funext fun k => ?_)
  exact congrArg eabs (rows3_at (a0 V) (ix3 (j 0) (j 1) k))

theorem v5_at (j : S4x2048x1.Idx) :
    @Eq EReal (W V main_v5 j)
      (rscale (rowMax 2048 (rows3 (a0 V) ((j 0).val * 2048 + (j 1).val)))) := by
  rw [r_main_v5, r_main_v4, r_main_cst_1, r_main_v3, r_main_call0_v1,
    r_main_call0_v0, r_main_cst_0, r_main_v2, v1_at]
  rfl

theorem v13_at (j : S4x2048x2048.Idx) :
    @Eq EReal (W V main_v13 j)
      (aqR 2048 (rows3 (a0 V) ((j 0).val * 2048 + (j 1).val)) (j 2).val) := by
  rw [r_main_v13, r_main_v12, r_main_v11, r_main_v10, r_main_v9,
    r_main_call2_v4, r_main_call2_v3, r_main_cst_3, r_main_call2_v2,
    r_main_call2_v1, r_main_call2_v0, r_main_cst_2, r_main_v8, r_main_v7,
    r_main_v6]
  simp only [v5_at]
  rw [rows3_at (a0 V) j]
  rfl

theorem v14_at (j : S5504x16x128.Idx) :
    @Eq EReal (W V main_v14 j)
      (at2 (a1 V) (j 0).val (128 * (j 1).val + (j 2).val)) := by
  rw [r_main_v14, at2_at (a1 V) (idx_main_v14 j)]
  have h0 : (j 0).val < 5504 := (j 0).isLt
  have h1 : (j 1).val < 16 := (j 1).isLt
  have h2 : (j 2).val < 128 := (j 2).isLt
  have e0 : (idx_main_v14 j 0).val = (j 0).val := by
    show (((j 0).val * 16 + (j 1).val) * 128 + (j 2).val) / 2048 = (j 0).val; omega
  have e1 : (idx_main_v14 j 1).val = 128 * (j 1).val + (j 2).val := by
    show (((j 0).val * 16 + (j 1).val) * 128 + (j 2).val) % 2048 = 128 * (j 1).val + (j 2).val; omega
  rw [e0, e1]

theorem v16_at (j : S5504x16.Idx) :
    @Eq EReal (W V main_v16 j)
      (∑ l : Fin 128, eabs (at2 (a1 V) (j 0).val (128 * (j 1).val + l.val))) := by
  rw [r_main_v16, r_main_cst_4, Ideal.ofBits_def, Ideal.ofBits_zero_f32, zero_add]
  refine Finset.sum_congr rfl fun l _ => ?_
  rw [r_main_v15, v14_at]
  rfl

theorem v21_at (j : S5504x16x1.Idx) :
    @Eq EReal (W V main_v21 j)
      (Ideal.div (∑ l : Fin 128, eabs (at2 (a1 V) (j 0).val (128 * (j 1).val + l.val))) c128 + cEps) := by
  rw [r_main_v21, r_main_v19, r_main_v17, v16_at, r_main_v18, r_main_cst_5,
    r_main_v20, r_main_cst_6]
  rfl

theorem v27_at (j : S5504x16x128.Idx) :
    @Eq EReal (W V main_v27 j)
      (qw (Ideal.div (∑ l : Fin 128, eabs (at2 (a1 V) (j 0).val (128 * (j 1).val + l.val))) c128 + cEps)
        (at2 (a1 V) (j 0).val (128 * (j 1).val + (j 2).val))) := by
  rw [r_main_v27, r_main_v26, r_main_v25, r_main_v24, r_main_call3_v4,
    r_main_call3_v3, r_main_cst_8, r_main_call3_v2, r_main_call3_v1,
    r_main_call3_v0, r_main_cst_7, r_main_v23, r_main_v22, v14_at]
  simp only [v21_at]
  rfl

theorem v30_at (j : S5504x2048.Idx) :
    @Eq EReal (W V main_v30 j)
      (wqR (at2 (a1 V) (j 0).val) (j 1).val) := by
  rw [r_main_v30, r_main_v29, r_main_v28, v27_at, at2_at (a1 V) j]
  have h0 : (j 0).val < 5504 := (j 0).isLt
  have h1 : (j 1).val < 2048 := (j 1).isLt
  have e0 : (idx_main_v28 j 0).val = (j 0).val := by
    show ((j 0).val * 2048 + (j 1).val) / 2048 = (j 0).val; omega
  have e1 : (idx_main_v28 j 1).val = (j 1).val / 128 := by
    show ((j 0).val * 2048 + (j 1).val) / 128 % 16 = (j 1).val / 128; omega
  have e2 : (idx_main_v28 j 2).val = (j 1).val % 128 := by
    show ((j 0).val * 2048 + (j 1).val) % 128 = (j 1).val % 128; omega
  rw [e0, e1, e2, Nat.div_add_mod]
  rfl

theorem v46_at (j : S5504x16x128.Idx) :
    @Eq EReal (W V main_v46 j)
      (at2 (a2 V) (j 0).val (128 * (j 1).val + (j 2).val)) := by
  rw [r_main_v46, at2_at (a2 V) (idx_main_v14 j)]
  have h0 : (j 0).val < 5504 := (j 0).isLt
  have h1 : (j 1).val < 16 := (j 1).isLt
  have h2 : (j 2).val < 128 := (j 2).isLt
  have e0 : (idx_main_v14 j 0).val = (j 0).val := by
    show (((j 0).val * 16 + (j 1).val) * 128 + (j 2).val) / 2048 = (j 0).val; omega
  have e1 : (idx_main_v14 j 1).val = 128 * (j 1).val + (j 2).val := by
    show (((j 0).val * 16 + (j 1).val) * 128 + (j 2).val) % 2048 = 128 * (j 1).val + (j 2).val; omega
  rw [e0, e1]

theorem v48_at (j : S5504x16.Idx) :
    @Eq EReal (W V main_v48 j)
      (∑ l : Fin 128, eabs (at2 (a2 V) (j 0).val (128 * (j 1).val + l.val))) := by
  rw [r_main_v48, r_main_cst_14, Ideal.ofBits_def, Ideal.ofBits_zero_f32, zero_add]
  refine Finset.sum_congr rfl fun l _ => ?_
  rw [r_main_v47, v46_at]
  rfl

theorem v53_at (j : S5504x16x1.Idx) :
    @Eq EReal (W V main_v53 j)
      (Ideal.div (∑ l : Fin 128, eabs (at2 (a2 V) (j 0).val (128 * (j 1).val + l.val))) c128 + cEps) := by
  rw [r_main_v53, r_main_v51, r_main_v49, v48_at, r_main_v50, r_main_cst_15,
    r_main_v52, r_main_cst_16]
  rfl

theorem v59_at (j : S5504x16x128.Idx) :
    @Eq EReal (W V main_v59 j)
      (qw (Ideal.div (∑ l : Fin 128, eabs (at2 (a2 V) (j 0).val (128 * (j 1).val + l.val))) c128 + cEps)
        (at2 (a2 V) (j 0).val (128 * (j 1).val + (j 2).val))) := by
  rw [r_main_v59, r_main_v58, r_main_v57, r_main_v56, r_main_call8_v4,
    r_main_call8_v3, r_main_cst_18, r_main_call8_v2, r_main_call8_v1,
    r_main_call8_v0, r_main_cst_17, r_main_v55, r_main_v54, v46_at]
  simp only [v53_at]
  rfl

theorem v62_at (j : S5504x2048.Idx) :
    @Eq EReal (W V main_v62 j)
      (wqR (at2 (a2 V) (j 0).val) (j 1).val) := by
  rw [r_main_v62, r_main_v61, r_main_v60, v59_at, at2_at (a2 V) j]
  have h0 : (j 0).val < 5504 := (j 0).isLt
  have h1 : (j 1).val < 2048 := (j 1).isLt
  have e0 : (idx_main_v28 j 0).val = (j 0).val := by
    show ((j 0).val * 2048 + (j 1).val) / 2048 = (j 0).val; omega
  have e1 : (idx_main_v28 j 1).val = (j 1).val / 128 := by
    show ((j 0).val * 2048 + (j 1).val) / 128 % 16 = (j 1).val / 128; omega
  have e2 : (idx_main_v28 j 2).val = (j 1).val % 128 := by
    show ((j 0).val * 2048 + (j 1).val) % 128 = (j 1).val % 128; omega
  rw [e0, e1, e2, Nat.div_add_mod]
  rfl

theorem v31_at (j : S4x2048x5504.Idx) :
    @Eq EReal (W V main_v31 j)
      (gateR (rows3 (a0 V)) (at2 (a1 V)) ((j 0).val * 2048 + (j 1).val) (j 2).val) := by
  rw [r_main_v31]
  unfold gateR dot
  refine Finset.sum_congr rfl fun k _ => ?_
  rw [v13_at, v30_at]

theorem v63_at (j : S4x2048x5504.Idx) :
    @Eq EReal (W V main_v63 j)
      (gateR (rows3 (a0 V)) (at2 (a2 V)) ((j 0).val * 2048 + (j 1).val) (j 2).val) := by
  rw [r_main_v63]
  unfold gateR dot
  refine Finset.sum_congr rfl fun k _ => ?_
  rw [e_main_v45, v13_at, v62_at]

theorem v65_at (j : S4x2048x5504.Idx) :
    @Eq EReal (W V main_v65 j)
      (hiddenR (rows3 (a0 V)) (at2 (a1 V)) (at2 (a2 V)) ((j 0).val * 2048 + (j 1).val) (j 2).val) := by
  rw [r_main_v65, r_main_v64, r_main_call10_v5, r_main_call10_v4,
    r_main_call10_cst_0, r_main_call10_v3, r_main_call10_v2, r_main_call10_cst,
    r_main_call10_v1, r_main_call10_v0]
  simp only [v31_at, v63_at]
  show gateR (rows3 (a0 V)) (at2 (a1 V)) ((j 0).val * 2048 + (j 1).val) (j 2).val
      * Ideal.div (Ideal.ofBits .f32 0x3F800000#32) (Ideal.ofBits .f32 0x3F800000#32
          + Ideal.exp (-(gateR (rows3 (a0 V)) (at2 (a1 V)) ((j 0).val * 2048 + (j 1).val) (j 2).val)))
      * gateR (rows3 (a0 V)) (at2 (a2 V)) ((j 0).val * 2048 + (j 1).val) (j 2).val = _
  rw [Cert.LibSpelledLogistic.spelled_logistic]
  rfl

theorem v67_at (j : S4x2048.Idx) :
    @Eq EReal (W V main_v67 j)
      (rowMax 5504 (hiddenR (rows3 (a0 V)) (at2 (a1 V)) (at2 (a2 V)) ((j 0).val * 2048 + (j 1).val))) := by
  rw [r_main_v67, r_main_v66, r_main_cst_19]
  refine (reduce_max_last _ _
    reducesTo_S4x2048x5504_S4x2048_d2 (by decide) h_S_ j).trans ?_
  unfold rowMax
  refine congrArg (fun f => Finset.fold max cNegInf f (Finset.univ : Finset (Fin 5504))) (funext fun k => ?_)
  exact congrArg eabs (v65_at V (ix3 (j 0) (j 1) k))

theorem v71_at (j : S4x2048x1.Idx) :
    @Eq EReal (W V main_v71 j)
      (rscale (rowMax 5504 (hiddenR (rows3 (a0 V)) (at2 (a1 V)) (at2 (a2 V)) ((j 0).val * 2048 + (j 1).val)))) := by
  rw [r_main_v71, r_main_v70, r_main_cst_21, r_main_v69, r_main_call11_v1,
    r_main_call11_v0, r_main_cst_20, r_main_v68, v67_at]
  rfl

theorem v79_at (j : S4x2048x5504.Idx) :
    @Eq EReal (W V main_v79 j)
      (aqR 5504 (hiddenR (rows3 (a0 V)) (at2 (a1 V)) (at2 (a2 V)) ((j 0).val * 2048 + (j 1).val)) (j 2).val) := by
  rw [r_main_v79, r_main_v78, r_main_v77, r_main_v76, r_main_v75,
    r_main_call13_v4, r_main_call13_v3, r_main_cst_23, r_main_call13_v2,
    r_main_call13_v1, r_main_call13_v0, r_main_cst_22, r_main_v74, r_main_v73,
    r_main_v72]
  simp only [v71_at, v65_at]
  rfl

theorem v80_at (j : S2048x43x128.Idx) :
    @Eq EReal (W V main_v80 j)
      (at2 (a3 V) (j 0).val (128 * (j 1).val + (j 2).val)) := by
  rw [r_main_v80, at2_at (a3 V) (idx_main_v80 j)]
  have h0 : (j 0).val < 2048 := (j 0).isLt
  have h1 : (j 1).val < 43 := (j 1).isLt
  have h2 : (j 2).val < 128 := (j 2).isLt
  have e0 : (idx_main_v80 j 0).val = (j 0).val := by
    show (((j 0).val * 43 + (j 1).val) * 128 + (j 2).val) / 5504 = (j 0).val; omega
  have e1 : (idx_main_v80 j 1).val = 128 * (j 1).val + (j 2).val := by
    show (((j 0).val * 43 + (j 1).val) * 128 + (j 2).val) % 5504 = 128 * (j 1).val + (j 2).val; omega
  rw [e0, e1]

theorem v82_at (j : S2048x43.Idx) :
    @Eq EReal (W V main_v82 j)
      (∑ l : Fin 128, eabs (at2 (a3 V) (j 0).val (128 * (j 1).val + l.val))) := by
  rw [r_main_v82, r_main_cst_24, Ideal.ofBits_def, Ideal.ofBits_zero_f32, zero_add]
  refine Finset.sum_congr rfl fun l _ => ?_
  rw [r_main_v81, v80_at]
  rfl

theorem v87_at (j : S2048x43x1.Idx) :
    @Eq EReal (W V main_v87 j)
      (Ideal.div (∑ l : Fin 128, eabs (at2 (a3 V) (j 0).val (128 * (j 1).val + l.val))) c128 + cEps) := by
  rw [r_main_v87, r_main_v85, r_main_v83, v82_at, r_main_v84, r_main_cst_25,
    r_main_v86, r_main_cst_26]
  rfl

theorem v93_at (j : S2048x43x128.Idx) :
    @Eq EReal (W V main_v93 j)
      (qw (Ideal.div (∑ l : Fin 128, eabs (at2 (a3 V) (j 0).val (128 * (j 1).val + l.val))) c128 + cEps)
        (at2 (a3 V) (j 0).val (128 * (j 1).val + (j 2).val))) := by
  rw [r_main_v93, r_main_v92, r_main_v91, r_main_v90, r_main_call14_v4,
    r_main_call14_v3, r_main_cst_28, r_main_call14_v2, r_main_call14_v1,
    r_main_call14_v0, r_main_cst_27, r_main_v89, r_main_v88, v80_at]
  simp only [v87_at]
  rfl

theorem v96_at (j : S2048x5504.Idx) :
    @Eq EReal (W V main_v96 j)
      (wqR (at2 (a3 V) (j 0).val) (j 1).val) := by
  rw [r_main_v96, r_main_v95, r_main_v94, v93_at, at2_at (a3 V) j]
  have h0 : (j 0).val < 2048 := (j 0).isLt
  have h1 : (j 1).val < 5504 := (j 1).isLt
  have e0 : (idx_main_v94 j 0).val = (j 0).val := by
    show ((j 0).val * 5504 + (j 1).val) / 5504 = (j 0).val; omega
  have e1 : (idx_main_v94 j 1).val = (j 1).val / 128 := by
    show ((j 0).val * 5504 + (j 1).val) / 128 % 43 = (j 1).val / 128; omega
  have e2 : (idx_main_v94 j 2).val = (j 1).val % 128 := by
    show ((j 0).val * 5504 + (j 1).val) % 128 = (j 1).val % 128; omega
  rw [e0, e1, e2, Nat.div_add_mod]
  rfl

theorem v97_at (j : S4x2048x2048.Idx) :
    @Eq EReal (W V main_v97 j)
      (outR (rows3 (a0 V)) (at2 (a1 V)) (at2 (a2 V)) (at2 (a3 V)) ((j 0).val * 2048 + (j 1).val) (j 2).val) := by
  rw [r_main_v97]
  unfold outR dot
  refine Finset.sum_congr rfl fun k _ => ?_
  rw [v79_at, v96_at]

theorem ref_value (m : (ℓ : Loc nD τ sig) → Buf (Elt Ideal) ℓ) (c : Dev nD) (b : Fin 4) (s d : Fin 2048) :
    (Cert.ReferenceIdeal.Value.res_out0 (F := Ideal) m c : S4x2048x2048.Idx → EReal) (ix3 b s d)
      = outR (rows3 (m ((c.tc : Thread nD τ).loc main_arg0) : S4x2048x2048.Idx → EReal))
             (at2 (m ((c.tc : Thread nD τ).loc main_arg1) : S5504x2048.Idx → EReal))
             (at2 (m ((c.tc : Thread nD τ).loc main_arg2) : S5504x2048.Idx → EReal))
             (at2 (m ((c.tc : Thread nD τ).loc main_arg3) : S2048x5504.Idx → EReal))
             (b.val * 2048 + s.val) d.val :=
  v97_at (StableHlo.launchContents m c) (ix3 b s d)

end Cert.ReferenceIdeal.RefValue

end
-- ==== Proof.SpecLaws.lean ====
import proofs.«102340_j15058155339839_1_alg».proof.Proof.Spec
import Mathlib.Data.EReal.Operations

noncomputable section

namespace Cert.Spec

open Idealize.ShloMosaic

theorem cLo_eq : cLo = ((-128 : ℝ) : EReal) := by
  simp [Ideal.ofBits, Ideal.ieee, -EReal.coe_mul] <;> norm_num
theorem cHi_eq : cHi = ((127 : ℝ) : EReal) := by
  simp [Ideal.ofBits, Ideal.ieee, -EReal.coe_mul] <;> norm_num
theorem c128_eq : c128 = ((128 : ℝ) : EReal) := by
  simp [Ideal.ofBits, Ideal.ieee, -EReal.coe_mul] <;> norm_num
theorem cM1_eq : cM1 = ((-1 : ℝ) : EReal) := by
  simp [Ideal.ofBits, Ideal.ieee, -EReal.coe_mul] <;> norm_num
theorem cP1_eq : cP1 = ((1 : ℝ) : EReal) := by
  simp [Ideal.ofBits, Ideal.ieee, -EReal.coe_mul] <;> norm_num
theorem cNegInf_eq : cNegInf = ⊥ := by
  simp [Ideal.ofBits, Ideal.ieee]

theorem cEps_pos : ∃ e : ℝ, 0 < e ∧ cEps = (e : EReal) := by
  refine ⟨10995116 * (2:ℝ) ^ (-40 : ℤ), by positivity, ?_⟩
  simp [Ideal.ofBits, Ideal.ieee, -EReal.coe_mul] <;> norm_num

def IsR (x : EReal) : Prop := ∃ v : ℝ, x = (v : EReal)

theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.neg {x : EReal} (hx : IsR x) : IsR (-x) := by
  obtain ⟨a, rfl⟩ := hx; exact ⟨-a, (EReal.coe_neg a).symm⟩
theorem IsR.max {x y : EReal} (hx : IsR x) (hy : IsR y) : IsR (max x y) := by
  rcases max_choice x y with h | h <;> rw [h] <;> assumption
theorem IsR.min {x y : EReal} (hx : IsR x) (hy : IsR y) : IsR (min x y) := by
  rcases min_choice x y with h | h <;> rw [h] <;> assumption

theorem IsR.div {x y : EReal} (hx : IsR x) (hy : IsR y) (h0 : y ≠ 0) : IsR (Ideal.div x y) := by
  obtain ⟨b, rfl⟩ := hy
  rw [Ideal.div_coe (EReal.coe_ne_zero.1 h0)]
  exact hx.mul ⟨1 / b, rfl⟩
theorem IsR.rne {x : EReal} (hx : IsR x) : IsR (rne x) := by
  obtain ⟨a, rfl⟩ := hx; exact ⟨(Ideal.roundHalfEven a : ℝ), rfl⟩
theorem IsR.eabs {x : EReal} (hx : IsR x) : IsR (eabs x) := hx.max hx.neg
theorem IsR.logistic {x : EReal} (hx : IsR x) : IsR (Ideal.logistic x) := by
  obtain ⟨a, rfl⟩ := hx; exact ⟨_, Ideal.logistic_coe a⟩

theorem isR_cLo : IsR cLo := ⟨_, cLo_eq⟩
theorem isR_cHi : IsR cHi := ⟨_, cHi_eq⟩
theorem isR_cM1 : IsR cM1 := ⟨_, cM1_eq⟩
theorem isR_cP1 : IsR cP1 := ⟨_, cP1_eq⟩

theorem isR_sum {ι : Type*} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem eabs_nonneg (x : EReal) : 0 ≤ eabs x := by
  unfold eabs
  rcases le_total 0 x with h | h
  · exact le_trans h (le_max_left _ _)
  · refine le_trans ?_ (le_max_right _ _)
    have := EReal.neg_le_neg_iff.2 h
    simpa using this

theorem eabs_zero : eabs 0 = 0 := by simp [eabs]

theorem isR_max_fold {ι : Type*} (s : Finset ι) (f : ι → EReal) (h : ∀ i ∈ s, IsR (f i)) {c : EReal} (hc : IsR c) :
    IsR (max c (s.fold max ⊥ f)) := by
  classical
  induction s using Finset.induction_on with
  | empty => rw [Finset.fold_empty, max_bot_right]; exact hc
  | insert a s ha ih =>
    rw [Finset.fold_insert ha, max_left_comm]
    exact (h a (Finset.mem_insert_self a s)).max (ih fun i hi => h i (Finset.mem_insert_of_mem hi))

def IsR0 (x : EReal) : Prop := ∃ v : ℝ, v ≠ 0 ∧ x = (v : EReal)

theorem isR0_rscale_rowMax (n : ℕ) {row : ℕ → EReal} (h : ∀ k, IsR (row k)) : IsR0 (rscale (rowMax n row)) := by
  obtain ⟨e, he, hce⟩ := cEps_pos
  obtain ⟨v, hv⟩ := isR_max_fold (Finset.univ : Finset (Fin n)) (fun k => eabs (row k.val)) (fun k _ => (h _).eabs)
    (c := cEps) ⟨e, hce⟩
  have hvpos : 0 < v := by
    have h1 : (e : EReal) ≤ (v : EReal) := by rw [← hce, ← hv]; exact le_max_left _ _
    exact lt_of_lt_of_le he (EReal.coe_le_coe_iff.1 h1)
  refine ⟨127 * (1 / v), mul_ne_zero (by norm_num) (one_div_ne_zero hvpos.ne'), ?_⟩
  unfold rscale rowMax
  rw [cNegInf_eq, hv, Ideal.div_coe hvpos.ne', cHi_eq, ← EReal.coe_mul]

theorem isR_qa {s x : EReal} (hs : IsR0 s) (hx : IsR x) : IsR (qa s x) := by
  obtain ⟨v, hv, rfl⟩ := hs
  unfold qa
  exact (isR_cHi.min (isR_cLo.max (hx.mul ⟨v, rfl⟩).rne)).div ⟨v, rfl⟩ (EReal.coe_ne_zero.2 hv)

theorem isR_aq (n : ℕ) {row : ℕ → EReal} (h : ∀ k, IsR (row k)) (col : ℕ) : IsR (aq n row col) :=
  isR_qa (isR0_rscale_rowMax n h) (h col)

theorem gsum_real {row : ℕ → EReal} (h : ∀ k, IsR (row k)) (col : ℕ) :
    ∃ g : ℝ, 0 ≤ g ∧ gsum row col = (g : EReal) := by
  obtain ⟨g, hg⟩ := isR_sum Finset.univ (fun l : Fin 128 => eabs (row (128 * (col / 128) + l.val)))
    (fun l _ => (h _).eabs)
  refine ⟨g, ?_, hg⟩
  have h0 : (0 : EReal) ≤ ∑ l : Fin 128, eabs (row (128 * (col / 128) + l.val)) :=
    Finset.sum_nonneg fun l _ => eabs_nonneg _
  rw [hg] at h0
  exact EReal.coe_nonneg.1 h0

theorem isR0_wsc {row : ℕ → EReal} (h : ∀ k, IsR (row k)) (col : ℕ) : IsR0 (wsc row col) := by
  obtain ⟨g, hg0, hg⟩ := gsum_real h col
  obtain ⟨e, he, hce⟩ := cEps_pos
  have hpos : 0 < g * (1 / 128) + e := by
    have : 0 ≤ g * (1 / 128) := mul_nonneg hg0 (by norm_num)
    linarith
  refine ⟨g * (1 / 128) + e, hpos.ne', ?_⟩
  unfold wsc
  rw [hg, c128_eq, Ideal.div_coe (by norm_num), hce, ← EReal.coe_mul, ← EReal.coe_add]

theorem isR_qw {sc w : EReal} (hs : IsR0 sc) (hw : IsR w) : IsR (qw sc w) := by
  obtain ⟨v, hv, rfl⟩ := hs
  unfold qw
  exact (isR_cP1.min (isR_cM1.max (hw.div ⟨v, rfl⟩ (EReal.coe_ne_zero.2 hv)))).rne.mul ⟨v, rfl⟩

theorem isR_wq {row : ℕ → EReal} (h : ∀ k, IsR (row k)) (col : ℕ) : IsR (wq row col) :=
  isR_qw (isR0_wsc h col) (h col)

theorem isR_dot (n : ℕ) {a b : ℕ → EReal} (ha : ∀ j, IsR (a j)) (hb : ∀ j, IsR (b j)) : IsR (dot n a b) :=
  isR_sum _ _ fun j _ => (ha _).mul (hb _)

theorem isR_gate {X W : ℕ → ℕ → EReal} (hX : ∀ r j, IsR (X r j)) (hW : ∀ o j, IsR (W o j)) (r o : ℕ) :
    IsR (gate X W r o) :=
  isR_dot 2048 (isR_aq 2048 (hX r)) (isR_wq (hW o))

theorem isR_hid {g u : EReal} (hg : IsR g) (hu : IsR u) : IsR (hid g u) :=
  (hg.mul hg.logistic).mul hu

theorem isR_hidden {X Wg Wu : ℕ → ℕ → EReal} (hX : ∀ r j, IsR (X r j)) (hWg : ∀ o j, IsR (Wg o j))
    (hWu : ∀ o j, IsR (Wu o j)) (r o : ℕ) : IsR (hidden X Wg Wu r o) :=
  isR_hid (isR_gate hX hWg r o) (isR_gate hX hWu r o)

theorem ste_of_real {x : EReal} (hx : IsR x) (q : EReal) : ste x q = q := by
  obtain ⟨a, rfl⟩ := hx
  unfold ste
  induction q using EReal.rec with
  | bot => rw [EReal.bot_sub, EReal.add_bot]
  | coe b => rw [← EReal.coe_sub, ← EReal.coe_add, add_sub_cancel]
  | top => rw [EReal.top_sub_coe, EReal.coe_add_top]

theorem aqR_eq (n : ℕ) {row : ℕ → EReal} (h : ∀ k, IsR (row k)) : aqR n row = aq n row :=
  funext fun col => ste_of_real (h col) _

theorem wqR_eq {row : ℕ → EReal} (h : ∀ k, IsR (row k)) : wqR row = wq row :=
  funext fun col => ste_of_real (h col) _

theorem gateR_eq {X W : ℕ → ℕ → EReal} (hX : ∀ r j, IsR (X r j)) (hW : ∀ o j, IsR (W o j)) (r o : ℕ) :
    gateR X W r o = gate X W r o := by
  unfold gateR gate
  rw [aqR_eq 2048 (hX r), wqR_eq (hW o)]

theorem hiddenR_eq {X Wg Wu : ℕ → ℕ → EReal} (hX : ∀ r j, IsR (X r j)) (hWg : ∀ o j, IsR (Wg o j))
    (hWu : ∀ o j, IsR (Wu o j)) (r : ℕ) : hiddenR X Wg Wu r = hidden X Wg Wu r :=
  funext fun o => by
    unfold hiddenR hidden
    rw [gateR_eq hX hWg, gateR_eq hX hWu]

theorem wq_zero_group {row : ℕ → EReal} {col : ℕ} (h : ∀ l, l < 128 → row (128 * (col / 128) + l) = 0) :
    wq row col = 0 := by
  have hc : row col = 0 := by
    have := h (col % 128) (Nat.mod_lt _ (by norm_num))
    rwa [Nat.div_add_mod] at this
  have hg : gsum row col = 0 := Finset.sum_eq_zero fun l _ => by rw [h l.val l.isLt, eabs_zero]
  obtain ⟨e, he, hce⟩ := cEps_pos
  have hs : wsc row col = (e : EReal) := by
    unfold wsc
    rw [hg, c128_eq, Ideal.div_coe (by norm_num), zero_mul, zero_add, hce]
  have hm1 : ((-1 : ℝ) : EReal) ≤ 0 := by exact_mod_cast (by norm_num : (-1 : ℝ) ≤ 0)
  have hp1 : (0 : EReal) ≤ ((1 : ℝ) : EReal) := by exact_mod_cast (by norm_num : (0 : ℝ) ≤ 1)
  have hr : rne 0 = 0 := by
    rw [← EReal.coe_zero]
    show ((Ideal.roundHalfEven 0 : ℝ) : EReal) = ((0 : ℝ) : EReal)
    simp [Ideal.roundHalfEven]
  unfold wq qw
  rw [hs, hc, Ideal.div_coe he.ne', zero_mul, cM1_eq, max_eq_right hm1, cP1_eq, min_eq_right hp1, hr, zero_mul]

theorem gate_zero {X W : ℕ → ℕ → EReal} {o : ℕ} (h : ∀ j, W o j = 0) (r : ℕ) : gate X W r o = 0 := by
  unfold gate dot
  exact Finset.sum_eq_zero fun j _ => by rw [wq_zero_group fun l _ => h _, mul_zero]

theorem hidden_zero {X Wg Wu : ℕ → ℕ → EReal} {o : ℕ} (h : ∀ j, Wu o j = 0) (r : ℕ) : hidden X Wg Wu r o = 0 := by
  unfold hidden hid
  rw [gate_zero h, mul_zero]

theorem rowMax_pad {m n : ℕ} (hm : 0 < m) (hmn : m ≤ n) {row : ℕ → EReal} (h0 : ∀ k, m ≤ k → row k = 0) :
    rowMax n row = rowMax m row := by
  unfold rowMax
  refine eq_of_forall_ge_iff fun c => ?_
  rw [Finset.fold_max_le, Finset.fold_max_le]
  constructor
  · rintro ⟨hb, hk⟩
    exact ⟨hb, fun k _ => hk ⟨k.val, lt_of_lt_of_le k.isLt hmn⟩ (Finset.mem_univ _)⟩
  · rintro ⟨hb, hk⟩
    refine ⟨hb, fun k _ => ?_⟩
    by_cases hkm : k.val < m
    · exact hk ⟨k.val, hkm⟩ (Finset.mem_univ _)
    · rw [h0 k.val (not_lt.1 hkm), eabs_zero]
      exact le_trans (eabs_nonneg _) (hk ⟨0, hm⟩ (Finset.mem_univ _))

theorem dot_pad {m n : ℕ} (hmn : m ≤ n) (a : ℕ → EReal) {b : ℕ → EReal} (h0 : ∀ j, m ≤ j → b j = 0) :
    dot n a b = dot m a b := by
  unfold dot
  rw [Fin.sum_univ_eq_sum_range (fun j => a j * b j) n, Fin.sum_univ_eq_sum_range (fun j => a j * b j) m]
  symm
  refine Finset.sum_subset (fun j hj => Finset.mem_range.2 (lt_of_lt_of_le (Finset.mem_range.1 hj) hmn)) ?_
  intro j _ hj
  rw [h0 j (not_lt.1 fun hlt => hj (Finset.mem_range.2 hlt)), mul_zero]

theorem out_eq (X Wg Wu Wd : ℕ → ℕ → EReal)
    (hX : ∀ r j, ∃ v : ℝ, X r j = (v : EReal))
    (hWg : ∀ o j, ∃ v : ℝ, Wg o j = (v : EReal)) (hWu : ∀ o j, ∃ v : ℝ, Wu o j = (v : EReal))
    (hWd : ∀ d j, ∃ v : ℝ, Wd d j = (v : EReal))
    (hWg0 : ∀ o j, 5504 ≤ o → Wg o j = 0) (hWu0 : ∀ o j, 5504 ≤ o → Wu o j = 0)
    (hWd0 : ∀ d j, 5504 ≤ j → Wd d j = 0) (r d : ℕ) :
    outR X Wg Wu Wd r d = out 5632 X Wg Wu Wd r d := by

  have hH : ∀ o, IsR (hidden X Wg Wu r o) := isR_hidden hX hWg hWu r
  have hH0 : ∀ o, 5504 ≤ o → hidden X Wg Wu r o = 0 := fun o ho => hidden_zero (fun j => hWu0 o j ho) r

  have hW0 : ∀ j, 5504 ≤ j → wq (Wd d) j = 0 := fun j hj =>
    wq_zero_group fun l _ => hWd0 d _ (by omega)
  have e2 : aq 5632 (hidden X Wg Wu r) = aq 5504 (hidden X Wg Wu r) := funext fun col => by
    unfold aq
    rw [rowMax_pad (m := 5504) (n := 5632) (by norm_num) (by norm_num) hH0]
  unfold outR out
  rw [hiddenR_eq hX hWg hWu r, aqR_eq 5504 hH, wqR_eq (hWd d),
    dot_pad (m := 5504) (n := 5632) (by norm_num) _ hW0, e2]

end Cert.Spec

end
-- ==== Proof.Finite.lean ====
import proofs.«102340_j15058155339839_1_alg».proof.Pre_finite_inputs
import proofs.«102340_j15058155339839_1_alg».proof.Proof.Gen.Pre_finite_inputs
import Idealize.ShloMosaic.PureOps.Ideal
import Idealize.ShloMosaic.Lib.ReduceAll

noncomputable section

namespace Cert.Finite

open Idealize.ShloMosaic Cert.Pre_finite_inputs

theorem ofBits_inf : Ideal.ofBits .f32 0x7F800000#32 = (⊤ : EReal) := by
  simp [Ideal.ofBits, Ideal.ieee]

theorem real_of_abs_lt_top (a : EReal) (h : max a (-a) < ⊤) : ∃ v : ℝ, a = (v : EReal) := by
  induction a using EReal.rec with
  | bot => simp at h
  | top => simp at h
  | coe r => exact ⟨r, rfl⟩

instance subsingleton_scalarIdx : Subsingleton S_.Idx := ⟨fun a b => funext fun d => d.elim0⟩

theorem real_of_all {s : Shape} {axes : List (Fin s.rank)} (hb : S_.BroadcastsInDim s (![] : Fin 0 → Fin s.rank))
    (hr : s.ReducesTo axes S_) (h0 : 0 < S_.numel) (x : FVec Ideal s .f32) (j : S_.Idx)
    (e : Host.reduce IntOp.andi (cmpf .olt (Host.absf x) (broadcastInDim s ![] hb (constant S_ .f32 0x7F800000#32)))
          (constantI S_ 1 1#1) hr h0 j = 1#1) :
    ∀ i, ∃ v : ℝ, x i = (v : EReal) := by
  intro i
  have hi := Host.reduce_andi_all _ _ hr h0 j e i

  have hc : Ideal.cmp .olt (max (x i) (-(x i))) (Ideal.ofBits .f32 0x7F800000#32) = 1#1 := hi
  rw [ofBits_inf] at hc
  refine real_of_abs_lt_top (x i) ?_
  by_contra hn
  simp [Ideal.cmp, hn] at hc

theorem real_of_pre [Cert.Pre_finite_inputs.Facts]
    (x : FVec Ideal S4x2048x2048 .f32) (wg wu : FVec Ideal S5504x2048 .f32) (wd : FVec Ideal S2048x5504 .f32)
    (h : Cert.Pre_finite_inputs.fn (F := Ideal) x wg wu wd = fun _ => 1#1) :
    (∀ i, ∃ v : ℝ, x i = (v : EReal)) ∧ (∀ i, ∃ v : ℝ, wg i = (v : EReal))
      ∧ (∀ i, ∃ v : ℝ, wu i = (v : EReal)) ∧ (∀ i, ∃ v : ℝ, wd i = (v : EReal)) := by
  have h1 := congrFun h (fun a => a.elim0)
  dsimp only [Cert.Pre_finite_inputs.fn, Cert.Pre_finite_inputs.fn_part1, andi] at h1

  obtain ⟨h123, h4⟩ := IntOp.andi_eq_one.1 h1
  obtain ⟨h12, h3⟩ := IntOp.andi_eq_one.1 h123
  obtain ⟨h1', h2⟩ := IntOp.andi_eq_one.1 h12
  exact ⟨real_of_all _ _ _ x _ h1', real_of_all _ _ _ wg _ h2, real_of_all _ _ _ wu _ h3, real_of_all _ _ _ wd _ h4⟩

end Cert.Finite

end
-- ==== Proof.lean ====
import proofs.«102340_j15058155339839_1_alg».proof.Defs
import proofs.«102340_j15058155339839_1_alg».proof.Proof.Gen.Kernel
import proofs.«102340_j15058155339839_1_alg».proof.Proof.Gen.KernelIdeal
import proofs.«102340_j15058155339839_1_alg».proof.Proof.Gen.ReferenceIdeal
import proofs.«102340_j15058155339839_1_alg».proof.Proof.Gen.Pre_finite_inputs
import proofs.«102340_j15058155339839_1_alg».proof.Proof.K.Run
import proofs.«102340_j15058155339839_1_alg».proof.Proof.KI.Run
import proofs.«102340_j15058155339839_1_alg».proof.Proof.KI.KernelValue
import proofs.«102340_j15058155339839_1_alg».proof.Proof.RefValue
import proofs.«102340_j15058155339839_1_alg».proof.Proof.SpecLaws
import proofs.«102340_j15058155339839_1_alg».proof.Proof.Finite
import Idealize.ShloMosaic.Adequacy
import Idealize.ShloMosaic.Init

noncomputable section

namespace Cert.Proof

open Idealize.ShloMosaic Idealize.SL.Sem Idealize.ShloMosaic.TcCoe Idealize.ShloMosaic.ValueIdx Cert.Spec

theorem at2_real {a b : ℕ} (A : (⟨2, ![a, b]⟩ : Shape).Idx → EReal) (h : ∀ i, ∃ v : ℝ, A i = (v : EReal)) (i j : ℕ) :
    ∃ v : ℝ, at2 A i j = (v : EReal) := by
  unfold at2
  split
  · exact h _
  · exact ⟨0, rfl⟩

theorem rows3_real (x : (⟨3, ![4, 2048, 2048]⟩ : Shape).Idx → EReal) (h : ∀ i, ∃ v : ℝ, x i = (v : EReal)) (r j : ℕ) :
    ∃ v : ℝ, rows3 x r j = (v : EReal) := by
  unfold rows3
  split
  · exact h _
  · exact ⟨0, rfl⟩

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Gen Cert.KernelIdeal.Hand in
theorem algebraic : Cert.algebraic_KernelIdeal_ReferenceIdeal := by
  intro m g m' g' hpre hagree
  refine ⟨fun c => V15 m (outs m) c main_v18, ?_, ?_⟩
  · exact (θ_run Cert.KernelIdeal.defs _ _).mono (fun r h c =>
      ⟨h c _ (mem_uc main_v18 (by decide)),
       (h c _ (mem_uc main_arg0 (by decide))).trans (V15_main_arg0 m (outs m) c),
       (h c _ (mem_uc main_arg1 (by decide))).trans (V15_main_arg1 m (outs m) c),
       (h c _ (mem_uc main_arg2 (by decide))).trans (V15_main_arg2 m (outs m) c),
       (h c _ (mem_uc main_arg3 (by decide))).trans (V15_main_arg3 m (outs m) c)⟩) (run_main m g)
  · refine (θ_run Cert.ReferenceIdeal.defs _ _).mono (fun r h c => ⟨(h c).1.trans ?_, (h c).2⟩)
      (Cert.ReferenceIdeal.Value.run (F := Ideal) m' g')
    funext i
    obtain ⟨b, s, d, rfl⟩ : ∃ (b : Fin 4) (s d : Fin 2048), i = ix3 b s d := ⟨i 0, i 1, i 2, eq_ix3 i⟩
    obtain ⟨hx, hwg, hwu, hwd⟩ := Cert.Finite.real_of_pre _ _ _ _ (hpre c)
    have e0 := (hagree c).1
    have e1 := (hagree c).2.1
    have e2 := (hagree c).2.2.1
    have e3 := (hagree c).2.2.2
    refine (Cert.ReferenceIdeal.RefValue.ref_value m' c b s d).trans ?_
    rw [e0, e1, e2, e3]
    refine (Cert.Spec.out_eq _ _ _ _ (rows3_real _ hx) (at2_real _ hwg) (at2_real _ hwu) (at2_real _ hwd)
      (fun o j ho => at2_of_ge_left _ j ho) (fun o j ho => at2_of_ge_left _ j ho) (fun d j hj => at2_of_ge_right _ d hj) _ _).trans ?_
    exact (kernel_value m c b s d).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
